-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x64 : Shape := ⟨3, ![4, 16384, 64]⟩
abbrev S4x64x16x64 : Shape := ⟨4, ![4, 64, 16, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1024x64 : Shape := ⟨2, ![1024, 64]⟩
abbrev S1024 : Shape := ⟨1, ![1024]⟩
abbrev S_ : Shape := ⟨0, ![]⟩

class Facts : Prop where
  bcast_S_S4x16384x64 : S_.BroadcastsInDim S4x16384x64 (![] : Fin 0 → Fin S4x16384x64.rank)
  reducesTo_S4x16384x64_S_d0_1_2 : S4x16384x64.ReducesTo [0, 1, 2] S_
  h_S_ : 0 < S_.numel
  bcast_S_S4x64x16x64 : S_.BroadcastsInDim S4x64x16x64 (![] : Fin 0 → Fin S4x64x16x64.rank)
  reducesTo_S4x64x16x64_S_d0_1_2_3 : S4x64x16x64.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x64 .f32) (main_v50 : FVec F S1024x64 .f32) : IVec S_ 1 :=
  let main_v51 : IVec S1024x64 1 := cmpf .olt main_v49 main_v50
  let main_c_19 : IVec S_ 1 := constantI S_ 1 1#1
  let main_v52 : IVec S_ 1 := (fun x v => Host.reduce IntOp.andi x v reducesTo_S1024x64_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S64 .f32) (main_arg8 : FVec F S64 .f32) (main_arg9 : FVec F S64 .f32) (main_arg10 : FVec F S1024x64 .f32) (main_arg11 : FVec F S1024 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1024x64 .f32 := Host.absf main_arg10
  let main_cst_18 : FVec F S_ .f32 := constant S_ .f32 0x7F800000#32
  let main_v50 : FVec F S1024x64 .f32 := broadcastInDim S1024x64 ![] bcast_S_S1024x64 main_cst_18
  fn_part3 (F := F) main_arg11 main_v48 main_v49 main_v50

def fn_part1 {F : FTy → Type} [FloatOps F] (main_arg4 : FVec F S128 .f32) (main_arg5 : FVec F S128 .f32) (main_arg6 : FVec F S64x128 .f32) (main_arg7 : FVec F S64 .f32) (main_arg8 : FVec F S64 .f32) (main_arg9 : FVec F S64 .f32) (main_arg10 : FVec F S1024x64 .f32) (main_arg11 : FVec F S1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x16384x64 .f32) (main_arg1 : FVec F S4x64x16x64 .f32) (main_arg2 : FVec F S128x128 .f32) (main_arg3 : FVec F S128 .f32) (main_arg4 : FVec F S128 .f32) (main_arg5 : FVec F S128 .f32) (main_arg6 : FVec F S64x128 .f32) (main_arg7 : FVec F S64 .f32) (main_arg8 : FVec F S64 .f32) (main_arg9 : FVec F S64 .f32) (main_arg10 : FVec F S1024x64 .f32) (main_arg11 : FVec F S1024 .f32) : IVec S_ 1 :=
  let main_v0 : FVec F S4x16384x64 .f32 := Host.absf main_arg0
  let main_cst : FVec F S_ .f32 := constant S_ .f32 0x7F800000#32
  let main_v1 : FVec F S4x16384x64 .f32 := broadcastInDim S4x16384x64 ![] bcast_S_S4x16384x64 main_cst
  let main_v2 : IVec S4x16384x64 1 := cmpf .olt main_v0 main_v1
  let main_c : IVec S_ 1 := constantI S_ 1 1#1
  let main_v3 : IVec S_ 1 := (fun x v => Host.reduce IntOp.andi x v reducesTo_S4x16384x64_S_d0_1_2 h_S_) main_v2 main_c
  let main_v4 : FVec F S4x64x16x64 .f32 := Host.absf main_arg1
  let main_cst_0 : FVec F S_ .f32 := constant S_ .f32 0x7F800000#32
  let main_v5 : FVec F S4x64x16x64 .f32 := broadcastInDim S4x64x16x64 ![] bcast_S_S4x64x16x64 main_cst_0
  let main_v6 : IVec S4x64x16x64 1 := cmpf .olt main_v4 main_v5
  let main_c_1 : IVec S_ 1 := constantI S_ 1 1#1
  let main_v7 : IVec S_ 1 := (fun x v => Host.reduce IntOp.andi x v reducesTo_S4x64x16x64_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S4x16384x64 : Shape := ⟨3, ![4, 16384, 64]⟩
abbrev S4x64x16x64 : Shape := ⟨4, ![4, 64, 16, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1024x64 : Shape := ⟨2, ![1024, 64]⟩
abbrev S1024 : Shape := ⟨1, ![1024]⟩
abbrev S4x64x1024 : Shape := ⟨3, ![4, 64, 1024]⟩
abbrev S_ : Shape := ⟨0, ![]⟩
abbrev S4x64 : Shape := ⟨2, ![4, 64]⟩
abbrev S128x64 : Shape := ⟨2, ![128, 64]⟩
abbrev S4x128 : Shape := ⟨2, ![4, 128]⟩
abbrev S1x128 : Shape := ⟨2, ![1, 128]⟩
abbrev S64x1024 : Shape := ⟨2, ![64, 1024]⟩
abbrev S4x1024x64 : Shape := ⟨3, ![4, 1024, 64]⟩
abbrev S1x64 : Shape := ⟨2, ![1, 64]⟩
abbrev S1x1024 : Shape := ⟨2, ![1, 1024]⟩
abbrev S1x2048x64 : Shape := ⟨3, ![1, 2048, 64]⟩
abbrev S2048x64 : Shape := ⟨2, ![2048, 64]⟩
abbrev S2048x128 : Shape := ⟨2, ![2048, 128]⟩
abbrev S1x1024x64 : Shape := ⟨3, ![1, 1024, 64]⟩
abbrev S2048x1024 : Shape := ⟨2, ![2048, 1024]⟩

abbrev nBuf : Space → Nat
  | .hbm => 40
  | .vmem => 42
  | .smem => 0
  | _ => 0

abbrev bufTy : (tb : Table) → Fin (tcTables nBuf tb) → BufTy
  | .hbm, ⟨0, _⟩ => ⟨S4x16384x64, .f32⟩
  | .hbm, ⟨1, _⟩ => ⟨S4x64x16x64, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1024x64, .f32⟩
  | .hbm, ⟨11, _⟩ => ⟨S1024, .f32⟩
  | .hbm, ⟨12, _⟩ => ⟨S4x64x1024, .f32⟩
  | .hbm, ⟨13, _⟩ => ⟨S_, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S128x64, .f32⟩
  | .hbm, ⟨19, _⟩ => ⟨S128x64, .f32⟩
  | .hbm, ⟨20, _⟩ => ⟨S64x128, .f32⟩
  | .hbm, ⟨21, _⟩ => ⟨S4x128, .f32⟩
  | .hbm, ⟨22, _⟩ => ⟨S1x128, .f32⟩
  | .hbm, ⟨23, _⟩ => ⟨S4x128, .f32⟩
  | .hbm, ⟨24, _⟩ => ⟨S4x128, .f32⟩
  | .hbm, ⟨25, _⟩ => ⟨S64x128, .f32⟩
  | .hbm, ⟨26, _⟩ => ⟨S128x64, .f32⟩
  | .hbm, ⟨27, _⟩ => ⟨S64x1024, .f32⟩
  | .hbm, ⟨28, _⟩ => ⟨S4x1024x64, .f32⟩
  | .hbm, ⟨29, _⟩ => ⟨S1x128, .f32⟩
  | .hbm, ⟨30, _⟩ => ⟨S1x128, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x1024, .f32⟩
  | .hbm, ⟨35, _⟩ => ⟨S1x128, .f32⟩
  | .hbm, ⟨36, _⟩ => ⟨S1x128, .f32⟩
  | .hbm, ⟨37, _⟩ => ⟨S1x64, .f32⟩
  | .hbm, ⟨38, _⟩ => ⟨S1x64, .f32⟩
  | .hbm, ⟨39, _⟩ => ⟨S4x16384x64, .f32⟩
  | .local _ .vmem, ⟨0, _⟩ => ⟨S1x2048x64, .f32⟩
  | .local _ .vmem, ⟨1, _⟩ => ⟨S1x2048x64, .f32⟩
  | .local _ .vmem, ⟨2, _⟩ => ⟨S4x128, .f32⟩
  | .local _ .vmem, ⟨3, _⟩ => ⟨S64x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x2048x64, .f32⟩
  | .local _ .vmem, ⟨9, _⟩ => ⟨S1x2048x64, .f32⟩
  | .local _ .vmem, ⟨10, _⟩ => ⟨S4x128, .f32⟩
  | .local _ .vmem, ⟨11, _⟩ => ⟨S64x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x2048x64, .f32⟩
  | .local _ .vmem, ⟨23, _⟩ => ⟨S1x2048x64, .f32⟩
  | .local _ .vmem, ⟨24, _⟩ => ⟨S4x128, .f32⟩
  | .local _ .vmem, ⟨25, _⟩ => ⟨S64x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S64x1024, .f32⟩
  | .local _ .vmem, ⟨37, _⟩ => ⟨S1x1024, .f32⟩
  | .local _ .vmem, ⟨38, _⟩ => ⟨S1x1024x64, .f32⟩
  | .local _ .vmem, ⟨39, _⟩ => ⟨S1x1024x64, .f32⟩
  | .local _ .vmem, ⟨40, _⟩ => ⟨S1x2048x64, .f32⟩
  | .local _ .vmem, ⟨41, _⟩ => ⟨S1x2048x64, .f32⟩
  | _, _ => ⟨S4x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v22_0 : Ref sig .tc := ⟨.hbm, 37, rfl⟩
abbrev main_v22_1 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg14_0 : Ref sig .tc := ⟨.vmem, 37, rfl⟩
abbrev cc2_stg15_0 : Ref sig .tc := ⟨.vmem, 38, rfl⟩
abbrev cc2_stg15_1 : Ref sig .tc := ⟨.vmem, 39, rfl⟩
abbrev cc2_stg16_0 : Ref sig .tc := ⟨.vmem, 40, rfl⟩
abbrev cc2_stg16_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem15_1 : DmaSem sig := 35
abbrev cc2_sem16_0 : DmaSem sig := 36
abbrev cc2_sem16_1 : DmaSem sig := 37

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg0 : BitVec 32 := BitVec.ofNat 32 (i 0).val
  let v7 : Index := Scalar.indexCast arg0
  let c0_4 : Index := 0#32
  ![v7.toNat, 0]
def k0_cond2 (i : grid0.Coords) : BitVec 1 :=
  let arg0 : BitVec 32 := BitVec.ofNat 32 (i 0).val
  let c3_i32 : BitVec 32 := 3#32
  let v31 : BitVec 1 := Scalar.cmpi .eq arg0 c3_i32
  let arg1 : BitVec 32 := BitVec.ofNat 32 (i 1).val
  let c7_i32 : BitVec 32 := 7#32
  let v32 : BitVec 1 := Scalar.cmpi .eq arg1 c7_i32
  let v33 : BitVec 1 := Scalar.andi v31 v32
  let v34 : BitVec 32 := Scalar.extui v33
  let c0_i32_17 : BitVec 32 := 0#32
  let v35 : BitVec 1 := Scalar.cmpi .ne v34 c0_i32_17
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![4, 8], ![false, false]⟩

def k1_off1 (i : grid1.Coords) : Fin 2 → Nat :=
  let arg0 : BitVec 32 := BitVec.ofNat 32 (i 0).val
  let v7 : Index := Scalar.indexCast arg0
  let c0_4 : Index := 0#32
  ![v7.toNat, 0]
def k1_cond2 (i : grid1.Coords) : BitVec 1 :=
  let arg0 : BitVec 32 := BitVec.ofNat 32 (i 0).val
  let c3_i32 : BitVec 32 := 3#32
  let v59 : BitVec 1 := Scalar.cmpi .eq arg0 c3_i32
  let arg1 : BitVec 32 := BitVec.ofNat 32 (i 1).val
  let c7_i32 : BitVec 32 := 7#32
  let v60 : BitVec 1 := Scalar.cmpi .eq arg1 c7_i32
  let v61 : BitVec 1 := Scalar.andi v59 v60
  let v62 : BitVec 32 := Scalar.extui v61
  let c0_i32_32 : BitVec 32 := 0#32
  let v63 : BitVec 1 := Scalar.cmpi .ne v62 c0_i32_32
  v63

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev grid2 : Pipeline.Grid := ⟨2, ![4, 8], ![false, false]⟩

def k2_off1 (i : grid2.Coords) : Fin 2 → Nat :=
  let arg0 : BitVec 32 := BitVec.ofNat 32 (i 0).val
  let v2 : Index := Scalar.indexCast arg0
  let c0_2 : Index := 0#32
  ![v2.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_16 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S64x1024 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 2 → Memref sig .tc .vmem S1x1024x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, false]

abbrev stage2_16 : Fin 2 → Memref sig .tc .vmem S1x2048x64 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]

class Facts₀ : Prop where
  shapeCasts_S4x64x16x64_S4x64x1024 : S4x64x16x64.ShapeCasts S4x64x1024
  reducesTo_S4x64x1024_S4x64_d2 : S4x64x1024.ReducesTo [2] S4x64
  h_S_ : 0 < S_.numel
  bcast_S_S4x64 : S_.BroadcastsInDim S4x64 (![] : Fin 0 → Fin S4x64.rank)
  slices_S128x128_S128x64_0_0 : S128x128.Slices ![0, 0] S128x64
  slices_S128x128_S128x64_0_64 : S128x128.Slices ![0, 64] S128x64
  transposes_S128x64_S64x128_1_0 : S128x64.Transposes [1, 0] S64x128
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  transposes_S64x128_S128x64_1_0 : S64x128.Transposes [1, 0] S128x64
  transposes_S1024x64_S64x1024_1_0 : S1024x64.Transposes [1, 0] S64x1024
  transposes_S4x64x1024_S4x1024x64_0_2_1 : S4x64x1024.Transposes [0, 2, 1] S4x1024x64
  shapeCasts_S128_S1x128 : S128.ShapeCasts S1x128
  shapeCasts_S64_S1x64 : S64.ShapeCasts S1x64
  shapeCasts_S1024_S1x1024 : S1024.ShapeCasts S1x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S1x128_S128 : S1x128.ShapeCasts S128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S2048x128 : S1x128.Broadcasts S2048x128
  reduces_S2048x128_S128 : S2048x128.Reduces [0] S128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S2048x64 : S1x64.Broadcasts S2048x64
  reduces_S2048x64_S64 : S2048x64.Reduces [0] S64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S2048x64_S1x2048x64 : S2048x64.ShapeCasts S1x2048x64
  dot_S4x64_S64x128_S4x128_1_0_0_1_n_n_wf : DotDims.WF S4x64 S64x128 S4x128 [1] [0] [0] [1] [] []
  dot_S2048x64_S64x128_S2048x128_1_0_0_1_n_n_wf : DotDims.WF S2048x64 S64x128 S2048x128 [1] [0] [0] [1] [] []
  dot_S2048x128_S128x64_S2048x64_1_0_0_1_n_n_wf : DotDims.WF S2048x128 S128x64 S2048x64 [1] [0] [0] [1] [] []
  dot_S2048x64_S64x1024_S2048x1024_1_0_0_1_n_n_wf : DotDims.WF S2048x64 S64x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  k0_off1_inb : ∀ i : grid0.Coords, ∀ a, (k0_off1 i) a + S1x128.size a ≤ S4x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S4x16384x64.size a
  hwx0_0 : ∀ i : grid0.Coords, EltTy.bits .f32 = 32 ∨ (Rect.block (s := S4x16384x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  k1_off1_inb : ∀ i : grid1.Coords, ∀ a, (k1_off1 i) a + S1x128.size a ≤ S4x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S4x16384x64.size a
  hwx1_0 : ∀ i : grid1.Coords, EltTy.bits .f32 = 32 ∨ (Rect.block (s := S4x16384x64) S1x2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128.size a ≤ S4x128.size a
  hwx1_1 : ∀ i : grid1.Coords, EltTy.bits .f32 = 32 ∨ (Rect.block (s := S4x128) S4x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hrank2 : 0 < grid2.rank
  k2_off1_inb : ∀ i : grid2.Coords, ∀ a, (k2_off1 i) a + S1x128.size a ≤ S4x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x64.size a ≤ S4x16384x64.size a
  hwx2_0 : ∀ i : grid2.Coords, EltTy.bits .f32 = 32 ∨ (Rect.block (s := S4x16384x64) S1x2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x128.size a ≤ S4x128.size a
  hwx2_1 : ∀ i : grid2.Coords, EltTy.bits .f32 = 32 ∨ (Rect.block (s := S4x128) S4x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x64.size a ≤ S128x64.size a
  hwx2_7 : ∀ i : grid2.Coords, EltTy.bits .f32 = 32 ∨ (Rect.block (s := S128x64) S128x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S64x1024.size a ≤ S64x1024.size a
  hwx2_13 : ∀ i : grid2.Coords, EltTy.bits .f32 = 32 ∨ (Rect.block (s := S64x1024) S64x1024.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x1024.size a ≤ S1x1024.size a
  hwx2_14 : ∀ i : grid2.Coords, EltTy.bits .f32 = 32 ∨ (Rect.block (s := S1x1024) S1x1024.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S1x1024x64.size a ≤ S4x1024x64.size a
  hwx2_15 : ∀ i : grid2.Coords, EltTy.bits .f32 = 32 ∨ (Rect.block (s := S4x1024x64) S1x1024x64.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S1x2048x64.size a ≤ S4x16384x64.size a
  hwx2_16 : ∀ i : grid2.Coords, EltTy.bits .f32 = 32 ∨ (Rect.block (s := S4x16384x64) S1x2048x64.size (cc2_transform_16 i) (hinb2_16 i)).WholeWords (EltTy.packing .f32)

variable [Facts₀]

def dot_S4x64_S64x128_S4x128_1_0_0_1_n_n : DotDims S4x64 S64x128 S4x128 where
  lhsContracting := [1]
  rhsContracting := [0]
  lhsNonContracting := [0]
  rhsNonContracting := [1]
  lhsBatch := []
  rhsBatch := []
  wf := dot_S4x64_S64x128_S4x128_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22_0) S1x64.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v22_1) S1x64.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | 10 => fun i => !(k1_cond2 i == 1#1) | ⟨_ + 11, h⟩ => absurd h (Nat.not_lt.2 (Nat.le_add_left _ _))

abbrev win2_0 : Pipeline.Window sig grid2 :=
  Pipeline.Window.ofSpec (Memref.whole main_arg0) S1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21_0) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21_1) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v12) S128x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v22_0) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v22_1) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v18) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v19) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v13) S64x1024.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v20) S1x1024.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v14) S1x1024x64.size cc2_transform_15 reads2_15 false false 2 stage2_15 sem2_15
    hrank2 hreads2_15 hinb2_15 nbuf2_15 (Memref.isWhole_whole _) hwx2_15 hstage2_15

abbrev win2_16 : Pipeline.Window sig grid2 :=
  Pipeline.Window.ofSpec (Memref.whole main_v23) S1x2048x64.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

class Facts : Prop extends Facts₀ where

variable [Facts]
-- ==== ReferenceIdeal.lean ====
abbrev S4x16384x64 : Shape := ⟨3, ![4, 16384, 64]⟩
abbrev S4x64x16x64 : Shape := ⟨4, ![4, 64, 16, 64]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1024x64 : Shape := ⟨2, ![1024, 64]⟩
abbrev S1024 : Shape := ⟨1, ![1024]⟩
abbrev S4x64x1024 : Shape := ⟨3, ![4, 64, 1024]⟩
abbrev S_ : Shape := ⟨0, ![]⟩
abbrev S4x64 : Shape := ⟨2, ![4, 64]⟩
abbrev S4x1x64 : Shape := ⟨3, ![4, 1, 64]⟩
abbrev S4x16384x128 : Shape := ⟨3, ![4, 16384, 128]⟩
abbrev S1x1x128 : Shape := ⟨3, ![1, 1, 128]⟩
abbrev S1x1x64 : Shape := ⟨3, ![1, 1, 64]⟩
abbrev S4x16384x1024 : Shape := ⟨3, ![4, 16384, 1024]⟩
abbrev S1x1x1024 : Shape := ⟨3, ![1, 1, 1024]⟩

abbrev nBuf : Space → Nat
  | .hbm => 131
  | .vmem => 0
  | .smem => 0
  | _ => 0

abbrev hbmTy0_0 (i : Nat) : BufTy := match i % 128 with
  | 0 => ⟨S4x16384x64, .f32⟩
  | 1 => ⟨S4x64x16x64, .f32⟩
  | 2 => ⟨S128x128, .f32⟩
  | 3 => ⟨S128, .f32⟩
  | 4 => ⟨S128, .f32⟩
  | 5 => ⟨S128, .f32⟩
  | 6 => ⟨S64x128, .f32⟩
  | 7 => ⟨S64, .f32⟩
  | 8 => ⟨S64, .f32⟩
  | 9 => ⟨S64, .f32⟩
  | 10 => ⟨S1024x64, .f32⟩
  | 11 => ⟨S1024, .f32⟩
  | 12 => ⟨S4x64x1024, .f32⟩
  | 13 => ⟨S_, .f32⟩
  | 14 => ⟨S4x64, .f32⟩
  | 15 => ⟨S_, .f32⟩
  | 16 => ⟨S4x64, .f32⟩
  | 17 => ⟨S4x64, .f32⟩
  | 18 => ⟨S4x1x64, .f32⟩
  | 19 => ⟨S4x16384x64, .f32⟩
  | 20 => ⟨S4x16384x128, .f32⟩
  | 21 => ⟨S4x16384x128, .f32⟩
  | 22 => ⟨S1x1x128, .f32⟩
  | 23 => ⟨S4x16384x128, .f32⟩
  | 24 => ⟨S4x16384x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x1x128, .f32⟩
  | 34 => ⟨S_, .f32⟩
  | 35 => ⟨S1x1x128, .f32⟩
  | 36 => ⟨S1x1x128, .f32⟩
  | 37 => ⟨S4x16384x128, .f32⟩
  | 38 => ⟨S4x16384x128, .f32⟩
  | 39 => ⟨S4x16384x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x1x128, .f32⟩
  | 54 => ⟨S4x16384x128, .f32⟩
  | 55 => ⟨S4x16384x128, .f32⟩
  | 56 => ⟨S_, .f32⟩
  | 57 => ⟨S128, .f32⟩
  | 58 => ⟨S128, .f32⟩
  | 59 => ⟨S128, .f32⟩
  | 60 => ⟨S1x1x128, .f32⟩
  | 61 => ⟨S4x16384x128, .f32⟩
  | 62 => ⟨S4x16384x128, .f32⟩
  | 63 => ⟨S1x1x128, .f32⟩
  | 64 => ⟨S4x16384x128, .f32⟩
  | 65 => ⟨S4x16384x128, .f32⟩
  | 66 => ⟨S1x1x128, .f32⟩
  | 67 => ⟨S4x16384x128, .f32⟩
  | 68 => ⟨S4x16384x128, .f32⟩
  | 69 => ⟨S_, .f32⟩
  | 70 => ⟨S4x16384x128, .f32⟩
  | 71 => ⟨S4x16384x128, .f32⟩
  | 72 => ⟨S4x16384x64, .f32⟩
  | 73 => ⟨S1x1x64, .f32⟩
  | 74 => ⟨S4x16384x64, .f32⟩
  | 75 => ⟨S4x16384x64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x1x64, .f32⟩
  | 85 => ⟨S_, .f32⟩
  | 86 => ⟨S1x1x64, .f32⟩
  | 87 => ⟨S1x1x64, .f32⟩
  | 88 => ⟨S4x16384x64, .f32⟩
  | 89 => ⟨S4x16384x64, .f32⟩
  | 90 => ⟨S4x16384x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x1x64, .f32⟩
  | 105 => ⟨S4x16384x64, .f32⟩
  | 106 => ⟨S4x16384x64, .f32⟩
  | 107 => ⟨S_, .f32⟩
  | 108 => ⟨S64, .f32⟩
  | 109 => ⟨S64, .f32⟩
  | 110 => ⟨S64, .f32⟩
  | 111 => ⟨S1x1x64, .f32⟩
  | 112 => ⟨S4x16384x64, .f32⟩
  | 113 => ⟨S4x16384x64, .f32⟩
  | 114 => ⟨S1x1x64, .f32⟩
  | 115 => ⟨S4x16384x64, .f32⟩
  | 116 => ⟨S4x16384x64, .f32⟩
  | 117 => ⟨S1x1x64, .f32⟩
  | 118 => ⟨S4x16384x64, .f32⟩
  | 119 => ⟨S4x16384x64, .f32⟩
  | 120 => ⟨S_, .f32⟩
  | 121 => ⟨S4x16384x64, .f32⟩
  | 122 => ⟨S4x16384x64, .f32⟩
  | 123 => ⟨S4x16384x1024, .f32⟩
  | 124 => ⟨S1x1x1024, .f32⟩
  | 125 => ⟨S4x16384x1024, .f32⟩
  | 126 => ⟨S4x16384x1024, .f32⟩
  | 127 => ⟨S4x16384x64, .f32⟩
  | _ => ⟨S4x16384x64, .f32⟩

abbrev hbmTy0_1 (i : Nat) : BufTy := match i % 128 with
  | 0 => ⟨S_, .f32⟩
  | 1 => ⟨S4x16384x64, .f32⟩
  | 2 => ⟨S4x16384x64, .f32⟩
  | _ => ⟨S4x16384x64, .f32⟩

abbrev hbmTy (i : Nat) : BufTy := match i / 128 with
  | 0 => hbmTy0_0 i
  | 1 => hbmTy0_1 i
  | _ => ⟨S4x16384x64, .f32⟩

abbrev bufTy : (tb : Table) → Fin (tcTables nBuf tb) → BufTy
  | .hbm, ⟨i, _⟩ => hbmTy i
  | _, _ => ⟨S4x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call1_cst : Ref sig .tc := ⟨.hbm, 69, rfl⟩
abbrev main_call1_v0 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_4 : Ref sig .tc := ⟨.hbm, 76, rfl⟩
abbrev main_v35 : Ref sig .tc := ⟨.hbm, 77, rfl⟩
abbrev main_cst_5 : Ref sig .tc := ⟨.hbm, 78, rfl⟩
abbrev main_v36 : Ref sig .tc := ⟨.hbm, 79, rfl⟩
abbrev main_v37 : Ref sig .tc := ⟨.hbm, 80, rfl⟩
abbrev main_c_6 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_cst_2 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_cst_3 : Ref sig .tc := ⟨.hbm, 98, rfl⟩
abbrev main_call2_v12 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_7 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_call3_cst : Ref sig .tc := ⟨.hbm, 120, rfl⟩
abbrev main_call3_v0 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_cst_8 : Ref sig .tc := ⟨.hbm, 128, rfl⟩
abbrev main_v60 : Ref sig .tc := ⟨.hbm, 129, rfl⟩
abbrev main_v61 : Ref sig .tc := ⟨.hbm, 130, rfl⟩

abbrev nD : Nat := 1
abbrev τ : Topo := Topo.v7x

variable {F : FTy → Type} [FloatOps F]

class Facts₀ : Prop where
  shapeCasts_S4x64x16x64_S4x64x1024 : S4x64x16x64.ShapeCasts S4x64x1024
  reducesTo_S4x64x1024_S4x64_d2 : S4x64x1024.ReducesTo [2] S4x64
  h_S_ : 0 < S_.numel
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  bcast_S4x1x64_S4x16384x64_0_1_2 : S4x1x64.BroadcastsInDim S4x16384x64 (![0, 1, 2] : Fin 3 → Fin S4x16384x64.rank)
  concatenates_S4x16384x64_S4x16384x64_S4x16384x128_d2 : Shape.Concatenates [S4x16384x64, S4x16384x64] S4x16384x128 2
  bcast_S128_S1x1x128_2 : S128.BroadcastsInDim S1x1x128 (![2] : Fin 1 → Fin S1x1x128.rank)
  bcast_S1x1x128_S4x16384x128_0_1_2 : S1x1x128.BroadcastsInDim S4x16384x128 (![0, 1, 2] : Fin 3 → Fin S4x16384x128.rank)
  reducesTo_S4x16384x128_S128_d0_1 : S4x16384x128.ReducesTo [0, 1] S128
  bcast_S_S128 : S_.BroadcastsInDim S128 (![] : Fin 0 → Fin S128.rank)
  bcast_S_S1x1x128 : S_.BroadcastsInDim S1x1x128 (![] : Fin 0 → Fin S1x1x128.rank)
  bcast_S_S4x16384x128 : S_.BroadcastsInDim S4x16384x128 (![] : Fin 0 → Fin S4x16384x128.rank)
  bcast_S64_S1x1x64_2 : S64.BroadcastsInDim S1x1x64 (![2] : Fin 1 → Fin S1x1x64.rank)
  bcast_S1x1x64_S4x16384x64_0_1_2 : S1x1x64.BroadcastsInDim S4x16384x64 (![0, 1, 2] : Fin 3 → Fin S4x16384x64.rank)
  reducesTo_S4x16384x64_S64_d0_1 : S4x16384x64.ReducesTo [0, 1] S64
  bcast_S_S64 : S_.BroadcastsInDim S64 (![] : Fin 0 → Fin S64.rank)
  bcast_S_S1x1x64 : S_.BroadcastsInDim S1x1x64 (![] : Fin 0 → Fin S1x1x64.rank)
  bcast_S_S4x16384x64 : S_.BroadcastsInDim S4x16384x64 (![] : Fin 0 → Fin S4x16384x64.rank)
  bcast_S1024_S1x1x1024_2 : S1024.BroadcastsInDim S1x1x1024 (![2] : Fin 1 → Fin S1x1x1024.rank)
  bcast_S1x1x1024_S4x16384x1024_0_1_2 : S1x1x1024.BroadcastsInDim S4x16384x1024 (![0, 1, 2] : Fin 3 → Fin S4x16384x1024.rank)
  dot_S4x16384x128_S128x128_S4x16384x128_2_1_01_0_n_n_wf : DotDims.WF S4x16384x128 S128x128 S4x16384x128 [2] [1] [0, 1] [0] [] []
  dot_S4x16384x128_S64x128_S4x16384x64_2_1_01_0_n_n_wf : DotDims.WF S4x16384x128 S64x128 S4x16384x64 [2] [1] [0, 1] [0] [] []
  dot_S4x16384x64_S1024x64_S4x16384x1024_2_1_01_0_n_n_wf : DotDims.WF S4x16384x64 S1024x64 S4x16384x1024 [2] [1] [0, 1] [0] [] []
  dot_S4x16384x1024_S4x64x1024_S4x16384x64_2_2_1_1_0_0_wf : DotDims.WF S4x16384x1024 S4x64x1024 S4x16384x64 [2] [2] [1] [1] [0] [0]

variable [Facts₀]

def dot_S4x16384x128_S128x128_S4x16384x128_2_1_01_0_n_n : DotDims S4x16384x128 S128x128 S4x16384x128 where
  lhsContracting := [2]
  rhsContracting := [1]
  lhsNonContracting := [0, 1]
  rhsNonContracting := [0]
  lhsBatch := []
  rhsBatch := []
  wf := dot_S4x16384x128_S128x128_S4x16384x128_2_1_01_0_n_n_wf
def dot_S4x16384x128_S64x128_S4x16384x64_2_1_01_0_n_n : DotDims S4x16384x128 S64x128 S4x16384x64 where
  lhsContracting := [2]
  rhsContracting := [1]
  lhsNonContracting := [0, 1]
  rhsNonContracting := [0]
  lhsBatch := []
  rhsBatch := []
  wf := dot_S4x16384x128_S64x128_S4x16384x64_2_1_01_0_n_n_wf
def dot_S4x16384x64_S1024x64_S4x16384x1024_2_1_01_0_n_n : DotDims S4x16384x64 S1024x64 S4x16384x1024 where
  lhsContracting := [2]
  rhsContracting := [1]
  lhsNonContracting := [0, 1]
  rhsNonContracting := [0]
  lhsBatch := []
  rhsBatch := []
  wf := dot_S4x16384x64_S1024x64_S4x16384x1024_2_1_01_0_n_n_wf
def dot_S4x16384x1024_S4x64x1024_S4x16384x64_2_2_1_1_0_0 : DotDims S4x16384x1024 S4x64x1024 S4x16384x64 where
  lhsContracting := [2]
  rhsContracting := [2]
  lhsNonContracting := [1]
  rhsNonContracting := [1]
  lhsBatch := [0]
  rhsBatch := [0]
  wf := dot_S4x16384x1024_S4x64x1024_S4x16384x64_2_2_1_1_0_0_wf

class Facts : Prop extends Facts₀ where

variable [Facts]
-- ==== Proof.K.R0Runs.lean ====
import proofs.«121860_j42219528520113_1_alg».proof.Proof.Gen.Kernel.Launch
import proofs.«121860_j42219528520113_1_alg».proof.Proof.Gen.Kernel.Skeleton
import proofs.«121860_j42219528520113_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 31 :=
  (by decide +kernel : ∀ t : Fin grid0.N, cond0_1 (grid0.coords t) ↔ t.val = 31)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem idleAt0_3 : ∀ t : Fin cfg0.N, ¬cond0_1 (grid0.coords t) → cfg0.idle 3 (grid0.coords t) = true := by decide +kernel

theorem noFlush0_3 : ∀ t : Fin cfg0.N, ¬cond0_1 (grid0.coords t) → (cfg0.win 3).flush t = false := by decide +kernel

theorem idleAt0_4 : ∀ t : Fin cfg0.N, ¬cond0_1 (grid0.coords t) → cfg0.idle 4 (grid0.coords t) = true := by decide +kernel

theorem noFlush0_4 : ∀ t : Fin cfg0.N, ¬cond0_1 (grid0.coords t) → (cfg0.win 4).flush t = false := by decide +kernel

theorem liveAt0_3 : ∀ t : Fin cfg0.N, cond0_1 (grid0.coords t) → cfg0.idle 3 (grid0.coords t) = false := by decide +kernel

theorem liveAt0_4 : ∀ t : Fin cfg0.N, cond0_1 (grid0.coords t) → cfg0.idle 4 (grid0.coords t) = false := by decide +kernel

abbrev VO0_3 : View sig .tc .vmem S1x128 .f32 := (Memref.whole cc0_stg3_0 : Memref sig .tc .vmem S1x128 .f32).view

abbrev VO0_4 : View sig .tc .vmem S1x128 .f32 := (Memref.whole cc0_stg4_0 : Memref sig .tc .vmem S1x128 .f32).view

abbrev ms0_0 (t : Fin cfg0.N) : Memref sig .tc .vmem S1x2048x64 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S4x128 .f32 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S64x128 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S1x128 .f32 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S1x128 .f32 := win0_4.stage (cfg0.slots t 4)

abbrev hs0_4 (t : Fin cfg0.N) : (ms0_4 t).IsWhole := hstage0_4 ((cfg0.slots t 4).cast nbuf0_4)

abbrev scM0_0 : Memref sig .tc .vmem S1x128 .f32 := Memref.whole cc0_scratch0

abbrev scM0_1 : Memref sig .tc .vmem S1x128 .f32 := Memref.whole cc0_scratch1

abbrev VS0_0 : View sig .tc .vmem S1x128 .f32 := scM0_0.view

abbrev VS0_1 : View sig .tc .vmem S1x128 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Regions

end Cert.Kernel.Hand

end
-- ==== Proof.OwnsLib.lean ====
import Idealize.ShloMosaic.Lib.Pipeline.Frame
import Idealize.ShloMosaic.Lib.Tactic

noncomputable section

namespace Idealize.ShloMosaic.Memref.IsWhole

open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

-- A whole memref is owned at X exactly when its buffer holds the one contents that read X.
theorem owns_eq {c : Dev nD} {sp : Space} {sh : Shape} {e : EltTy} {m : Memref sig .tc sp sh e} (h : m.IsWhole)
    (q : PosShare TreeShare) (X : sh.Idx → Val e) :
    (owns (c : Thread nD τ) m q X : sProp (MT nD τ sig Ix Val Name U Lvl)) = (m.view.loc (c : Thread nD τ) ↦[m.view.set]{q} h.unread X) := by
  unfold owns
  have h₁ : iprop(∃ f, ⌜m.view.read Val f = X⌝ ∗ (m.view.loc (c : Thread nD τ) ↦[m.view.set]{q} f))
      ⊢ (m.view.loc (c : Thread nD τ) ↦[m.view.set]{q} h.unread X : sProp (MT nD τ sig Ix Val Name U Lvl)) := by
    iintro ⟨%f, %hf, H⟩
    obtain rfl := h.eq_unread hf
    iexact H
  have h₂ : (m.view.loc (c : Thread nD τ) ↦[m.view.set]{q} h.unread X : sProp (MT nD τ sig Ix Val Name U Lvl))
      ⊢ iprop(∃ f, ⌜m.view.read Val f = X⌝ ∗ (m.view.loc (c : Thread nD τ) ↦[m.view.set]{q} f)) := by
    iintro H
    iexists _
    isplitr
    · ipureintro; exact h.read_unread _
    iexact H
  exact BI.equiv_iff.mp ⟨h₁, h₂⟩

end Idealize.ShloMosaic.Memref.IsWhole

end
-- ==== Proof.K.R0RunA.lean ====
import proofs.«121860_j42219528520113_1_alg».proof.Proof.K.R0Runs
import proofs.«121860_j42219528520113_1_alg».proof.Proof.OwnsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S1x2048x64 .f32) (x1 : Vec F S4x128 .f32) (x2 : Vec F S64x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], [], ?_, ?_, fun xi3 xi4 E K => ?run⟩
  case run =>
    simp only [cc0_kernel_eq_skeleton]; unfold cc0_kernel_skel
    simp only [k0_part1_eq_skeleton]
    simp only [harg2.owns_eq, harg3.owns_eq, harg4.owns_eq, harg5.owns_eq, harg6.owns_eq]
    unfold owns
    iintro ⟨H0, H1, H2, H3, H4, ⟨%ds0, %fs0, -, HS0⟩, ⟨%ds1, %fs1, -, HS1⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [HS0]; · iexists _; iexact HS0
    iexists _; iexact HS1

end Cert.Kernel.Hand

end
-- ==== Proof.K.R0RunB.lean ====
import proofs.«121860_j42219528520113_1_alg».proof.Proof.K.R0RunA
import proofs.«121860_j42219528520113_1_alg».proof.Proof.OwnsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S1x2048x64 .f32) (x1 : Vec F S4x128 .f32) (x2 : Vec F S64x128 .f32) (xs0 xs1 : Vec F S1x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], [], ?_, ?_, fun xi3 xi4 E K => ?run⟩
  case run =>
    simp only [cc0_kernel_eq_skeleton]; unfold cc0_kernel_skel
    simp only [k0_part1_eq_skeleton]
    simp only [harg2.owns_eq, harg3.owns_eq, harg4.owns_eq, harg5.owns_eq, harg6.owns_eq, harg7.owns_eq, harg8.owns_eq]
    iintro ⟨H0, H1, H2, H3, H4, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [HS0]; · iexists _; iexact HS0
    iexists _; iexact HS1

end Cert.Kernel.Hand

end
-- ==== Proof.K.R0RunC.lean ====
import proofs.«121860_j42219528520113_1_alg».proof.Proof.K.R0RunB
import proofs.«121860_j42219528520113_1_alg».proof.Proof.OwnsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S1x2048x64 .f32) (x1 : Vec F S4x128 .f32) (x2 : Vec F S64x128 .f32) (xs0 xs1 : Vec F S1x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, ?_, fun E K => ?run⟩
  case run =>
    simp only [cc0_kernel_eq_skeleton]; unfold cc0_kernel_skel
    simp only [k0_part1_eq_skeleton]
    simp only [harg2.owns_eq, harg3.owns_eq, harg4.owns_eq, harg7.owns_eq, harg8.owns_eq]
    unfold owns
    iintro ⟨H0, H1, H2, ⟨%d3, %f3, -, H3⟩, ⟨%d4, %f4, -, H4⟩, HS0, HS1, Hk⟩
    sl_exec (disch := first | exact hc0 | exact hc1)
    sl_step
    iapply Hk
    isplitl [H0]; · iexact H0
    isplitl [H1]; · iexact H1
    isplitl [H2]; · iexact H2
    isplitl [H3]; · iexists _; iexact H3
    isplitl [H4]; · iexists _; iexact H4
    isplitl [HS0]; · iexists _; iexact HS0
    iexists _; iexact HS1

end Cert.Kernel.Hand

end
-- ==== Proof.K.R0Frame.lean ====
import proofs.«121860_j42219528520113_1_alg».proof.Proof.K.R0RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

section
variable (c : Dev nD) (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)

section
variable (hc0 : cond0_0 i) (hc1 : ¬cond0_1 i)
  (x0 : Vec F S1x2048x64 .f32) (x1 : Vec F S4x128 .f32) (x2 : Vec F S64x128 .f32)

def out0_A_3 : Vec F S1x128 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

def out0_A_4 : Vec F S1x128 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

theorem scover0_A_0 (y : S1x128.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL _ S1x128.size (by sl_kernel_rfl) y

theorem scover0_A_1 (y : S1x128.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL _ S1x128.size (by sl_kernel_rfl) y

def sout0_A_0 : Vec F S1x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

def sout0_A_1 : Vec F S1x128 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

end

section
variable (hc0 : ¬cond0_0 i) (hc1 : ¬cond0_1 i)
  (x0 : Vec F S1x2048x64 .f32) (x1 : Vec F S4x128 .f32) (x2 : Vec F S64x128 .f32) (xs0 xs1 : Vec F S1x128 .f32)

def out0_B_3 : Vec F S1x128 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

def out0_B_4 : Vec F S1x128 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

theorem scover0_B_0 (y : S1x128.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL _ S1x128.size (by sl_kernel_rfl) y

theorem scover0_B_1 (y : S1x128.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL _ S1x128.size (by sl_kernel_rfl) y

def sout0_B_0 : Vec F S1x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

def sout0_B_1 : Vec F S1x128 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

end

section
variable (hc0 : ¬cond0_0 i) (hc1 : cond0_1 i)
  (x0 : Vec F S1x2048x64 .f32) (x1 : Vec F S4x128 .f32) (x2 : Vec F S64x128 .f32) (xs0 xs1 : Vec F S1x128 .f32)

theorem cover0_C_3 (y : S1x128.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL _ S1x128.size (by sl_kernel_rfl) y

theorem cover0_C_4 (y : S1x128.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL _ S1x128.size (by sl_kernel_rfl) y

def out0_C_3 : Vec F S1x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

def out0_C_4 : Vec F S1x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

theorem scover0_C_0 (y : S1x128.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL _ S1x128.size (by sl_kernel_rfl) y

theorem scover0_C_1 (y : S1x128.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL _ S1x128.size (by sl_kernel_rfl) y

def sout0_C_0 : Vec F S1x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

def sout0_C_1 : Vec F S1x128 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

end

end

abbrev at0 {P Q : grid0.Coords → Prop} {β : Type} (c : Dev nD) (t : Fin cfg0.N)
    (f : ∀ (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole), P i → Q i → Vec F S1x2048x64 .f32 → Vec F S4x128 .f32 → Vec F S64x128 .f32 → β)
    (hp : P (grid0.coords t)) (hq : Q (grid0.coords t)) : β :=
  f (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hp hq (iblk0 V c 0 t) (iblk0 V c 1 t) (iblk0 V c 2 t)

def ptA0 (c : Dev nD) (t : Fin cfg0.N) (hp : cond0_0 (grid0.coords t)) (hq : ¬cond0_1 (grid0.coords t)) : Vec F S1x128 .f32 × Vec F S1x128 .f32 × Vec F S1x128 .f32 × Vec F S1x128 .f32 :=
  (at0 V c t (out0_A_3 c) hp hq, at0 V c t (out0_A_4 c) hp hq, at0 V c t (sout0_A_0 c) hp hq, at0 V c t (sout0_A_1 c) hp hq)

def ptB0 (c : Dev nD) (t : Fin cfg0.N) (hp : ¬cond0_0 (grid0.coords t)) (hq : ¬cond0_1 (grid0.coords t)) (s0 s1 : Vec F S1x128 .f32) : Vec F S1x128 .f32 × Vec F S1x128 .f32 × Vec F S1x128 .f32 × Vec F S1x128 .f32 :=
  (at0 V c t (out0_B_3 c) hp hq s0 s1, at0 V c t (out0_B_4 c) hp hq s0 s1, at0 V c t (sout0_B_0 c) hp hq s0 s1, at0 V c t (sout0_B_1 c) hp hq s0 s1)

def ptC0 (c : Dev nD) (t : Fin cfg0.N) (hp : ¬cond0_0 (grid0.coords t)) (hq : cond0_1 (grid0.coords t)) (s0 s1 : Vec F S1x128 .f32) : Vec F S1x128 .f32 × Vec F S1x128 .f32 × Vec F S1x128 .f32 × Vec F S1x128 .f32 :=
  (at0 V c t (out0_C_3 c) hp hq s0 s1, at0 V c t (out0_C_4 c) hp hq s0 s1, at0 V c t (sout0_C_0 c) hp hq s0 s1, at0 V c t (sout0_C_1 c) hp hq s0 s1)

def outsAt0 (c : Dev nD) : (n : ℕ) → n < cfg0.N → Vec F S1x128 .f32 × Vec F S1x128 .f32 × Vec F S1x128 .f32 × Vec F S1x128 .f32
  | 0, hn => ptA0 V c ⟨0, hn⟩ ((hcond0_0 ⟨0, hn⟩).mpr rfl) (fun h => (fun h => by (try dsimp only at h); omega) ((hcond0_1 ⟨0, hn⟩).mp h))
  | n + 1, hn =>
    if h1 : n + 1 = 31 then
      ptC0 V c ⟨n + 1, hn⟩ (fun h => absurd ((hcond0_0 ⟨n + 1, hn⟩).mp h) (Nat.succ_ne_zero n)) ((hcond0_1 ⟨n + 1, hn⟩).mpr h1) (outsAt0 c n (Nat.lt_of_succ_lt hn)).2.2.1 (outsAt0 c n (Nat.lt_of_succ_lt hn)).2.2.2
    else
      ptB0 V c ⟨n + 1, hn⟩ (fun h => absurd ((hcond0_0 ⟨n + 1, hn⟩).mp h) (Nat.succ_ne_zero n)) (fun h => h1 ((hcond0_1 ⟨n + 1, hn⟩).mp h)) (outsAt0 c n (Nat.lt_of_succ_lt hn)).2.2.1 (outsAt0 c n (Nat.lt_of_succ_lt hn)).2.2.2

theorem outsAt0_A (c : Dev nD) (t : Fin cfg0.N) (h0 : t.val = 0) (hc0 : cond0_0 (grid0.coords t)) (hc1 : ¬cond0_1 (grid0.coords t)) :
    outsAt0 V c t.val t.isLt = ptA0 V c t hc0 hc1 := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 31) (hc0 : ¬cond0_0 (grid0.coords t)) (hc1 : ¬cond0_1 (grid0.coords t)) :
    outsAt0 V c t.val t.isLt = ptB0 V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd rfl h0
  | succ n => exact (dif_neg h1).trans rfl

theorem outsAt0_C (c : Dev nD) (t : Fin cfg0.N) (h0 : ¬t.val = 0) (h1 : t.val = 31) (hc0 : ¬cond0_0 (grid0.coords t)) (hc1 : cond0_1 (grid0.coords t)) :
    outsAt0 V c t.val t.isLt = ptC0 V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd rfl h0
  | succ n => exact (dif_pos h1).trans rfl

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.1 ∗ owns (c : Thread nD τ) scM0_1 fullShare (outsAt0 V c n hn).2.2.2)
          ∗ Pipeline.scopedRestBut (Ix := Unit) (Name := ℕ) (U := UR sig nD τ) (Lvl := ℕ) (Val := Elt F) spec0 c [cc0_scratch0, cc0_scratch1])
          ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.2.1 ∗ owns (c : Thread nD τ) scM0_1 fullShare (outsAt0 V c n hn).2.2.2)
          ∗ Pipeline.scopedRestBut (Ix := Unit) (Name := ℕ) (U := UR sig nD τ) (Lvl := ℕ) (Val := Elt F) spec0 c [cc0_scratch0, cc0_scratch1])
          ∗ (∃ r, prngReg c r)) := rfl

theorem PhiS0_pos (c : Dev nD) (n : ℕ) (h : n ≤ cfg0.N) (hz : n ≠ 0) :
    PhiS0 V c n h = PhiS0 V c (n - 1 + 1) (by omega) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := by dsimp only [dat0]

theorem q0 (c : Dev nD) (w : Fin cfg0.W) : (dat0 V c).q w = fullShare := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_3 (c : Dev nD) (t : Fin cfg0.N) : (dat0 V c).after 3 t = (outsAt0 V c t.val t.isLt).1 := by dsimp only [dat0]

theorem after0_4 (c : Dev nD) (t : Fin cfg0.N) : (dat0 V c).after 4 t = (outsAt0 V c t.val t.isLt).2.1 := by dsimp only [dat0]

theorem live0 (c : Dev nD) (w : Fin cfg0.W) (t : Fin cfg0.N) (hi : cfg0.idle w (cfg0.grid.coords t) = false) (M : _) (X : _)
    (hM : (cfg0.win w).stage (cfg0.slots t w) = M) (hX : (dat0 V c).after w t = X) :
    (dat0 V c).leavesExact w t = owns (c : Thread nD τ) M fullShare X := by
  subst hM hX; unfold Dat.leavesExact; rw [hi]

theorem before0_in (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  and_intros <;> exact fun d => (dat0 V c).before_in_eq_fetched _ rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1200000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c t]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [live0 V c 0 t (liveAt0_0 t) (ms0_0 t) (iblk0 V c 0 t) rfl rfl]
  rw [live0 V c 1 t (liveAt0_1 t) (ms0_1 t) (iblk0 V c 1 t) rfl rfl]
  rw [live0 V c 2 t (liveAt0_2 t) (ms0_2 t) (iblk0 V c 2 t) rfl rfl]
  by_cases hz : t.val = 0
  · have hc0 : cond0_0 (grid0.coords t) := (hcond0_0 t).mpr hz
    have hc1 : ¬cond0_1 (grid0.coords t) := fun h => by have := (hcond0_1 t).mp h; omega
    rw [Dat.leavesExact_idle (dat0 V c) 3 t (idleAt0_3 t hc1) (noFlush0_3 t hc1)]
    rw [Dat.leavesExact_idle (dat0 V c) 4 t (idleAt0_4 t hc1) (noFlush0_4 t hc1)]
    rw [outsAt0_A V c t hz hc0 hc1]
    dsimp only [ptA0, at0, sout0_A_0, sout0_A_1]
    rw [PhiS0_castSucc V c t, PhiS0_zero V c _ _ hz, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ hc0 hc1 (iblk0 V c 0 t) (iblk0 V c 1 t) (iblk0 V c 2 t)).2.2.2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 HR Hg]
    · isplitr [Hg]
      · isplitr [HR]
        · isplitl [HS0]
          · unfold owns; iexists _; isplitr
            swap; · iexact HS0
            ipureintro; exact View.read_writes_of_cover _ _ _ _ _ (fun _ => scover0_A_0 ..)
          · unfold owns; iexists _; isplitr
            swap; · iexact HS1
            ipureintro; exact View.read_writes_of_cover _ _ _ _ _ (fun _ => scover0_A_1 ..)
        · iexact HR
      · iexact Hg
    isplitl [Ho]; · iexact Ho
    isplitl [H0]; · iexact H0
    isplitl [H1]; · iexact H1
    isplitl [H2]; · iexact H2
    isplitl [H3]; · iexists _; iexact H3
    iexists _; iexact H4
  · have hc0 : ¬cond0_0 (grid0.coords t) := fun h => hz ((hcond0_0 t).mp h)
    by_cases h1 : t.val = 31
    · have hc1 : cond0_1 (grid0.coords t) := (hcond0_1 t).mpr h1
      rw [live0 V c 3 t (liveAt0_3 t hc1) (ms0_3 t) _ rfl rfl, after0_3]
      rw [live0 V c 4 t (liveAt0_4 t hc1) (ms0_4 t) _ rfl rfl, after0_4]
      rw [outsAt0_C V c t hz h1 hc0 hc1]
      dsimp only [ptC0, at0, out0_C_3, out0_C_4, sout0_C_0, sout0_C_1]
      rw [PhiS0_castSucc V c t, PhiS0_pos V c _ _ hz, PhiS0_succ]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hc0 hc1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitr [Hg]
        · isplitr [HR]
          · isplitl [HS0]
            · unfold owns; iexists _; isplitr
              swap; · iexact HS0
              ipureintro; exact View.read_writes_of_cover _ _ _ _ _ (fun _ => scover0_C_0 ..)
            · unfold owns; iexists _; isplitr
              swap; · iexact HS1
              ipureintro; exact View.read_writes_of_cover _ _ _ _ _ (fun _ => scover0_C_1 ..)
          · iexact HR
        · iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (fun _ => cover0_C_3 ..)
      unfold owns; iexists _; isplitr
      swap; · iexact H4
      ipureintro; exact View.read_writes_of_cover _ _ _ _ _ (fun _ => cover0_C_4 ..)
    · have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [outsAt0_B V c t hz h1 hc0 hc1]
      dsimp only [ptB0, at0, sout0_B_0, sout0_B_1]
      rw [PhiS0_castSucc V c t, PhiS0_pos V c _ _ hz, PhiS0_succ]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hc0 hc1 (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        · isplitr [HR]
          · isplitl [HS0]
            · unfold owns; iexists _; isplitr
              swap; · iexact HS0
              ipureintro; exact View.read_writes_of_cover _ _ _ _ _ (fun _ => scover0_B_0 ..)
            · unfold owns; iexists _; isplitr
              swap; · iexact HS1
              ipureintro; exact View.read_writes_of_cover _ _ _ _ _ (fun _ => scover0_B_1 ..)
          · iexact HR
        · iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiS0_succ, PhiA0_eq]
  iintro ⟨⟨⟨HS0, HS1⟩, HR⟩, Hg⟩
  isplitr [Hg]
  · isplitr [HR]
    · isplitl [HS0]
      · iexists _; iexact HS0
      · iexists _; iexact HS1
    · iexact HR
  · iexact Hg

theorem hout0 (c : Dev nD) : (dat0 V c).Φ (Fin.last cfg0.N) ⊢ Pipeline.ΦA spec0 c :=
  Phi_out0 V c _ (by rw [Fin.val_last]; have : cfg0.N = 32 := N_0; omega)

end Regions

end Cert.Kernel.Hand

end
-- ==== Proof.K.R1Runs.lean ====
import proofs.«121860_j42219528520113_1_alg».proof.Proof.Gen.Kernel.Launch
import proofs.«121860_j42219528520113_1_alg».proof.Proof.Gen.Kernel.Skeleton
import proofs.«121860_j42219528520113_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 31 :=
  (by decide +kernel : ∀ t : Fin grid1.N, cond1_1 (grid1.coords t) ↔ t.val = 31)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem liveAt1_5 : ∀ t : Fin cfg1.N, cfg1.idle 5 (grid1.coords t) = false := by decide +kernel

theorem liveAt1_6 : ∀ t : Fin cfg1.N, cfg1.idle 6 (grid1.coords t) = false := by decide +kernel

theorem liveAt1_7 : ∀ t : Fin cfg1.N, cfg1.idle 7 (grid1.coords t) = false := by decide +kernel

theorem liveAt1_8 : ∀ t : Fin cfg1.N, cfg1.idle 8 (grid1.coords t) = false := by decide +kernel

theorem idleAt1_9 : ∀ t : Fin cfg1.N, ¬cond1_1 (grid1.coords t) → cfg1.idle 9 (grid1.coords t) = true := by decide +kernel

theorem noFlush1_9 : ∀ t : Fin cfg1.N, ¬cond1_1 (grid1.coords t) → (cfg1.win 9).flush t = false := by decide +kernel

theorem liveAt1_9_C : ∀ t : Fin cfg1.N, cond1_1 (grid1.coords t) → cfg1.idle 9 (grid1.coords t) = false := by decide +kernel

theorem idleAt1_10 : ∀ t : Fin cfg1.N, ¬cond1_1 (grid1.coords t) → cfg1.idle 10 (grid1.coords t) = true := by decide +kernel

theorem noFlush1_10 : ∀ t : Fin cfg1.N, ¬cond1_1 (grid1.coords t) → (cfg1.win 10).flush t = false := by decide +kernel

theorem liveAt1_10_C : ∀ t : Fin cfg1.N, cond1_1 (grid1.coords t) → cfg1.idle 10 (grid1.coords t) = false := by decide +kernel

abbrev VO1_9 : View sig .tc .vmem S1x64 .f32 := (Memref.whole cc1_stg9_0 : Memref sig .tc .vmem S1x64 .f32).view

abbrev VO1_10 : View sig .tc .vmem S1x64 .f32 := (Memref.whole cc1_stg10_0 : Memref sig .tc .vmem S1x64 .f32).view

abbrev ms1_0 (t : Fin cfg1.N) : Memref sig .tc .vmem S1x2048x64 .f32 := win1_0.stage (cfg1.slots t 0)

abbrev hs1_0 (t : Fin cfg1.N) : (ms1_0 t).IsWhole := hstage1_0 ((cfg1.slots t 0).cast nbuf1_0)

abbrev ms1_1 (t : Fin cfg1.N) : Memref sig .tc .vmem S4x128 .f32 := win1_1.stage (cfg1.slots t 1)

abbrev hs1_1 (t : Fin cfg1.N) : (ms1_1 t).IsWhole := hstage1_1 ((cfg1.slots t 1).cast nbuf1_1)

abbrev ms1_2 (t : Fin cfg1.N) : Memref sig .tc .vmem S64x128 .f32 := win1_2.stage (cfg1.slots t 2)

abbrev hs1_2 (t : Fin cfg1.N) : (ms1_2 t).IsWhole := hstage1_2 ((cfg1.slots t 2).cast nbuf1_2)

abbrev ms1_3 (t : Fin cfg1.N) : Memref sig .tc .vmem S1x128 .f32 := win1_3.stage (cfg1.slots t 3)

abbrev hs1_3 (t : Fin cfg1.N) : (ms1_3 t).IsWhole := hstage1_3 ((cfg1.slots t 3).cast nbuf1_3)

abbrev ms1_4 (t : Fin cfg1.N) : Memref sig .tc .vmem S1x128 .f32 := win1_4.stage (cfg1.slots t 4)

abbrev hs1_4 (t : Fin cfg1.N) : (ms1_4 t).IsWhole := hstage1_4 ((cfg1.slots t 4).cast nbuf1_4)

abbrev ms1_5 (t : Fin cfg1.N) : Memref sig .tc .vmem S1x128 .f32 := win1_5.stage (cfg1.slots t 5)

abbrev hs1_5 (t : Fin cfg1.N) : (ms1_5 t).IsWhole := hstage1_5 ((cfg1.slots t 5).cast nbuf1_5)

abbrev ms1_6 (t : Fin cfg1.N) : Memref sig .tc .vmem S1x128 .f32 := win1_6.stage (cfg1.slots t 6)

abbrev hs1_6 (t : Fin cfg1.N) : (ms1_6 t).IsWhole := hstage1_6 ((cfg1.slots t 6).cast nbuf1_6)

abbrev ms1_7 (t : Fin cfg1.N) : Memref sig .tc .vmem S128x64 .f32 := win1_7.stage (cfg1.slots t 7)

abbrev hs1_7 (t : Fin cfg1.N) : (ms1_7 t).IsWhole := hstage1_7 ((cfg1.slots t 7).cast nbuf1_7)

abbrev ms1_8 (t : Fin cfg1.N) : Memref sig .tc .vmem S1x64 .f32 := win1_8.stage (cfg1.slots t 8)

abbrev hs1_8 (t : Fin cfg1.N) : (ms1_8 t).IsWhole := hstage1_8 ((cfg1.slots t 8).cast nbuf1_8)

abbrev ms1_9 (t : Fin cfg1.N) : Memref sig .tc .vmem S1x64 .f32 := win1_9.stage (cfg1.slots t 9)

abbrev hs1_9 (t : Fin cfg1.N) : (ms1_9 t).IsWhole := hstage1_9 ((cfg1.slots t 9).cast nbuf1_9)

abbrev ms1_10 (t : Fin cfg1.N) : Memref sig .tc .vmem S1x64 .f32 := win1_10.stage (cfg1.slots t 10)

abbrev hs1_10 (t : Fin cfg1.N) : (ms1_10 t).IsWhole := hstage1_10 ((cfg1.slots t 10).cast nbuf1_10)

abbrev scM1_0 : Memref sig .tc .vmem S1x64 .f32 := Memref.whole cc1_scratch0

abbrev scM1_1 : Memref sig .tc .vmem S1x64 .f32 := Memref.whole cc1_scratch1

abbrev VS1_0 : View sig .tc .vmem S1x64 .f32 := scM1_0.view

abbrev VS1_1 : View sig .tc .vmem S1x64 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Hand

end
-- ==== Proof.K.R1RunA.lean ====
import proofs.«121860_j42219528520113_1_alg».proof.Proof.K.R1Runs
import proofs.«121860_j42219528520113_1_alg».proof.Proof.OwnsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (hc0 : cond1_0 i) (hc1 : ¬cond1_1 i)
    (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) :
    Σ' (L9 : List (View.Piece (Elt F) S1x64 .f32)) (L10 : List (View.Piece (Elt F) S1x64 .f32)) (LS0 : List (View.Piece (Elt F) S1x64 .f32)), { LS1 : List (View.Piece (Elt F) S1x64 .f32) //
      ∀ (xi9 xi10 : Vec F S1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 xi10 E K => ?run⟩
  case run =>
    simp only [cc1_kernel_eq_skeleton]; unfold cc1_kernel_skel
    simp only [k1_part1_eq_skeleton]; unfold k1_part1_skel
    simp only [harg2.owns_eq, harg3.owns_eq, harg4.owns_eq, harg5.owns_eq, harg6.owns_eq, harg7.owns_eq, harg8.owns_eq, harg9.owns_eq, harg10.owns_eq, harg11.owns_eq, harg12.owns_eq]
    unfold owns
    iintro ⟨H0, H1, H2, H3, H4, H5, H6, H7, H8, H9, H10, ⟨%ds0, %fs0, -, HS0⟩, ⟨%ds1, %fs1, -, HS1⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexists _; iexact HS0
    iexists _; iexact HS1

end Cert.Kernel.Hand

end
-- ==== Proof.K.R1RunB.lean ====
import proofs.«121860_j42219528520113_1_alg».proof.Proof.K.R1RunA
import proofs.«121860_j42219528520113_1_alg».proof.Proof.OwnsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (hc0 : ¬cond1_0 i) (hc1 : ¬cond1_1 i)
    (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) (xs0 : Vec F S1x64 .f32) (xs1 : Vec F S1x64 .f32) :
    Σ' (L9 : List (View.Piece (Elt F) S1x64 .f32)) (L10 : List (View.Piece (Elt F) S1x64 .f32)) (LS0 : List (View.Piece (Elt F) S1x64 .f32)), { LS1 : List (View.Piece (Elt F) S1x64 .f32) //
      ∀ (xi9 xi10 : Vec F S1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 xi10 E K => ?run⟩
  case run =>
    simp only [cc1_kernel_eq_skeleton]; unfold cc1_kernel_skel
    simp only [k1_part1_eq_skeleton]; unfold k1_part1_skel
    simp only [harg2.owns_eq, harg3.owns_eq, harg4.owns_eq, harg5.owns_eq, harg6.owns_eq, harg7.owns_eq, harg8.owns_eq, harg9.owns_eq, harg10.owns_eq, harg11.owns_eq, harg12.owns_eq, harg13.owns_eq, harg14.owns_eq]
    iintro ⟨H0, H1, H2, H3, H4, H5, H6, H7, H8, H9, H10, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexists _; iexact HS0
    iexists _; iexact HS1

end Cert.Kernel.Hand

end
-- ==== Proof.K.R1RunC.lean ====
import proofs.«121860_j42219528520113_1_alg».proof.Proof.K.R1RunB
import proofs.«121860_j42219528520113_1_alg».proof.Proof.OwnsLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (hc0 : ¬cond1_0 i) (hc1 : cond1_1 i)
    (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) (xs0 : Vec F S1x64 .f32) (xs1 : Vec F S1x64 .f32) :
    Σ' (L9 : List (View.Piece (Elt F) S1x64 .f32)) (L10 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1_kernel_eq_skeleton]; unfold cc1_kernel_skel
    simp only [k1_part1_eq_skeleton]; unfold k1_part1_skel
    simp only [harg2.owns_eq, harg3.owns_eq, harg4.owns_eq, harg5.owns_eq, harg6.owns_eq, harg7.owns_eq, harg8.owns_eq, harg9.owns_eq, harg10.owns_eq, harg13.owns_eq, harg14.owns_eq]
    unfold owns
    iintro ⟨H0, H1, H2, H3, H4, H5, H6, H7, H8, ⟨%d9, %f9, -, H9⟩, ⟨%d10, %f10, -, H10⟩, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexists _; iexact HS0
    iexists _; iexact HS1

end Cert.Kernel.Hand

end
-- ==== Proof.K.R1Frame.lean ====
import proofs.«121860_j42219528520113_1_alg».proof.Proof.K.R1RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole)

section
variable (hc0 : cond1_0 i) (hc1 : ¬cond1_1 i)
  (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32)

def out1_A_9 : Vec F S1x64 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

def out1_A_10 : Vec F S1x64 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

theorem scover1_A_0 (y : S1x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL _ S1x64.size (by sl_kernel_rfl) y

def sout1_A_0 : Vec F S1x64 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

theorem scover1_A_1 (y : S1x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL _ S1x64.size (by sl_kernel_rfl) y

def sout1_A_1 : Vec F S1x64 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

end

section
variable (hc0 : ¬cond1_0 i) (hc1 : ¬cond1_1 i)
  (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) (xs0 : Vec F S1x64 .f32) (xs1 : Vec F S1x64 .f32)

def out1_B_9 : Vec F S1x64 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)

def out1_B_10 : Vec F S1x64 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)

theorem scover1_B_0 (y : S1x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL _ S1x64.size (by sl_kernel_rfl) y

def sout1_B_0 : Vec F S1x64 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)

theorem scover1_B_1 (y : S1x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL _ S1x64.size (by sl_kernel_rfl) y

def sout1_B_1 : Vec F S1x64 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)

end

section
variable (hc0 : ¬cond1_0 i) (hc1 : cond1_1 i)
  (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) (xs0 : Vec F S1x64 .f32) (xs1 : Vec F S1x64 .f32)

theorem cover1_C_9 (y : S1x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL _ S1x64.size (by sl_kernel_rfl) y

def out1_C_9 : Vec F S1x64 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)

theorem cover1_C_10 (y : S1x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL _ S1x64.size (by sl_kernel_rfl) y

def out1_C_10 : Vec F S1x64 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)

theorem scover1_C_0 (y : S1x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL _ S1x64.size (by sl_kernel_rfl) y

def sout1_C_0 : Vec F S1x64 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)

theorem scover1_C_1 (y : S1x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL _ S1x64.size (by sl_kernel_rfl) y

def sout1_C_1 : Vec F S1x64 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)

end

end

abbrev at1 {P Q : grid1.Coords → Prop} {β : Type} (c : Dev nD) (t : Fin cfg1.N)
    (f : ∀ (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole), P i → Q i → Vec F S1x2048x64 .f32 → Vec F S4x128 .f32 → Vec F S64x128 .f32 → Vec F S1x128 .f32 → Vec F S1x128 .f32 → Vec F S1x128 .f32 → Vec F S1x128 .f32 → Vec F S128x64 .f32 → Vec F S1x64 .f32 → β)
    (hp : P (grid1.coords t)) (hq : Q (grid1.coords t)) : β :=
  f (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hp hq (iblk1 V c 0 t) (iblk1 V c 1 t) (iblk1 V c 2 t) (iblk1 V c 3 t) (iblk1 V c 4 t) (iblk1 V c 5 t) (iblk1 V c 6 t) (iblk1 V c 7 t) (iblk1 V c 8 t)

def ptA1 (c : Dev nD) (t : Fin cfg1.N) (hp : cond1_0 (grid1.coords t)) (hq : ¬cond1_1 (grid1.coords t)) : Vec F S1x64 .f32 × Vec F S1x64 .f32 × Vec F S1x64 .f32 × Vec F S1x64 .f32 :=
  (at1 V c t (out1_A_9 c) hp hq, at1 V c t (out1_A_10 c) hp hq, at1 V c t (sout1_A_0 c) hp hq, at1 V c t (sout1_A_1 c) hp hq)

def ptB1 (c : Dev nD) (t : Fin cfg1.N) (hp : ¬cond1_0 (grid1.coords t)) (hq : ¬cond1_1 (grid1.coords t)) (s0 s1 : Vec F S1x64 .f32) : Vec F S1x64 .f32 × Vec F S1x64 .f32 × Vec F S1x64 .f32 × Vec F S1x64 .f32 :=
  (at1 V c t (out1_B_9 c) hp hq s0 s1, at1 V c t (out1_B_10 c) hp hq s0 s1, at1 V c t (sout1_B_0 c) hp hq s0 s1, at1 V c t (sout1_B_1 c) hp hq s0 s1)

def ptC1 (c : Dev nD) (t : Fin cfg1.N) (hp : ¬cond1_0 (grid1.coords t)) (hq : cond1_1 (grid1.coords t)) (s0 s1 : Vec F S1x64 .f32) : Vec F S1x64 .f32 × Vec F S1x64 .f32 × Vec F S1x64 .f32 × Vec F S1x64 .f32 :=
  (at1 V c t (out1_C_9 c) hp hq s0 s1, at1 V c t (out1_C_10 c) hp hq s0 s1, at1 V c t (sout1_C_0 c) hp hq s0 s1, at1 V c t (sout1_C_1 c) hp hq s0 s1)

def outsAt1 (c : Dev nD) : (n : ℕ) → n < cfg1.N → Vec F S1x64 .f32 × Vec F S1x64 .f32 × Vec F S1x64 .f32 × Vec F S1x64 .f32
  | 0, hn => ptA1 V c ⟨0, hn⟩ ((hcond1_0 ⟨0, hn⟩).mpr rfl) (fun h => (fun h => by (try dsimp only at h); omega) ((hcond1_1 ⟨0, hn⟩).mp h))
  | n + 1, hn =>
    if h1 : n + 1 = 31 then
      ptC1 V c ⟨n + 1, hn⟩ (fun h => Nat.succ_ne_zero n ((hcond1_0 ⟨n + 1, hn⟩).mp h)) ((hcond1_1 ⟨n + 1, hn⟩).mpr h1) (outsAt1 c n (Nat.lt_of_succ_lt hn)).2.2.1 (outsAt1 c n (Nat.lt_of_succ_lt hn)).2.2.2
    else
      ptB1 V c ⟨n + 1, hn⟩ (fun h => Nat.succ_ne_zero n ((hcond1_0 ⟨n + 1, hn⟩).mp h)) (fun h => h1 ((hcond1_1 ⟨n + 1, hn⟩).mp h)) (outsAt1 c n (Nat.lt_of_succ_lt hn)).2.2.1 (outsAt1 c n (Nat.lt_of_succ_lt hn)).2.2.2

theorem outsAt1_A (c : Dev nD) (t : Fin cfg1.N) (h0 : t.val = 0) (h1 : ¬t.val = 31) :
    outsAt1 V c t.val t.isLt = ptA1 V c t ((hcond1_0 t).mpr h0) (fun h => h1 ((hcond1_1 t).mp h)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 31) :
    outsAt1 V c t.val t.isLt = ptB1 V c t (fun h => h0 ((hcond1_0 t).mp h)) (fun h => h1 ((hcond1_1 t).mp h)) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd rfl h0
  | succ n => exact (dif_neg h1).trans rfl

theorem outsAt1_C (c : Dev nD) (t : Fin cfg1.N) (h0 : ¬t.val = 0) (h1 : t.val = 31) :
    outsAt1 V c t.val t.isLt = ptC1 V c t (fun h => h0 ((hcond1_0 t).mp h)) ((hcond1_1 t).mpr h1) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.1 ∗ owns (c : Thread nD τ) scM1_1 fullShare (outsAt1 V c n hn).2.2.2)
        ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.1 ∗ owns (c : Thread nD τ) scM1_1 fullShare (outsAt1 V c n hn).2.2.2)
        ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = PhiS1 V c (n - 1 + 1) (by omega) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := by dsimp only [dat1]

theorem q1 (c : Dev nD) (w : Fin cfg1.W) : (dat1 V c).q w = fullShare := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_9 (c : Dev nD) (t : Fin cfg1.N) : (dat1 V c).after 9 t = (outsAt1 V c t.val t.isLt).1 := by dsimp only [dat1]

theorem after1_10 (c : Dev nD) (t : Fin cfg1.N) : (dat1 V c).after 10 t = (outsAt1 V c t.val t.isLt).2.1 := by dsimp only [dat1]

theorem live1 (c : Dev nD) (w : Fin cfg1.W) (t : Fin cfg1.N) (hi : cfg1.idle w (cfg1.grid.coords t) = false) (M : _) (X : _)
    (hM : (cfg1.win w).stage (cfg1.slots t w) = M) (hX : (dat1 V c).after w t = X) :
    (dat1 V c).leavesExact w t = owns (c : Thread nD τ) M fullShare X := by
  subst hM hX; unfold Dat.leavesExact; rw [hi]

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (∀ d, (dat1 V c).before 6 t d = iblk1 V c 6 t) ∧ (∀ d, (dat1 V c).before 7 t d = iblk1 V c 7 t) ∧ (∀ d, (dat1 V c).before 8 t d = iblk1 V c 8 t) := by
  and_intros <;> exact fun d => (dat1 V c).before_in_eq_fetched _ rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 1200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in V c t]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [live1 V c 0 t (liveAt1_0 t) (ms1_0 t) (iblk1 V c 0 t) rfl rfl]
  rw [live1 V c 1 t (liveAt1_1 t) (ms1_1 t) (iblk1 V c 1 t) rfl rfl]
  rw [live1 V c 2 t (liveAt1_2 t) (ms1_2 t) (iblk1 V c 2 t) rfl rfl]
  rw [live1 V c 3 t (liveAt1_3 t) (ms1_3 t) (iblk1 V c 3 t) rfl rfl]
  rw [live1 V c 4 t (liveAt1_4 t) (ms1_4 t) (iblk1 V c 4 t) rfl rfl]
  rw [live1 V c 5 t (liveAt1_5 t) (ms1_5 t) (iblk1 V c 5 t) rfl rfl]
  rw [live1 V c 6 t (liveAt1_6 t) (ms1_6 t) (iblk1 V c 6 t) rfl rfl]
  rw [live1 V c 7 t (liveAt1_7 t) (ms1_7 t) (iblk1 V c 7 t) rfl rfl]
  rw [live1 V c 8 t (liveAt1_8 t) (ms1_8 t) (iblk1 V c 8 t) rfl rfl]
  by_cases h0 : t.val = 0
  · have h1 : ¬t.val = 31 := by omega
    have hc1 : ¬cond1_1 (grid1.coords t) := fun h => h1 ((hcond1_1 t).mp h)
    rw [Dat.leavesExact_idle (dat1 V c) 9 t (idleAt1_9 t hc1) (noFlush1_9 t hc1), Dat.leavesExact_idle (dat1 V c) 10 t (idleAt1_10 t hc1) (noFlush1_10 t hc1)]
    rw [outsAt1_A V c t h0 h1]
    dsimp only [ptA1, at1, sout1_A_0, sout1_A_1]
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) _ _ _ _ _ _ _ _ _ _ _ _ _ _ _ _ _ _ _ _ _ _ _ _ _ _ ((hcond1_0 t).mpr h0) hc1 (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (fun _ => scover1_A_0 ..)
          unfold owns; iexists _; isplitr
          swap; · iexact HS1
          ipureintro; exact View.read_writes_of_cover _ _ _ _ _ (fun _ => scover1_A_1 ..)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases h1 : t.val = 31
    · have hc1 : cond1_1 (grid1.coords t) := (hcond1_1 t).mpr h1
      rw [live1 V c 9 t (liveAt1_9_C t hc1) (ms1_9 t) _ rfl rfl, after1_9]
      rw [live1 V c 10 t (liveAt1_10_C t hc1) (ms1_10 t) _ rfl rfl, after1_10]
      rw [outsAt1_C V c t h0 h1]
      dsimp only [ptC1, at1, out1_C_9, out1_C_10, sout1_C_0, sout1_C_1]
      rw [PhiS1_castSucc V c t, PhiS1_pos V c _ _ h0, PhiS1_succ]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C c (grid1.coords t) _ _ _ _ _ _ _ _ _ _ _ _ _ _ _ _ _ _ _ _ _ _ _ _ _ _ (fun h => h0 ((hcond1_0 t).mp h)) hc1 (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e9, H9⟩, ⟨%e10, H10⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (fun _ => scover1_C_0 ..)
            unfold owns; iexists _; isplitr
            swap; · iexact HS1
            ipureintro; exact View.read_writes_of_cover _ _ _ _ _ (fun _ => scover1_C_1 ..)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (fun _ => cover1_C_9 ..)
      unfold owns; iexists _; isplitr
      swap; · iexact H10
      ipureintro; exact View.read_writes_of_cover _ _ _ _ _ (fun _ => cover1_C_10 ..)
    · have hc1 : ¬cond1_1 (grid1.coords t) := fun h => h1 ((hcond1_1 t).mp h)
      rw [Dat.leavesExact_idle (dat1 V c) 9 t (idleAt1_9 t hc1) (noFlush1_9 t hc1), Dat.leavesExact_idle (dat1 V c) 10 t (idleAt1_10 t hc1) (noFlush1_10 t hc1)]
      rw [outsAt1_B V c t h0 h1]
      dsimp only [ptB1, at1, sout1_B_0, sout1_B_1]
      rw [PhiS1_castSucc V c t, PhiS1_pos V c _ _ h0, PhiS1_succ]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ _ _ _ _ (fun h => h0 ((hcond1_0 t).mp h)) hc1 (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (fun _ => scover1_B_0 ..)
            unfold owns; iexists _; isplitr
            swap; · iexact HS1
            ipureintro; exact View.read_writes_of_cover _ _ _ _ _ (fun _ => scover1_B_1 ..)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiS1_succ, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.R2Frame.lean ====
import proofs.«121860_j42219528520113_1_alg».proof.Proof.Gen.Kernel.Launch
import proofs.«121860_j42219528520113_1_alg».proof.Proof.Gen.Kernel.Skeleton
import proofs.«121860_j42219528520113_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x2048x64 := Rect.unit (s := S1x2048x64) ![0, 0, 0] S1x2048x64.size inb_S1x2048x64_S1x2048x64_0_0_0

abbrev r2_1 (i : grid2.Coords) : Rect S4x128 := Rect.unit (s := S4x128) (k2_off1 i) S1x128.size (k2_off1_inb i)

abbrev r2_2 : Rect S64x128 := Rect.unit (s := S64x128) ![0, 0] S64x128.size inb_S64x128_S64x128_0_0

abbrev r2_3 : Rect S1x128 := Rect.unit (s := S1x128) ![0, 0] S1x128.size inb_S1x128_S1x128_0_0

abbrev r2_7 : Rect S128x64 := Rect.unit (s := S128x64) ![0, 0] S128x64.size inb_S128x64_S128x64_0_0

abbrev r2_8 : Rect S1x64 := Rect.unit (s := S1x64) ![0, 0] S1x64.size inb_S1x64_S1x64_0_0

abbrev r2_13 : Rect S64x1024 := Rect.unit (s := S64x1024) ![0, 0] S64x1024.size inb_S64x1024_S64x1024_0_0

abbrev r2_14 : Rect S1x1024 := Rect.unit (s := S1x1024) ![0, 0] S1x1024.size inb_S1x1024_S1x1024_0_0

abbrev r2_15 : Rect S1x1024x64 := Rect.unit (s := S1x1024x64) ![0, 0, 0] S1x1024x64.size inb_S1x1024x64_S1x1024x64_0_0_0

def out2_16 (i : grid2.Coords) (x0 : Vec F S1x2048x64 .f32) (x1 : Vec F S4x128 .f32) (x2 : Vec F S64x128 .f32)
    (x3 x4 x5 x6 : Vec F S1x128 .f32) (x7 : Vec F S128x64 .f32) (x8 x9 x10 x11 x12 : Vec F S1x64 .f32)
    (x13 : Vec F S64x1024 .f32) (x14 : Vec F S1x1024 .f32) (x15 : Vec F S1x1024x64 .f32) : Vec F S1x2048x64 .f32 :=
  View.canon [⟨r2_0, k2_pay1 (k2_pay3
    (k2_pay2 (View.ld x0 r2_0) (View.ld x1 (r2_1 i)) (View.ld x2 r2_2) (View.ld x3 r2_3) (View.ld x4 r2_3)
      (View.ld x5 r2_3) (View.ld x6 r2_3) (View.ld x7 r2_7))
    (View.ld x8 r2_8) (View.ld x9 r2_8) (View.ld x10 r2_8) (View.ld x11 r2_8) (View.ld x12 r2_8)
    (View.ld x13 r2_13) (View.ld x14 r2_14) (View.ld x15 r2_15))⟩]

theorem cover2_16 (p0 : Vec F S1x2048x64 .f32) (y : S1x2048x64.Idx) :
    ∃ pc ∈ ([⟨r2_0, p0⟩] : List (View.Piece (Elt F) S1x2048x64 .f32)), y ∈ pc.1.set :=
  View.cover_of_tiled [⟨r2_0, p0⟩] S1x2048x64.size (by rfl) y

set_option maxHeartbeats 4000000 in
theorem sound_kernel2 (c : Dev nD) (E : Set ℕ) (i : grid2.Coords)
    (arg2 : Memref sig .tc .vmem S1x2048x64 .f32) (harg2 : arg2.IsWhole) (arg3 : Memref sig .tc .vmem S4x128 .f32) (harg3 : arg3.IsWhole)
    (arg4 : Memref sig .tc .vmem S64x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S128x64 .f32) (harg9 : arg9.IsWhole)
    (arg10 : Memref sig .tc .vmem S1x64 .f32) (harg10 : arg10.IsWhole) (arg11 : Memref sig .tc .vmem S1x64 .f32) (harg11 : arg11.IsWhole)
    (arg12 : Memref sig .tc .vmem S1x64 .f32) (harg12 : arg12.IsWhole) (arg13 : Memref sig .tc .vmem S1x64 .f32) (harg13 : arg13.IsWhole)
    (arg14 : Memref sig .tc .vmem S1x64 .f32) (harg14 : arg14.IsWhole) (arg15 : Memref sig .tc .vmem S64x1024 .f32) (harg15 : arg15.IsWhole)
    (arg16 : Memref sig .tc .vmem S1x1024 .f32) (harg16 : arg16.IsWhole) (arg17 : Memref sig .tc .vmem S1x1024x64 .f32) (harg17 : arg17.IsWhole)
    (arg18 : Memref sig .tc .vmem S1x2048x64 .f32) (harg18 : arg18.IsWhole)
    (x0 : Vec F S1x2048x64 .f32) (x1 : Vec F S4x128 .f32) (x2 : Vec F S64x128 .f32)
    (x3 x4 x5 x6 : Vec F S1x128 .f32) (x7 : Vec F S128x64 .f32) (x8 x9 x10 x11 x12 : Vec F S1x64 .f32)
    (x13 : Vec F S64x1024 .f32) (x14 : Vec F S1x1024 .f32) (x15 : Vec F S1x1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare x9 ∗ owns (c : Thread nD τ) arg12 fullShare x10 ∗ owns (c : Thread nD τ) arg13 fullShare x11
        ∗ owns (c : Thread nD τ) arg14 fullShare x12 ∗ owns (c : Thread nD τ) arg15 fullShare x13 ∗ owns (c : Thread nD τ) arg16 fullShare x14
        ∗ owns (c : Thread nD τ) arg17 fullShare x15 ∗ (∃ d, owns (c : Thread nD τ) arg18 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare x12 ∗ owns (c : Thread nD τ) arg15 fullShare x13 ∗ owns (c : Thread nD τ) arg16 fullShare x14
            ∗ owns (c : Thread nD τ) arg17 fullShare x15
            ∗ owns (c : Thread nD τ) arg18 fullShare (out2_16 i x0 x1 x2 x3 x4 x5 x6 x7 x8 x9 x10 x11 x12 x13 x14 x15)) -∗ K ⟨⟩))
      ⊢ wp frame (wpE (defs₀ (F := F)) Variants.none c none) E
          (cc2_kernel i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18) K := by
  simp only [cc2_kernel_eq_skeleton]; unfold cc2_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover2_16 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => out2_16 (grid2.coords t) (iblk2 V c 0 t) (iblk2 V c 1 t) (iblk2 V c 2 t) (iblk2 V c 3 t) (iblk2 V c 4 t)
        (iblk2 V c 5 t) (iblk2 V c 6 t) (iblk2 V c 7 t) (iblk2 V c 8 t) (iblk2 V c 9 t) (iblk2 V c 10 t) (iblk2 V c 11 t)
        (iblk2 V c 12 t) (iblk2 V c 13 t) (iblk2 V c 14 t) (iblk2 V c 15 t)
    | ⟨_ + 17, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_16 (c : Dev nD) (t : Fin cfg2.N) : (dat2 V c).after 16 t =
    out2_16 (grid2.coords t) (iblk2 V c 0 t) (iblk2 V c 1 t) (iblk2 V c 2 t) (iblk2 V c 3 t) (iblk2 V c 4 t)
      (iblk2 V c 5 t) (iblk2 V c 6 t) (iblk2 V c 7 t) (iblk2 V c 8 t) (iblk2 V c 9 t) (iblk2 V c 10 t) (iblk2 V c 11 t)
      (iblk2 V c 12 t) (iblk2 V c 13 t) (iblk2 V c 14 t) (iblk2 V c 15 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

theorem before2_6 (c : Dev nD) (t : Fin cfg2.N) (d) : (dat2 V c).before 6 t d = iblk2 V c 6 t :=
  (dat2 V c).before_in_eq_fetched 6 rfl (fun _ => rfl) (fun _ _ _ => rfl) (fun _ => rfl) t d

theorem before2_7 (c : Dev nD) (t : Fin cfg2.N) (d) : (dat2 V c).before 7 t d = iblk2 V c 7 t :=
  (dat2 V c).before_in_eq_fetched 7 rfl (fun _ => rfl) (fun _ _ _ => rfl) (fun _ => rfl) t d

theorem before2_8 (c : Dev nD) (t : Fin cfg2.N) (d) : (dat2 V c).before 8 t d = iblk2 V c 8 t :=
  (dat2 V c).before_in_eq_fetched 8 rfl (fun _ => rfl) (fun _ _ _ => rfl) (fun _ => rfl) t d

theorem before2_9 (c : Dev nD) (t : Fin cfg2.N) (d) : (dat2 V c).before 9 t d = iblk2 V c 9 t :=
  (dat2 V c).before_in_eq_fetched 9 rfl (fun _ => rfl) (fun _ _ _ => rfl) (fun _ => rfl) t d

theorem before2_10 (c : Dev nD) (t : Fin cfg2.N) (d) : (dat2 V c).before 10 t d = iblk2 V c 10 t :=
  (dat2 V c).before_in_eq_fetched 10 rfl (fun _ => rfl) (fun _ _ _ => rfl) (fun _ => rfl) t d

theorem before2_11 (c : Dev nD) (t : Fin cfg2.N) (d) : (dat2 V c).before 11 t d = iblk2 V c 11 t :=
  (dat2 V c).before_in_eq_fetched 11 rfl (fun _ => rfl) (fun _ _ _ => rfl) (fun _ => rfl) t d

theorem before2_12 (c : Dev nD) (t : Fin cfg2.N) (d) : (dat2 V c).before 12 t d = iblk2 V c 12 t :=
  (dat2 V c).before_in_eq_fetched 12 rfl (fun _ => rfl) (fun _ _ _ => rfl) (fun _ => rfl) t d

theorem before2_13 (c : Dev nD) (t : Fin cfg2.N) (d) : (dat2 V c).before 13 t d = iblk2 V c 13 t :=
  (dat2 V c).before_in_eq_fetched 13 rfl (fun _ => rfl) (fun _ _ _ => rfl) (fun _ => rfl) t d

theorem before2_14 (c : Dev nD) (t : Fin cfg2.N) (d) : (dat2 V c).before 14 t d = iblk2 V c 14 t :=
  (dat2 V c).before_in_eq_fetched 14 rfl (fun _ => rfl) (fun _ _ _ => rfl) (fun _ => rfl) t d

theorem before2_15 (c : Dev nD) (t : Fin cfg2.N) (d) : (dat2 V c).before 15 t d = iblk2 V c 15 t :=
  (dat2 V c).before_in_eq_fetched 15 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9,
    before2_10, before2_11, before2_12, before2_13, before2_14, before2_15]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel2 c Set.univ (grid2.coords t) _ _ _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) (iblk2 V c 15 t) _)
  iframe H0 H1 H2 H3 H4 H5 H6 H7 H8 H9 H10 H11 H12 H13 H14 H15
  isplitl [H16]; · iexists _; iexact H16
  iintro ⟨H0, H1, H2, H3, H4, H5, H6, H7, H8, H9, H10, H11, H12, H13, H14, H15, H16⟩
  iframe HΦ Ho H0 H1 H2 H3 H4 H5 H6 H7 H8 H9 H10 H11 H12 H13 H14 H15 H16

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«121860_j42219528520113_1_alg».proof.Proof.K.R0Frame
import proofs.«121860_j42219528520113_1_alg».proof.Proof.K.R1Frame
import proofs.«121860_j42219528520113_1_alg».proof.Proof.K.R2Frame
import proofs.«121860_j42219528520113_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N

theorem W3_arr (c : Dev nD) (w : Fin cfg1.W) :
    W3 m ρ c (Proc.devRef .tc (Pipeline.arrRef spec1 w)) = (dat1 (V2 m ρ) c).arrAt w cfg1.N :=
  Pipeline.withArrays_arr spec1 launch1.win.arr_inj c _ _ w

theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb

abbrev V3 : (c : Dev nD) → (b : Ref sig .tc) → Buf (Elt F) ((c : Thread nD τ).loc b) := fun c b => W3 m ρ c b

def W4 (c : Dev nD) : Valuation τ sig (Elt F) :=
  Pipeline.withArrays spec2 c (W3 m ρ c) fun w => (dat2 (V3 m ρ) c).arrAt w cfg2.N

theorem W4_arr (c : Dev nD) (w : Fin cfg2.W) :
    W4 m ρ c (Proc.devRef .tc (Pipeline.arrRef spec2 w)) = (dat2 (V3 m ρ) c).arrAt w cfg2.N :=
  Pipeline.withArrays_arr spec2 launch2.win.arr_inj c _ _ w

theorem W4_of_ne (c : Dev nD) (b : Ref sig .tc) (hb : ∀ w, Pipeline.arrRef spec2 w ≠ b) :
    W4 m ρ c (Proc.devRef .tc b) = W3 m ρ c (Proc.devRef .tc b) :=
  Pipeline.withArrays_of_ne spec2 c _ _ b hb

abbrev V4 : (c : Dev nD) → (b : Ref sig .tc) → Buf (Elt F) ((c : Thread nD τ).loc b) := fun c b => W4 m ρ c b

theorem V2_in (c : Dev nD) (w : Fin cfg0.W) (h : (cfg0.win w).isOut = false) :
    V2 m ρ c (Pipeline.arrRef spec0 w) = V1 m ρ c (Pipeline.arrRef spec0 w) :=
  (W2_arr m ρ c w).trans (((dat0 (V1 m ρ) c).arrAt_in w h _).trans (A_eq0 (V1 m ρ) c w))

theorem V3_in (c : Dev nD) (w : Fin cfg1.W) (h : (cfg1.win w).isOut = false) :
    V3 m ρ c (Pipeline.arrRef spec1 w) = V2 m ρ c (Pipeline.arrRef spec1 w) :=
  (W3_arr m ρ c w).trans (((dat1 (V2 m ρ) c).arrAt_in w h _).trans (A_eq1 (V2 m ρ) c w))

def hostW0 : List (Ref sig .tc) :=
  [main_v0, main_cst, main_v1, main_cst_0, main_v2, main_v3, main_v4, main_v5, main_v6, main_v7, main_v8, main_v9,
   main_v10, main_v11, main_v12, main_v13, main_v14, main_v15, main_v16, main_v17, main_v18, main_v19, main_v20]

theorem W1_of_notin (c : Dev nD) (b : Ref sig .tc) (hb : b ∉ hostW0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

theorem W4_result (c : Dev nD) : W4 m ρ c (Proc.devRef .tc main_v23) = (dat2 (V3 m ρ) c).arrAt 16 cfg2.N :=
  W4_arr m ρ c 16

-- Unless it is one of the region's output arrays, an array is the same before and after the region.
theorem V2_keep (c : Dev nD) (b : Ref sig .tc) (h : ∀ w, Pipeline.arrRef spec0 w = b → (cfg0.win w).isOut = false) :
    V2 m ρ c b = V1 m ρ c b := by
  by_cases hb : ∃ w, Pipeline.arrRef spec0 w = b
  · obtain ⟨w, rfl⟩ := hb
    exact V2_in m ρ c w (h w rfl)
  · exact W2_of_ne m ρ c b fun w e => hb ⟨w, e⟩

theorem V3_keep (c : Dev nD) (b : Ref sig .tc) (h1 : ∀ w, Pipeline.arrRef spec1 w = b → (cfg1.win w).isOut = false)
    (h0 : ∀ w, Pipeline.arrRef spec0 w = b → (cfg0.win w).isOut = false) : V3 m ρ c b = V1 m ρ c b := by
  refine Eq.trans ?_ (V2_keep m ρ c b h0)
  by_cases hb : ∃ w, Pipeline.arrRef spec1 w = b
  · obtain ⟨w, rfl⟩ := hb
    exact V3_in m ρ c w (h1 w rfl)
  · exact W3_of_ne m ρ c b fun w e => hb ⟨w, e⟩

theorem V2_main_v21_0 (c : Dev nD) : V2 m ρ c main_v21_0 = (dat0 (V1 m ρ) c).arrAt 3 cfg0.N := W2_arr m ρ c 3

theorem V2_main_v21_1 (c : Dev nD) : V2 m ρ c main_v21_1 = (dat0 (V1 m ρ) c).arrAt 4 cfg0.N := W2_arr m ρ c 4

theorem V3_main_v22_0 (c : Dev nD) : V3 m ρ c main_v22_0 = (dat1 (V2 m ρ) c).arrAt 9 cfg1.N := W3_arr m ρ c 9

theorem V3_main_v22_1 (c : Dev nD) : V3 m ρ c main_v22_1 = (dat1 (V2 m ρ) c).arrAt 10 cfg1.N := W3_arr m ρ c 10

theorem V3_main_v21_0 (c : Dev nD) : V3 m ρ c main_v21_0 = (dat0 (V1 m ρ) c).arrAt 3 cfg0.N :=
  (V3_in m ρ c 3 rfl).trans (W2_arr m ρ c 3)

theorem V3_main_v21_1 (c : Dev nD) : V3 m ρ c main_v21_1 = (dat0 (V1 m ρ) c).arrAt 4 cfg0.N :=
  (V3_in m ρ c 4 rfl).trans (W2_arr m ρ c 4)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

-- Two rearrangements of separating conjunctions used at every region's first and last point.
theorem in_shuffle {X Pf SR : sProp 𝕄} : iprop(X ∗ Pf ∗ SR) ⊢ iprop(SR ∗ X) := by
  iintro ⟨Hp, -, Hr⟩
  isplitl [Hr]; · iexact Hr
  iexact Hp

theorem out_shuffle {X SR : sProp 𝕄} : iprop(SR ∗ X) ⊢ iprop(X ∗ emp ∗ SR) := by
  iintro ⟨Hr, Hp⟩
  isplitl [Hp]; · iexact Hp
  isplitr; · iempintro
  iexact Hr

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed _ = 0 from owed0 (V1 m ρ) c _]
      icases HO with ⟨%W, HO⟩; iexists W; isplitr; · ipureintro; exact fun _ _ => Or.inl trivial
      iexact HO
    isplitl [Hp]; · iexact Hp
    iexact Hrest
  hin c := BIBase.Entails.trans in_shuffle (hin0 (V1 m ρ) c)
  hout c := by
    rw [Pipeline.ownSems0_none]
    exact BIBase.Entails.trans (hout0 (V1 m ρ) c) out_shuffle
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V1 m ρ) c w)
      (V1 m ρ c) (V2 m ρ c) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed _ = 0 from owed0 (V1 m ρ) c _]
    icases HO with ⟨%W, -, HO⟩; iexists W; iexact HO

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed _ = 0 from owed1 (V2 m ρ) c _]
      icases HO with ⟨%W, HO⟩; iexists W; isplitr; · ipureintro; exact fun _ _ => Or.inl trivial
      iexact HO
    isplitl [Hp]; · iexact Hp
    iexact Hrest
  hin c := BIBase.Entails.trans in_shuffle (hin1 (V2 m ρ) c)
  hout c := by
    rw [Pipeline.ownSems0_none]
    exact BIBase.Entails.trans (hout1 (V2 m ρ) c) out_shuffle
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V2 m ρ) c w)
      (V2 m ρ c) (V3 m ρ c) ((pdats m ρ 1 c).arrAt · cfg1.N) (fun w => (W3_arr m ρ c w).symm)
      fun b hb => W3_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed _ = 0 from owed1 (V2 m ρ) c _]
    icases HO with ⟨%W, -, HO⟩; iexists W; iexact HO

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun w => A_eq2 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    exact in_shuffle
  hout c := by
    rw [Pipeline.ownSems0_none, show (pdats m ρ 2 c).Φ (Fin.last _) = Pipeline.ΦA spec2 c from rfl]
    exact out_shuffle
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (fun w => (W4_arr m ρ c w).symm)
      fun b hb => W4_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]

theorem main_run (c : Dev nD) : main (F := F) c = Pipeline.Seg.run (segs m ρ) := (main_chain c).trans (by chain_rfl)

theorem run_with {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_with m ρ fun _ h => h

def ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

-- An array that belongs to no region and is no result of the host operations is the same at every boundary.
theorem kept (s : MemSt nD τ sig (Elt F))
    (h : ∀ c : Dev nD, ∀ b ∈ Pipeline.ucRefs τ sig, s.mem (((c : Thread nD τ)).1, b) = W4 m ρ c b) (c : Dev nD) (b : Ref sig .tc)
    (hb : ¬ (Proc.devRef .tc b : DevRef τ sig).isScoped ∧ (∀ w, Pipeline.arrRef spec2 w ≠ b) ∧ (∀ w, Pipeline.arrRef spec1 w ≠ b)
      ∧ (∀ w, Pipeline.arrRef spec0 w ≠ b) ∧ b ∉ hostW0) :
    s.mem ((c.tc : Thread nD τ).loc b) = m ((c.tc : Thread nD τ).loc b) :=
  (h c _ (mem_uc b hb.1)).trans ((W4_of_ne m ρ c b hb.2.1).trans ((W3_of_ne m ρ c b hb.2.2.1).trans
    ((W2_of_ne m ρ c b hb.2.2.2.1).trans (W1_of_notin m ρ c b hb.2.2.2.2))))

theorem args_kept (s : MemSt nD τ sig (Elt F))
    (h : ∀ c : Dev nD, ∀ b ∈ Pipeline.ucRefs τ sig, s.mem (((c : Thread nD τ)).1, b) = W4 m ρ c b) (c : Dev nD) : ArgsKept m s c :=
  ⟨(h c _ (mem_uc main_arg0 (by decide))).trans (((W4_arr m ρ c 0).trans (((dat2 (V3 m ρ) c).arrAt_in 0 rfl _).trans (A_eq2 (V3 m ρ) c 0))).trans ((V3_in m ρ c 0 rfl).trans
    ((V2_in m ρ c 0 rfl).trans (W1_of_notin m ρ c main_arg0 (by decide))))),
   kept m ρ s h c main_arg1 (by decide), kept m ρ s h c main_arg2 (by decide), kept m ρ s h c main_arg3 (by decide),
   kept m ρ s h c main_arg4 (by decide), kept m ρ s h c main_arg5 (by decide), kept m ρ s h c main_arg6 (by decide),
   kept m ρ s h c main_arg7 (by decide), kept m ρ s h c main_arg8 (by decide), kept m ρ s h c main_arg9 (by decide),
   kept m ρ s h c main_arg10 (by decide), kept m ρ s h c main_arg11 (by decide)⟩

theorem frame : θ_run defs (onTc (τ := τ) (main (F := F))) ⟨m, fun _ => 0, ρ⟩ (fun r => ∀ c : Dev nD, ArgsKept m r.2 c) :=
  run_with m ρ fun s h c => args_kept m ρ s h c

end Cert.Kernel.Hand

end
-- ==== Proof.KI.R0Runs.lean ====
import proofs.«121860_j42219528520113_1_alg».proof.Proof.Gen.KernelIdeal.Launch
import proofs.«121860_j42219528520113_1_alg».proof.Proof.Gen.KernelIdeal.Skeleton
import proofs.«121860_j42219528520113_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 31 :=
  (by decide +kernel : ∀ t : Fin grid0.N, cond0_1 (grid0.coords t) ↔ t.val = 31)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem idleAt0_3 : ∀ t : Fin cfg0.N, ¬cond0_1 (grid0.coords t) → cfg0.idle 3 (grid0.coords t) = true := by decide +kernel

theorem noFlush0_3 : ∀ t : Fin cfg0.N, ¬cond0_1 (grid0.coords t) → (cfg0.win 3).flush t = false := by decide +kernel

theorem idleAt0_4 : ∀ t : Fin cfg0.N, ¬cond0_1 (grid0.coords t) → cfg0.idle 4 (grid0.coords t) = true := by decide +kernel

theorem noFlush0_4 : ∀ t : Fin cfg0.N, ¬cond0_1 (grid0.coords t) → (cfg0.win 4).flush t = false := by decide +kernel

theorem liveAt0_3 : ∀ t : Fin cfg0.N, cond0_1 (grid0.coords t) → cfg0.idle 3 (grid0.coords t) = false := by decide +kernel

theorem liveAt0_4 : ∀ t : Fin cfg0.N, cond0_1 (grid0.coords t) → cfg0.idle 4 (grid0.coords t) = false := by decide +kernel

abbrev VO0_3 : View sig .tc .vmem S1x128 .f32 := (Memref.whole cc0_stg3_0 : Memref sig .tc .vmem S1x128 .f32).view

abbrev VO0_4 : View sig .tc .vmem S1x128 .f32 := (Memref.whole cc0_stg4_0 : Memref sig .tc .vmem S1x128 .f32).view

abbrev ms0_0 (t : Fin cfg0.N) : Memref sig .tc .vmem S1x2048x64 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S4x128 .f32 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S64x128 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S1x128 .f32 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S1x128 .f32 := win0_4.stage (cfg0.slots t 4)

abbrev hs0_4 (t : Fin cfg0.N) : (ms0_4 t).IsWhole := hstage0_4 ((cfg0.slots t 4).cast nbuf0_4)

abbrev scM0_0 : Memref sig .tc .vmem S1x128 .f32 := Memref.whole cc0_scratch0

abbrev scM0_1 : Memref sig .tc .vmem S1x128 .f32 := Memref.whole cc0_scratch1

abbrev VS0_0 : View sig .tc .vmem S1x128 .f32 := scM0_0.view

abbrev VS0_1 : View sig .tc .vmem S1x128 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Regions

end Cert.KernelIdeal.Hand

end
-- ==== Proof.KI.R0RunA.lean ====
import proofs.«121860_j42219528520113_1_alg».proof.Proof.KI.R0Runs
import proofs.«121860_j42219528520113_1_alg».proof.Proof.OwnsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S1x2048x64 .f32) (x1 : Vec F S4x128 .f32) (x2 : Vec F S64x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], [], ?_, ?_, fun xi3 xi4 E K => ?run⟩
  case run =>
    simp only [cc0_kernel_eq_skeleton]; unfold cc0_kernel_skel
    simp only [k0_part1_eq_skeleton]
    simp only [harg2.owns_eq, harg3.owns_eq, harg4.owns_eq, harg5.owns_eq, harg6.owns_eq]
    unfold owns
    iintro ⟨H0, H1, H2, H3, H4, ⟨%ds0, %fs0, -, HS0⟩, ⟨%ds1, %fs1, -, HS1⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [HS0]; · iexists _; iexact HS0
    iexists _; iexact HS1

end Cert.KernelIdeal.Hand

end
-- ==== Proof.KI.R0RunB.lean ====
import proofs.«121860_j42219528520113_1_alg».proof.Proof.KI.R0RunA
import proofs.«121860_j42219528520113_1_alg».proof.Proof.OwnsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S1x2048x64 .f32) (x1 : Vec F S4x128 .f32) (x2 : Vec F S64x128 .f32) (xs0 xs1 : Vec F S1x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (xi3 xi4 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], [], ?_, ?_, fun xi3 xi4 E K => ?run⟩
  case run =>
    simp only [cc0_kernel_eq_skeleton]; unfold cc0_kernel_skel
    simp only [k0_part1_eq_skeleton]
    simp only [harg2.owns_eq, harg3.owns_eq, harg4.owns_eq, harg5.owns_eq, harg6.owns_eq, harg7.owns_eq, harg8.owns_eq]
    iintro ⟨H0, H1, H2, H3, H4, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [HS0]; · iexists _; iexact HS0
    iexists _; iexact HS1

end Cert.KernelIdeal.Hand

end
-- ==== Proof.KI.R0RunC.lean ====
import proofs.«121860_j42219528520113_1_alg».proof.Proof.KI.R0RunB
import proofs.«121860_j42219528520113_1_alg».proof.Proof.OwnsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S1x2048x64 .f32) (x1 : Vec F S4x128 .f32) (x2 : Vec F S64x128 .f32) (xs0 xs1 : Vec F S1x128 .f32) :
    Σ' (L3 : List (View.Piece (Elt F) S1x128 .f32)) (L4 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, ?_, fun E K => ?run⟩
  case run =>
    simp only [cc0_kernel_eq_skeleton]; unfold cc0_kernel_skel
    simp only [k0_part1_eq_skeleton]
    simp only [harg2.owns_eq, harg3.owns_eq, harg4.owns_eq, harg7.owns_eq, harg8.owns_eq]
    unfold owns
    iintro ⟨H0, H1, H2, ⟨%d3, %f3, -, H3⟩, ⟨%d4, %f4, -, H4⟩, HS0, HS1, Hk⟩
    sl_exec (disch := first | exact hc0 | exact hc1)
    sl_step
    iapply Hk
    isplitl [H0]; · iexact H0
    isplitl [H1]; · iexact H1
    isplitl [H2]; · iexact H2
    isplitl [H3]; · iexists _; iexact H3
    isplitl [H4]; · iexists _; iexact H4
    isplitl [HS0]; · iexists _; iexact HS0
    iexists _; iexact HS1

end Cert.KernelIdeal.Hand

end
-- ==== Proof.KI.R0Frame.lean ====
import proofs.«121860_j42219528520113_1_alg».proof.Proof.KI.R0RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

section
variable (c : Dev nD) (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)

section
variable (hc0 : cond0_0 i) (hc1 : ¬cond0_1 i)
  (x0 : Vec F S1x2048x64 .f32) (x1 : Vec F S4x128 .f32) (x2 : Vec F S64x128 .f32)

def out0_A_3 : Vec F S1x128 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1 x2).1)

def out0_A_4 : Vec F S1x128 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2).2.1)

theorem scover0_A_0 (y : S1x128.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL _ S1x128.size (by sl_kernel_rfl) y

theorem scover0_A_1 (y : S1x128.Idx) :
    ∃ pc ∈ (kernelRun0_A c i arg2 harg2 arg3 harg3 arg4 harg4 arg5 harg5 arg6 harg6 arg7 harg7 arg8 harg8 hc0 hc1 x0 x1 x2).2.2.2.1, y ∈ pc.1.set :=
  View.cover_of_tiledL _ S1x128.size (by sl_kernel_rfl) y

def sout0_A_0 : Vec F S1x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).2.2.1)

def sout0_A_1 : Vec F S1x128 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.2.2.1)

end

section
variable (hc0 : ¬cond0_0 i) (hc1 : ¬cond0_1 i)
  (x0 : Vec F S1x2048x64 .f32) (x1 : Vec F S4x128 .f32) (x2 : Vec F S64x128 .f32) (xs0 xs1 : Vec F S1x128 .f32)

def out0_B_3 : Vec F S1x128 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 x2 xs0 xs1).1)

def out0_B_4 : Vec F S1x128 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 xs0 xs1).2.1)

theorem scover0_B_0 (y : S1x128.Idx) :
    ∃ pc ∈ (kernelRun0_B c i arg2 harg2 arg3 harg3 arg4 harg4 arg5 harg5 arg6 harg6 arg7 harg7 arg8 harg8 hc0 hc1 x0 x1 x2 xs0 xs1).2.2.1, y ∈ pc.1.set :=
  View.cover_of_tiledL _ S1x128.size (by sl_kernel_rfl) y

theorem scover0_B_1 (y : S1x128.Idx) :
    ∃ pc ∈ (kernelRun0_B c i arg2 harg2 arg3 harg3 arg4 harg4 arg5 harg5 arg6 harg6 arg7 harg7 arg8 harg8 hc0 hc1 x0 x1 x2 xs0 xs1).2.2.2.1, y ∈ pc.1.set :=
  View.cover_of_tiledL _ S1x128.size (by sl_kernel_rfl) y

def sout0_B_0 : Vec F S1x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).2.2.1)

def sout0_B_1 : Vec F S1x128 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.2.2.1)

end

section
variable (hc0 : ¬cond0_0 i) (hc1 : cond0_1 i)
  (x0 : Vec F S1x2048x64 .f32) (x1 : Vec F S4x128 .f32) (x2 : Vec F S64x128 .f32) (xs0 xs1 : Vec F S1x128 .f32)

theorem cover0_C_3 (y : S1x128.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL _ S1x128.size (by sl_kernel_rfl) y

theorem cover0_C_4 (y : S1x128.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL _ S1x128.size (by sl_kernel_rfl) y

def out0_C_3 : Vec F S1x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

def out0_C_4 : Vec F S1x128 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

theorem scover0_C_0 (y : S1x128.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL _ S1x128.size (by sl_kernel_rfl) y

theorem scover0_C_1 (y : S1x128.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL _ S1x128.size (by sl_kernel_rfl) y

def sout0_C_0 : Vec F S1x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

def sout0_C_1 : Vec F S1x128 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

end

end

abbrev at0 {P Q : grid0.Coords → Prop} {β : Type} (c : Dev nD) (t : Fin cfg0.N)
    (f : ∀ (i : grid0.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole), P i → Q i → Vec F S1x2048x64 .f32 → Vec F S4x128 .f32 → Vec F S64x128 .f32 → β)
    (hp : P (grid0.coords t)) (hq : Q (grid0.coords t)) : β :=
  f (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hp hq (iblk0 V c 0 t) (iblk0 V c 1 t) (iblk0 V c 2 t)

def ptA0 (c : Dev nD) (t : Fin cfg0.N) (hp : cond0_0 (grid0.coords t)) (hq : ¬cond0_1 (grid0.coords t)) : Vec F S1x128 .f32 × Vec F S1x128 .f32 × Vec F S1x128 .f32 × Vec F S1x128 .f32 :=
  (at0 V c t (out0_A_3 c) hp hq, at0 V c t (out0_A_4 c) hp hq, at0 V c t (sout0_A_0 c) hp hq, at0 V c t (sout0_A_1 c) hp hq)

def ptB0 (c : Dev nD) (t : Fin cfg0.N) (hp : ¬cond0_0 (grid0.coords t)) (hq : ¬cond0_1 (grid0.coords t)) (s0 s1 : Vec F S1x128 .f32) : Vec F S1x128 .f32 × Vec F S1x128 .f32 × Vec F S1x128 .f32 × Vec F S1x128 .f32 :=
  (at0 V c t (out0_B_3 c) hp hq s0 s1, at0 V c t (out0_B_4 c) hp hq s0 s1, at0 V c t (sout0_B_0 c) hp hq s0 s1, at0 V c t (sout0_B_1 c) hp hq s0 s1)

def ptC0 (c : Dev nD) (t : Fin cfg0.N) (hp : ¬cond0_0 (grid0.coords t)) (hq : cond0_1 (grid0.coords t)) (s0 s1 : Vec F S1x128 .f32) : Vec F S1x128 .f32 × Vec F S1x128 .f32 × Vec F S1x128 .f32 × Vec F S1x128 .f32 :=
  (at0 V c t (out0_C_3 c) hp hq s0 s1, at0 V c t (out0_C_4 c) hp hq s0 s1, at0 V c t (sout0_C_0 c) hp hq s0 s1, at0 V c t (sout0_C_1 c) hp hq s0 s1)

def outsAt0 (c : Dev nD) : (n : ℕ) → n < cfg0.N → Vec F S1x128 .f32 × Vec F S1x128 .f32 × Vec F S1x128 .f32 × Vec F S1x128 .f32
  | 0, hn => ptA0 V c ⟨0, hn⟩ ((hcond0_0 ⟨0, hn⟩).mpr rfl) (fun h => (fun h => by (try dsimp only at h); omega) ((hcond0_1 ⟨0, hn⟩).mp h))
  | n + 1, hn =>
    if h1 : n + 1 = 31 then
      ptC0 V c ⟨n + 1, hn⟩ (fun h => absurd ((hcond0_0 ⟨n + 1, hn⟩).mp h) (Nat.succ_ne_zero n)) ((hcond0_1 ⟨n + 1, hn⟩).mpr h1) (outsAt0 c n (Nat.lt_of_succ_lt hn)).2.2.1 (outsAt0 c n (Nat.lt_of_succ_lt hn)).2.2.2
    else
      ptB0 V c ⟨n + 1, hn⟩ (fun h => absurd ((hcond0_0 ⟨n + 1, hn⟩).mp h) (Nat.succ_ne_zero n)) (fun h => h1 ((hcond0_1 ⟨n + 1, hn⟩).mp h)) (outsAt0 c n (Nat.lt_of_succ_lt hn)).2.2.1 (outsAt0 c n (Nat.lt_of_succ_lt hn)).2.2.2

theorem outsAt0_A (c : Dev nD) (t : Fin cfg0.N) (h0 : t.val = 0) (hc0 : cond0_0 (grid0.coords t)) (hc1 : ¬cond0_1 (grid0.coords t)) :
    outsAt0 V c t.val t.isLt = ptA0 V c t hc0 hc1 := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 31) (hc0 : ¬cond0_0 (grid0.coords t)) (hc1 : ¬cond0_1 (grid0.coords t)) :
    outsAt0 V c t.val t.isLt = ptB0 V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd rfl h0
  | succ n => exact (dif_neg h1).trans rfl

theorem outsAt0_C (c : Dev nD) (t : Fin cfg0.N) (h0 : ¬t.val = 0) (h1 : t.val = 31) (hc0 : ¬cond0_0 (grid0.coords t)) (hc1 : cond0_1 (grid0.coords t)) :
    outsAt0 V c t.val t.isLt = ptC0 V c t hc0 hc1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd rfl h0
  | succ n => exact (dif_pos h1).trans rfl

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.1 ∗ owns (c : Thread nD τ) scM0_1 fullShare (outsAt0 V c n hn).2.2.2)
          ∗ Pipeline.scopedRestBut (Ix := Unit) (Name := ℕ) (U := UR sig nD τ) (Lvl := ℕ) (Val := Elt F) spec0 c [cc0_scratch0, cc0_scratch1])
          ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.2.1 ∗ owns (c : Thread nD τ) scM0_1 fullShare (outsAt0 V c n hn).2.2.2)
          ∗ Pipeline.scopedRestBut (Ix := Unit) (Name := ℕ) (U := UR sig nD τ) (Lvl := ℕ) (Val := Elt F) spec0 c [cc0_scratch0, cc0_scratch1])
          ∗ (∃ r, prngReg c r)) := rfl

theorem PhiS0_pos (c : Dev nD) (n : ℕ) (h : n ≤ cfg0.N) (hz : n ≠ 0) :
    PhiS0 V c n h = PhiS0 V c (n - 1 + 1) (by omega) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := by dsimp only [dat0]

theorem q0 (c : Dev nD) (w : Fin cfg0.W) : (dat0 V c).q w = fullShare := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_3 (c : Dev nD) (t : Fin cfg0.N) : (dat0 V c).after 3 t = (outsAt0 V c t.val t.isLt).1 := by dsimp only [dat0]

theorem after0_4 (c : Dev nD) (t : Fin cfg0.N) : (dat0 V c).after 4 t = (outsAt0 V c t.val t.isLt).2.1 := by dsimp only [dat0]

theorem live0 (c : Dev nD) (w : Fin cfg0.W) (t : Fin cfg0.N) (hi : cfg0.idle w (cfg0.grid.coords t) = false) (M : _) (X : _)
    (hM : (cfg0.win w).stage (cfg0.slots t w) = M) (hX : (dat0 V c).after w t = X) :
    (dat0 V c).leavesExact w t = owns (c : Thread nD τ) M fullShare X := by
  subst hM hX; unfold Dat.leavesExact; rw [hi]

theorem before0_in (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  and_intros <;> exact fun d => (dat0 V c).before_in_eq_fetched _ rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1200000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c t]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [live0 V c 0 t (liveAt0_0 t) (ms0_0 t) (iblk0 V c 0 t) rfl rfl]
  rw [live0 V c 1 t (liveAt0_1 t) (ms0_1 t) (iblk0 V c 1 t) rfl rfl]
  rw [live0 V c 2 t (liveAt0_2 t) (ms0_2 t) (iblk0 V c 2 t) rfl rfl]
  by_cases hz : t.val = 0
  · have hc0 : cond0_0 (grid0.coords t) := (hcond0_0 t).mpr hz
    have hc1 : ¬cond0_1 (grid0.coords t) := fun h => by have := (hcond0_1 t).mp h; omega
    rw [Dat.leavesExact_idle (dat0 V c) 3 t (idleAt0_3 t hc1) (noFlush0_3 t hc1)]
    rw [Dat.leavesExact_idle (dat0 V c) 4 t (idleAt0_4 t hc1) (noFlush0_4 t hc1)]
    rw [outsAt0_A V c t hz hc0 hc1]
    dsimp only [ptA0, at0, sout0_A_0, sout0_A_1]
    rw [PhiS0_castSucc V c t, PhiS0_zero V c _ _ hz, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ hc0 hc1 (iblk0 V c 0 t) (iblk0 V c 1 t) (iblk0 V c 2 t)).2.2.2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 HR Hg]
    · isplitr [Hg]
      · isplitr [HR]
        · isplitl [HS0]
          · unfold owns; iexists _; isplitr
            swap; · iexact HS0
            ipureintro; exact View.read_writes_of_cover _ _ _ _ _ (fun _ => scover0_A_0 ..)
          · unfold owns; iexists _; isplitr
            swap; · iexact HS1
            ipureintro; exact View.read_writes_of_cover _ _ _ _ _ (fun _ => scover0_A_1 ..)
        · iexact HR
      · iexact Hg
    isplitl [Ho]; · iexact Ho
    isplitl [H0]; · iexact H0
    isplitl [H1]; · iexact H1
    isplitl [H2]; · iexact H2
    isplitl [H3]; · iexists _; iexact H3
    iexists _; iexact H4
  · have hc0 : ¬cond0_0 (grid0.coords t) := fun h => hz ((hcond0_0 t).mp h)
    by_cases h1 : t.val = 31
    · have hc1 : cond0_1 (grid0.coords t) := (hcond0_1 t).mpr h1
      rw [live0 V c 3 t (liveAt0_3 t hc1) (ms0_3 t) _ rfl rfl, after0_3]
      rw [live0 V c 4 t (liveAt0_4 t hc1) (ms0_4 t) _ rfl rfl, after0_4]
      rw [outsAt0_C V c t hz h1 hc0 hc1]
      dsimp only [ptC0, at0, out0_C_3, out0_C_4, sout0_C_0, sout0_C_1]
      rw [PhiS0_castSucc V c t, PhiS0_pos V c _ _ hz, PhiS0_succ]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ hc0 hc1 (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitr [Hg]
        · isplitr [HR]
          · isplitl [HS0]
            · unfold owns; iexists _; isplitr
              swap; · iexact HS0
              ipureintro; exact View.read_writes_of_cover _ _ _ _ _ (fun _ => scover0_C_0 ..)
            · unfold owns; iexists _; isplitr
              swap; · iexact HS1
              ipureintro; exact View.read_writes_of_cover _ _ _ _ _ (fun _ => scover0_C_1 ..)
          · iexact HR
        · iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (fun _ => cover0_C_3 ..)
      unfold owns; iexists _; isplitr
      swap; · iexact H4
      ipureintro; exact View.read_writes_of_cover _ _ _ _ _ (fun _ => cover0_C_4 ..)
    · have hc1 : ¬cond0_1 (grid0.coords t) := fun h => h1 ((hcond0_1 t).mp h)
      rw [Dat.leavesExact_idle (dat0 V c) 3 t (idleAt0_3 t hc1) (noFlush0_3 t hc1)]
      rw [Dat.leavesExact_idle (dat0 V c) 4 t (idleAt0_4 t hc1) (noFlush0_4 t hc1)]
      rw [outsAt0_B V c t hz h1 hc0 hc1]
      dsimp only [ptB0, at0, sout0_B_0, sout0_B_1]
      rw [PhiS0_castSucc V c t, PhiS0_pos V c _ _ hz, PhiS0_succ]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ hc0 hc1 (iblk0 V c 0 t) (iblk0 V c 1 t) (iblk0 V c 2 t) _ _).2.2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitr [Hg]
        · isplitr [HR]
          · isplitl [HS0]
            · unfold owns; iexists _; isplitr
              swap; · iexact HS0
              ipureintro; exact View.read_writes_of_cover _ _ _ _ _ (fun _ => scover0_B_0 ..)
            · unfold owns; iexists _; isplitr
              swap; · iexact HS1
              ipureintro; exact View.read_writes_of_cover _ _ _ _ _ (fun _ => scover0_B_1 ..)
          · iexact HR
        · iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiS0_succ, PhiA0_eq]
  iintro ⟨⟨⟨HS0, HS1⟩, HR⟩, Hg⟩
  isplitr [Hg]
  · isplitr [HR]
    · isplitl [HS0]
      · iexists _; iexact HS0
      · iexists _; iexact HS1
    · iexact HR
  · iexact Hg

theorem hout0 (c : Dev nD) : (dat0 V c).Φ (Fin.last cfg0.N) ⊢ Pipeline.ΦA spec0 c :=
  Phi_out0 V c _ (by rw [Fin.val_last]; have : cfg0.N = 32 := N_0; omega)

end Regions

end Cert.KernelIdeal.Hand

end
-- ==== Proof.KI.R1Runs.lean ====
import proofs.«121860_j42219528520113_1_alg».proof.Proof.Gen.KernelIdeal.Launch
import proofs.«121860_j42219528520113_1_alg».proof.Proof.Gen.KernelIdeal.Skeleton
import proofs.«121860_j42219528520113_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 31 :=
  (by decide +kernel : ∀ t : Fin grid1.N, cond1_1 (grid1.coords t) ↔ t.val = 31)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem liveAt1_5 : ∀ t : Fin cfg1.N, cfg1.idle 5 (grid1.coords t) = false := by decide +kernel

theorem liveAt1_6 : ∀ t : Fin cfg1.N, cfg1.idle 6 (grid1.coords t) = false := by decide +kernel

theorem liveAt1_7 : ∀ t : Fin cfg1.N, cfg1.idle 7 (grid1.coords t) = false := by decide +kernel

theorem liveAt1_8 : ∀ t : Fin cfg1.N, cfg1.idle 8 (grid1.coords t) = false := by decide +kernel

theorem idleAt1_9 : ∀ t : Fin cfg1.N, ¬cond1_1 (grid1.coords t) → cfg1.idle 9 (grid1.coords t) = true := by decide +kernel

theorem noFlush1_9 : ∀ t : Fin cfg1.N, ¬cond1_1 (grid1.coords t) → (cfg1.win 9).flush t = false := by decide +kernel

theorem liveAt1_9_C : ∀ t : Fin cfg1.N, cond1_1 (grid1.coords t) → cfg1.idle 9 (grid1.coords t) = false := by decide +kernel

theorem idleAt1_10 : ∀ t : Fin cfg1.N, ¬cond1_1 (grid1.coords t) → cfg1.idle 10 (grid1.coords t) = true := by decide +kernel

theorem noFlush1_10 : ∀ t : Fin cfg1.N, ¬cond1_1 (grid1.coords t) → (cfg1.win 10).flush t = false := by decide +kernel

theorem liveAt1_10_C : ∀ t : Fin cfg1.N, cond1_1 (grid1.coords t) → cfg1.idle 10 (grid1.coords t) = false := by decide +kernel

abbrev VO1_9 : View sig .tc .vmem S1x64 .f32 := (Memref.whole cc1_stg9_0 : Memref sig .tc .vmem S1x64 .f32).view

abbrev VO1_10 : View sig .tc .vmem S1x64 .f32 := (Memref.whole cc1_stg10_0 : Memref sig .tc .vmem S1x64 .f32).view

abbrev ms1_0 (t : Fin cfg1.N) : Memref sig .tc .vmem S1x2048x64 .f32 := win1_0.stage (cfg1.slots t 0)

abbrev hs1_0 (t : Fin cfg1.N) : (ms1_0 t).IsWhole := hstage1_0 ((cfg1.slots t 0).cast nbuf1_0)

abbrev ms1_1 (t : Fin cfg1.N) : Memref sig .tc .vmem S4x128 .f32 := win1_1.stage (cfg1.slots t 1)

abbrev hs1_1 (t : Fin cfg1.N) : (ms1_1 t).IsWhole := hstage1_1 ((cfg1.slots t 1).cast nbuf1_1)

abbrev ms1_2 (t : Fin cfg1.N) : Memref sig .tc .vmem S64x128 .f32 := win1_2.stage (cfg1.slots t 2)

abbrev hs1_2 (t : Fin cfg1.N) : (ms1_2 t).IsWhole := hstage1_2 ((cfg1.slots t 2).cast nbuf1_2)

abbrev ms1_3 (t : Fin cfg1.N) : Memref sig .tc .vmem S1x128 .f32 := win1_3.stage (cfg1.slots t 3)

abbrev hs1_3 (t : Fin cfg1.N) : (ms1_3 t).IsWhole := hstage1_3 ((cfg1.slots t 3).cast nbuf1_3)

abbrev ms1_4 (t : Fin cfg1.N) : Memref sig .tc .vmem S1x128 .f32 := win1_4.stage (cfg1.slots t 4)

abbrev hs1_4 (t : Fin cfg1.N) : (ms1_4 t).IsWhole := hstage1_4 ((cfg1.slots t 4).cast nbuf1_4)

abbrev ms1_5 (t : Fin cfg1.N) : Memref sig .tc .vmem S1x128 .f32 := win1_5.stage (cfg1.slots t 5)

abbrev hs1_5 (t : Fin cfg1.N) : (ms1_5 t).IsWhole := hstage1_5 ((cfg1.slots t 5).cast nbuf1_5)

abbrev ms1_6 (t : Fin cfg1.N) : Memref sig .tc .vmem S1x128 .f32 := win1_6.stage (cfg1.slots t 6)

abbrev hs1_6 (t : Fin cfg1.N) : (ms1_6 t).IsWhole := hstage1_6 ((cfg1.slots t 6).cast nbuf1_6)

abbrev ms1_7 (t : Fin cfg1.N) : Memref sig .tc .vmem S128x64 .f32 := win1_7.stage (cfg1.slots t 7)

abbrev hs1_7 (t : Fin cfg1.N) : (ms1_7 t).IsWhole := hstage1_7 ((cfg1.slots t 7).cast nbuf1_7)

abbrev ms1_8 (t : Fin cfg1.N) : Memref sig .tc .vmem S1x64 .f32 := win1_8.stage (cfg1.slots t 8)

abbrev hs1_8 (t : Fin cfg1.N) : (ms1_8 t).IsWhole := hstage1_8 ((cfg1.slots t 8).cast nbuf1_8)

abbrev ms1_9 (t : Fin cfg1.N) : Memref sig .tc .vmem S1x64 .f32 := win1_9.stage (cfg1.slots t 9)

abbrev hs1_9 (t : Fin cfg1.N) : (ms1_9 t).IsWhole := hstage1_9 ((cfg1.slots t 9).cast nbuf1_9)

abbrev ms1_10 (t : Fin cfg1.N) : Memref sig .tc .vmem S1x64 .f32 := win1_10.stage (cfg1.slots t 10)

abbrev hs1_10 (t : Fin cfg1.N) : (ms1_10 t).IsWhole := hstage1_10 ((cfg1.slots t 10).cast nbuf1_10)

abbrev scM1_0 : Memref sig .tc .vmem S1x64 .f32 := Memref.whole cc1_scratch0

abbrev scM1_1 : Memref sig .tc .vmem S1x64 .f32 := Memref.whole cc1_scratch1

abbrev VS1_0 : View sig .tc .vmem S1x64 .f32 := scM1_0.view

abbrev VS1_1 : View sig .tc .vmem S1x64 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Hand

end
-- ==== Proof.KI.R1RunA.lean ====
import proofs.«121860_j42219528520113_1_alg».proof.Proof.KI.R1Runs
import proofs.«121860_j42219528520113_1_alg».proof.Proof.OwnsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (hc0 : cond1_0 i) (hc1 : ¬cond1_1 i)
    (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) :
    Σ' (L9 : List (View.Piece (Elt F) S1x64 .f32)) (L10 : List (View.Piece (Elt F) S1x64 .f32)) (LS0 : List (View.Piece (Elt F) S1x64 .f32)), { LS1 : List (View.Piece (Elt F) S1x64 .f32) //
      ∀ (xi9 xi10 : Vec F S1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 xi10 E K => ?run⟩
  case run =>
    simp only [cc1_kernel_eq_skeleton]; unfold cc1_kernel_skel
    simp only [k1_part1_eq_skeleton]; unfold k1_part1_skel
    simp only [harg2.owns_eq, harg3.owns_eq, harg4.owns_eq, harg5.owns_eq, harg6.owns_eq, harg7.owns_eq, harg8.owns_eq, harg9.owns_eq, harg10.owns_eq, harg11.owns_eq, harg12.owns_eq]
    unfold owns
    iintro ⟨H0, H1, H2, H3, H4, H5, H6, H7, H8, H9, H10, ⟨%ds0, %fs0, -, HS0⟩, ⟨%ds1, %fs1, -, HS1⟩, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexists _; iexact HS0
    iexists _; iexact HS1

end Cert.KernelIdeal.Hand

end
-- ==== Proof.KI.R1RunB.lean ====
import proofs.«121860_j42219528520113_1_alg».proof.Proof.KI.R1RunA
import proofs.«121860_j42219528520113_1_alg».proof.Proof.OwnsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (hc0 : ¬cond1_0 i) (hc1 : ¬cond1_1 i)
    (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) (xs0 : Vec F S1x64 .f32) (xs1 : Vec F S1x64 .f32) :
    Σ' (L9 : List (View.Piece (Elt F) S1x64 .f32)) (L10 : List (View.Piece (Elt F) S1x64 .f32)) (LS0 : List (View.Piece (Elt F) S1x64 .f32)), { LS1 : List (View.Piece (Elt F) S1x64 .f32) //
      ∀ (xi9 xi10 : Vec F S1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14) K } := by
  refine ⟨[], [], ?_, ?_, fun xi9 xi10 E K => ?run⟩
  case run =>
    simp only [cc1_kernel_eq_skeleton]; unfold cc1_kernel_skel
    simp only [k1_part1_eq_skeleton]; unfold k1_part1_skel
    simp only [harg2.owns_eq, harg3.owns_eq, harg4.owns_eq, harg5.owns_eq, harg6.owns_eq, harg7.owns_eq, harg8.owns_eq, harg9.owns_eq, harg10.owns_eq, harg11.owns_eq, harg12.owns_eq, harg13.owns_eq, harg14.owns_eq]
    iintro ⟨H0, H1, H2, H3, H4, H5, H6, H7, H8, H9, H10, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexists _; iexact HS0
    iexists _; iexact HS1

end Cert.KernelIdeal.Hand

end
-- ==== Proof.KI.R1RunC.lean ====
import proofs.«121860_j42219528520113_1_alg».proof.Proof.KI.R1RunB
import proofs.«121860_j42219528520113_1_alg».proof.Proof.OwnsLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (hc0 : ¬cond1_0 i) (hc1 : cond1_1 i)
    (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) (xs0 : Vec F S1x64 .f32) (xs1 : Vec F S1x64 .f32) :
    Σ' (L9 : List (View.Piece (Elt F) S1x64 .f32)) (L10 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc1_kernel_eq_skeleton]; unfold cc1_kernel_skel
    simp only [k1_part1_eq_skeleton]; unfold k1_part1_skel
    simp only [harg2.owns_eq, harg3.owns_eq, harg4.owns_eq, harg5.owns_eq, harg6.owns_eq, harg7.owns_eq, harg8.owns_eq, harg9.owns_eq, harg10.owns_eq, harg13.owns_eq, harg14.owns_eq]
    unfold owns
    iintro ⟨H0, H1, H2, H3, H4, H5, H6, H7, H8, ⟨%d9, %f9, -, H9⟩, ⟨%d10, %f10, -, H10⟩, HS0, HS1, Hk⟩
    sl_exec (disch := first | exact hc0 | exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexists _; iexact HS0
    iexists _; iexact HS1

end Cert.KernelIdeal.Hand

end
-- ==== Proof.KI.R1Frame.lean ====
import proofs.«121860_j42219528520113_1_alg».proof.Proof.KI.R1RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole)

section
variable (hc0 : cond1_0 i) (hc1 : ¬cond1_1 i)
  (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32)

def out1_A_9 : Vec F S1x64 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

def out1_A_10 : Vec F S1x64 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

theorem scover1_A_0 (y : S1x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL _ S1x64.size (by sl_kernel_rfl) y

def sout1_A_0 : Vec F S1x64 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

theorem scover1_A_1 (y : S1x64.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL _ S1x64.size (by sl_kernel_rfl) y

def sout1_A_1 : Vec F S1x64 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

end

section
variable (hc0 : ¬cond1_0 i) (hc1 : ¬cond1_1 i)
  (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) (xs0 : Vec F S1x64 .f32) (xs1 : Vec F S1x64 .f32)

def out1_B_9 : Vec F S1x64 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)

def out1_B_10 : Vec F S1x64 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)

theorem scover1_B_0 (y : S1x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL _ S1x64.size (by sl_kernel_rfl) y

def sout1_B_0 : Vec F S1x64 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)

theorem scover1_B_1 (y : S1x64.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL _ S1x64.size (by sl_kernel_rfl) y

def sout1_B_1 : Vec F S1x64 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)

end

section
variable (hc0 : ¬cond1_0 i) (hc1 : cond1_1 i)
  (x0 : Vec F S1x2048x64 .f32) (x1 : Vec F S4x128 .f32) (x2 : Vec F S64x128 .f32) (x3 : Vec F S1x128 .f32) (x4 : Vec F S1x128 .f32) (x5 : Vec F S1x128 .f32) (x6 : Vec F S1x128 .f32) (x7 : Vec F S128x64 .f32) (x8 : Vec F S1x64 .f32) (xs0 : Vec F S1x64 .f32) (xs1 : Vec F S1x64 .f32)

theorem cover1_C_9 (y : S1x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL _ S1x64.size (by sl_kernel_rfl) y

def out1_C_9 : Vec F S1x64 .f32 :=
  VO1_9.read (Elt F) (VO1_9.writes (Elt F) VO1_9.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)

theorem cover1_C_10 (y : S1x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL _ S1x64.size (by sl_kernel_rfl) y

def out1_C_10 : Vec F S1x64 .f32 :=
  VO1_10.read (Elt F) (VO1_10.writes (Elt F) VO1_10.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)

theorem scover1_C_0 (y : S1x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL _ S1x64.size (by sl_kernel_rfl) y

def sout1_C_0 : Vec F S1x64 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)

theorem scover1_C_1 (y : S1x64.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL _ S1x64.size (by sl_kernel_rfl) y

def sout1_C_1 : Vec F S1x64 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)

end

end

abbrev at1 {P Q : grid1.Coords → Prop} {β : Type} (c : Dev nD) (t : Fin cfg1.N)
    (f : ∀ (i : grid1.Coords) (arg2 : Memref sig .tc .vmem S1x2048x64 .f32) (harg2 : arg2.IsWhole) (arg3 : Memref sig .tc .vmem S4x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole), P i → Q i → Vec F S1x2048x64 .f32 → Vec F S4x128 .f32 → Vec F S64x128 .f32 → Vec F S1x128 .f32 → Vec F S1x128 .f32 → Vec F S1x128 .f32 → Vec F S1x128 .f32 → Vec F S128x64 .f32 → Vec F S1x64 .f32 → β)
    (hp : P (grid1.coords t)) (hq : Q (grid1.coords t)) : β :=
  f (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) hp hq (iblk1 V c 0 t) (iblk1 V c 1 t) (iblk1 V c 2 t) (iblk1 V c 3 t) (iblk1 V c 4 t) (iblk1 V c 5 t) (iblk1 V c 6 t) (iblk1 V c 7 t) (iblk1 V c 8 t)

def ptA1 (c : Dev nD) (t : Fin cfg1.N) (hp : cond1_0 (grid1.coords t)) (hq : ¬cond1_1 (grid1.coords t)) : Vec F S1x64 .f32 × Vec F S1x64 .f32 × Vec F S1x64 .f32 × Vec F S1x64 .f32 :=
  (at1 V c t (out1_A_9 c) hp hq, at1 V c t (out1_A_10 c) hp hq, at1 V c t (sout1_A_0 c) hp hq, at1 V c t (sout1_A_1 c) hp hq)

def ptB1 (c : Dev nD) (t : Fin cfg1.N) (hp : ¬cond1_0 (grid1.coords t)) (hq : ¬cond1_1 (grid1.coords t)) (s0 s1 : Vec F S1x64 .f32) : Vec F S1x64 .f32 × Vec F S1x64 .f32 × Vec F S1x64 .f32 × Vec F S1x64 .f32 :=
  (at1 V c t (out1_B_9 c) hp hq s0 s1, at1 V c t (out1_B_10 c) hp hq s0 s1, at1 V c t (sout1_B_0 c) hp hq s0 s1, at1 V c t (sout1_B_1 c) hp hq s0 s1)

def ptC1 (c : Dev nD) (t : Fin cfg1.N) (hp : ¬cond1_0 (grid1.coords t)) (hq : cond1_1 (grid1.coords t)) (s0 s1 : Vec F S1x64 .f32) : Vec F S1x64 .f32 × Vec F S1x64 .f32 × Vec F S1x64 .f32 × Vec F S1x64 .f32 :=
  (at1 V c t (out1_C_9 c) hp hq s0 s1, at1 V c t (out1_C_10 c) hp hq s0 s1, at1 V c t (sout1_C_0 c) hp hq s0 s1, at1 V c t (sout1_C_1 c) hp hq s0 s1)

def outsAt1 (c : Dev nD) : (n : ℕ) → n < cfg1.N → Vec F S1x64 .f32 × Vec F S1x64 .f32 × Vec F S1x64 .f32 × Vec F S1x64 .f32
  | 0, hn => ptA1 V c ⟨0, hn⟩ ((hcond1_0 ⟨0, hn⟩).mpr rfl) (fun h => (fun h => by (try dsimp only at h); omega) ((hcond1_1 ⟨0, hn⟩).mp h))
  | n + 1, hn =>
    if h1 : n + 1 = 31 then
      ptC1 V c ⟨n + 1, hn⟩ (fun h => Nat.succ_ne_zero n ((hcond1_0 ⟨n + 1, hn⟩).mp h)) ((hcond1_1 ⟨n + 1, hn⟩).mpr h1) (outsAt1 c n (Nat.lt_of_succ_lt hn)).2.2.1 (outsAt1 c n (Nat.lt_of_succ_lt hn)).2.2.2
    else
      ptB1 V c ⟨n + 1, hn⟩ (fun h => Nat.succ_ne_zero n ((hcond1_0 ⟨n + 1, hn⟩).mp h)) (fun h => h1 ((hcond1_1 ⟨n + 1, hn⟩).mp h)) (outsAt1 c n (Nat.lt_of_succ_lt hn)).2.2.1 (outsAt1 c n (Nat.lt_of_succ_lt hn)).2.2.2

theorem outsAt1_A (c : Dev nD) (t : Fin cfg1.N) (h0 : t.val = 0) (h1 : ¬t.val = 31) :
    outsAt1 V c t.val t.isLt = ptA1 V c t ((hcond1_0 t).mpr h0) (fun h => h1 ((hcond1_1 t).mp h)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 31) :
    outsAt1 V c t.val t.isLt = ptB1 V c t (fun h => h0 ((hcond1_0 t).mp h)) (fun h => h1 ((hcond1_1 t).mp h)) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd rfl h0
  | succ n => exact (dif_neg h1).trans rfl

theorem outsAt1_C (c : Dev nD) (t : Fin cfg1.N) (h0 : ¬t.val = 0) (h1 : t.val = 31) :
    outsAt1 V c t.val t.isLt = ptC1 V c t (fun h => h0 ((hcond1_0 t).mp h)) ((hcond1_1 t).mpr h1) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd rfl h0
  | succ n => exact (dif_pos h1).trans rfl

def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.1 ∗ owns (c : Thread nD τ) scM1_1 fullShare (outsAt1 V c n hn).2.2.2)
        ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.1 ∗ owns (c : Thread nD τ) scM1_1 fullShare (outsAt1 V c n hn).2.2.2)
        ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = PhiS1 V c (n - 1 + 1) (by omega) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := by dsimp only [dat1]

theorem q1 (c : Dev nD) (w : Fin cfg1.W) : (dat1 V c).q w = fullShare := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_9 (c : Dev nD) (t : Fin cfg1.N) : (dat1 V c).after 9 t = (outsAt1 V c t.val t.isLt).1 := by dsimp only [dat1]

theorem after1_10 (c : Dev nD) (t : Fin cfg1.N) : (dat1 V c).after 10 t = (outsAt1 V c t.val t.isLt).2.1 := by dsimp only [dat1]

theorem live1 (c : Dev nD) (w : Fin cfg1.W) (t : Fin cfg1.N) (hi : cfg1.idle w (cfg1.grid.coords t) = false) (M : _) (X : _)
    (hM : (cfg1.win w).stage (cfg1.slots t w) = M) (hX : (dat1 V c).after w t = X) :
    (dat1 V c).leavesExact w t = owns (c : Thread nD τ) M fullShare X := by
  subst hM hX; unfold Dat.leavesExact; rw [hi]

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (∀ d, (dat1 V c).before 6 t d = iblk1 V c 6 t) ∧ (∀ d, (dat1 V c).before 7 t d = iblk1 V c 7 t) ∧ (∀ d, (dat1 V c).before 8 t d = iblk1 V c 8 t) := by
  and_intros <;> exact fun d => (dat1 V c).before_in_eq_fetched _ rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 1200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in V c t]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [live1 V c 0 t (liveAt1_0 t) (ms1_0 t) (iblk1 V c 0 t) rfl rfl]
  rw [live1 V c 1 t (liveAt1_1 t) (ms1_1 t) (iblk1 V c 1 t) rfl rfl]
  rw [live1 V c 2 t (liveAt1_2 t) (ms1_2 t) (iblk1 V c 2 t) rfl rfl]
  rw [live1 V c 3 t (liveAt1_3 t) (ms1_3 t) (iblk1 V c 3 t) rfl rfl]
  rw [live1 V c 4 t (liveAt1_4 t) (ms1_4 t) (iblk1 V c 4 t) rfl rfl]
  rw [live1 V c 5 t (liveAt1_5 t) (ms1_5 t) (iblk1 V c 5 t) rfl rfl]
  rw [live1 V c 6 t (liveAt1_6 t) (ms1_6 t) (iblk1 V c 6 t) rfl rfl]
  rw [live1 V c 7 t (liveAt1_7 t) (ms1_7 t) (iblk1 V c 7 t) rfl rfl]
  rw [live1 V c 8 t (liveAt1_8 t) (ms1_8 t) (iblk1 V c 8 t) rfl rfl]
  by_cases h0 : t.val = 0
  · have h1 : ¬t.val = 31 := by omega
    have hc1 : ¬cond1_1 (grid1.coords t) := fun h => h1 ((hcond1_1 t).mp h)
    rw [Dat.leavesExact_idle (dat1 V c) 9 t (idleAt1_9 t hc1) (noFlush1_9 t hc1), Dat.leavesExact_idle (dat1 V c) 10 t (idleAt1_10 t hc1) (noFlush1_10 t hc1)]
    rw [outsAt1_A V c t h0 h1]
    dsimp only [ptA1, at1, sout1_A_0, sout1_A_1]
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A c (grid1.coords t) _ _ _ _ _ _ _ _ _ _ _ _ _ _ _ _ _ _ _ _ _ _ _ _ _ _ ((hcond1_0 t).mpr h0) hc1 (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (fun _ => scover1_A_0 ..)
          unfold owns; iexists _; isplitr
          swap; · iexact HS1
          ipureintro; exact View.read_writes_of_cover _ _ _ _ _ (fun _ => scover1_A_1 ..)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases h1 : t.val = 31
    · have hc1 : cond1_1 (grid1.coords t) := (hcond1_1 t).mpr h1
      rw [live1 V c 9 t (liveAt1_9_C t hc1) (ms1_9 t) _ rfl rfl, after1_9]
      rw [live1 V c 10 t (liveAt1_10_C t hc1) (ms1_10 t) _ rfl rfl, after1_10]
      rw [outsAt1_C V c t h0 h1]
      dsimp only [ptC1, at1, out1_C_9, out1_C_10, sout1_C_0, sout1_C_1]
      rw [PhiS1_castSucc V c t, PhiS1_pos V c _ _ h0, PhiS1_succ]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C c (grid1.coords t) _ _ _ _ _ _ _ _ _ _ _ _ _ _ _ _ _ _ _ _ _ _ _ _ _ _ (fun h => h0 ((hcond1_0 t).mp h)) hc1 (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, ⟨%e9, H9⟩, ⟨%e10, H10⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (fun _ => scover1_C_0 ..)
            unfold owns; iexists _; isplitr
            swap; · iexact HS1
            ipureintro; exact View.read_writes_of_cover _ _ _ _ _ (fun _ => scover1_C_1 ..)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (fun _ => cover1_C_9 ..)
      unfold owns; iexists _; isplitr
      swap; · iexact H10
      ipureintro; exact View.read_writes_of_cover _ _ _ _ _ (fun _ => cover1_C_10 ..)
    · have hc1 : ¬cond1_1 (grid1.coords t) := fun h => h1 ((hcond1_1 t).mp h)
      rw [Dat.leavesExact_idle (dat1 V c) 9 t (idleAt1_9 t hc1) (noFlush1_9 t hc1), Dat.leavesExact_idle (dat1 V c) 10 t (idleAt1_10 t hc1) (noFlush1_10 t hc1)]
      rw [outsAt1_B V c t h0 h1]
      dsimp only [ptB1, at1, sout1_B_0, sout1_B_1]
      rw [PhiS1_castSucc V c t, PhiS1_pos V c _ _ h0, PhiS1_succ]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ _ _ _ _ (fun h => h0 ((hcond1_0 t).mp h)) hc1 (iblk1 V c 0 t) (iblk1 V c 1 t) (iblk1 V c 2 t) (iblk1 V c 3 t) (iblk1 V c 4 t) (iblk1 V c 5 t) (iblk1 V c 6 t) (iblk1 V c 7 t) (iblk1 V c 8 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (fun _ => scover1_B_0 ..)
            unfold owns; iexists _; isplitr
            swap; · iexact HS1
            ipureintro; exact View.read_writes_of_cover _ _ _ _ _ (fun _ => scover1_B_1 ..)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiS1_succ, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.R2Frame.lean ====
import proofs.«121860_j42219528520113_1_alg».proof.Proof.Gen.KernelIdeal.Launch
import proofs.«121860_j42219528520113_1_alg».proof.Proof.Gen.KernelIdeal.Skeleton
import proofs.«121860_j42219528520113_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x2048x64 := Rect.unit (s := S1x2048x64) ![0, 0, 0] S1x2048x64.size inb_S1x2048x64_S1x2048x64_0_0_0

abbrev r2_1 (i : grid2.Coords) : Rect S4x128 := Rect.unit (s := S4x128) (k2_off1 i) S1x128.size (k2_off1_inb i)

abbrev r2_2 : Rect S64x128 := Rect.unit (s := S64x128) ![0, 0] S64x128.size inb_S64x128_S64x128_0_0

abbrev r2_3 : Rect S1x128 := Rect.unit (s := S1x128) ![0, 0] S1x128.size inb_S1x128_S1x128_0_0

abbrev r2_7 : Rect S128x64 := Rect.unit (s := S128x64) ![0, 0] S128x64.size inb_S128x64_S128x64_0_0

abbrev r2_8 : Rect S1x64 := Rect.unit (s := S1x64) ![0, 0] S1x64.size inb_S1x64_S1x64_0_0

abbrev r2_13 : Rect S64x1024 := Rect.unit (s := S64x1024) ![0, 0] S64x1024.size inb_S64x1024_S64x1024_0_0

abbrev r2_14 : Rect S1x1024 := Rect.unit (s := S1x1024) ![0, 0] S1x1024.size inb_S1x1024_S1x1024_0_0

abbrev r2_15 : Rect S1x1024x64 := Rect.unit (s := S1x1024x64) ![0, 0, 0] S1x1024x64.size inb_S1x1024x64_S1x1024x64_0_0_0

def out2_16 (i : grid2.Coords) (x0 : Vec F S1x2048x64 .f32) (x1 : Vec F S4x128 .f32) (x2 : Vec F S64x128 .f32)
    (x3 x4 x5 x6 : Vec F S1x128 .f32) (x7 : Vec F S128x64 .f32) (x8 x9 x10 x11 x12 : Vec F S1x64 .f32)
    (x13 : Vec F S64x1024 .f32) (x14 : Vec F S1x1024 .f32) (x15 : Vec F S1x1024x64 .f32) : Vec F S1x2048x64 .f32 :=
  View.canon [⟨r2_0, k2_pay1 (k2_pay3
    (k2_pay2 (View.ld x0 r2_0) (View.ld x1 (r2_1 i)) (View.ld x2 r2_2) (View.ld x3 r2_3) (View.ld x4 r2_3)
      (View.ld x5 r2_3) (View.ld x6 r2_3) (View.ld x7 r2_7))
    (View.ld x8 r2_8) (View.ld x9 r2_8) (View.ld x10 r2_8) (View.ld x11 r2_8) (View.ld x12 r2_8)
    (View.ld x13 r2_13) (View.ld x14 r2_14) (View.ld x15 r2_15))⟩]

theorem cover2_16 (p0 : Vec F S1x2048x64 .f32) (y : S1x2048x64.Idx) :
    ∃ pc ∈ ([⟨r2_0, p0⟩] : List (View.Piece (Elt F) S1x2048x64 .f32)), y ∈ pc.1.set :=
  View.cover_of_tiled [⟨r2_0, p0⟩] S1x2048x64.size (by rfl) y

set_option maxHeartbeats 4000000 in
theorem sound_kernel2 (c : Dev nD) (E : Set ℕ) (i : grid2.Coords)
    (arg2 : Memref sig .tc .vmem S1x2048x64 .f32) (harg2 : arg2.IsWhole) (arg3 : Memref sig .tc .vmem S4x128 .f32) (harg3 : arg3.IsWhole)
    (arg4 : Memref sig .tc .vmem S64x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S1x128 .f32) (harg8 : arg8.IsWhole) (arg9 : Memref sig .tc .vmem S128x64 .f32) (harg9 : arg9.IsWhole)
    (arg10 : Memref sig .tc .vmem S1x64 .f32) (harg10 : arg10.IsWhole) (arg11 : Memref sig .tc .vmem S1x64 .f32) (harg11 : arg11.IsWhole)
    (arg12 : Memref sig .tc .vmem S1x64 .f32) (harg12 : arg12.IsWhole) (arg13 : Memref sig .tc .vmem S1x64 .f32) (harg13 : arg13.IsWhole)
    (arg14 : Memref sig .tc .vmem S1x64 .f32) (harg14 : arg14.IsWhole) (arg15 : Memref sig .tc .vmem S64x1024 .f32) (harg15 : arg15.IsWhole)
    (arg16 : Memref sig .tc .vmem S1x1024 .f32) (harg16 : arg16.IsWhole) (arg17 : Memref sig .tc .vmem S1x1024x64 .f32) (harg17 : arg17.IsWhole)
    (arg18 : Memref sig .tc .vmem S1x2048x64 .f32) (harg18 : arg18.IsWhole)
    (x0 : Vec F S1x2048x64 .f32) (x1 : Vec F S4x128 .f32) (x2 : Vec F S64x128 .f32)
    (x3 x4 x5 x6 : Vec F S1x128 .f32) (x7 : Vec F S128x64 .f32) (x8 x9 x10 x11 x12 : Vec F S1x64 .f32)
    (x13 : Vec F S64x1024 .f32) (x14 : Vec F S1x1024 .f32) (x15 : Vec F S1x1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare x9 ∗ owns (c : Thread nD τ) arg12 fullShare x10 ∗ owns (c : Thread nD τ) arg13 fullShare x11
        ∗ owns (c : Thread nD τ) arg14 fullShare x12 ∗ owns (c : Thread nD τ) arg15 fullShare x13 ∗ owns (c : Thread nD τ) arg16 fullShare x14
        ∗ owns (c : Thread nD τ) arg17 fullShare x15 ∗ (∃ d, owns (c : Thread nD τ) arg18 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare x12 ∗ owns (c : Thread nD τ) arg15 fullShare x13 ∗ owns (c : Thread nD τ) arg16 fullShare x14
            ∗ owns (c : Thread nD τ) arg17 fullShare x15
            ∗ owns (c : Thread nD τ) arg18 fullShare (out2_16 i x0 x1 x2 x3 x4 x5 x6 x7 x8 x9 x10 x11 x12 x13 x14 x15)) -∗ K ⟨⟩))
      ⊢ wp frame (wpE (defs₀ (F := F)) Variants.none c none) E
          (cc2_kernel i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18) K := by
  simp only [cc2_kernel_eq_skeleton]; unfold cc2_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover2_16 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => out2_16 (grid2.coords t) (iblk2 V c 0 t) (iblk2 V c 1 t) (iblk2 V c 2 t) (iblk2 V c 3 t) (iblk2 V c 4 t)
        (iblk2 V c 5 t) (iblk2 V c 6 t) (iblk2 V c 7 t) (iblk2 V c 8 t) (iblk2 V c 9 t) (iblk2 V c 10 t) (iblk2 V c 11 t)
        (iblk2 V c 12 t) (iblk2 V c 13 t) (iblk2 V c 14 t) (iblk2 V c 15 t)
    | ⟨_ + 17, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_16 (c : Dev nD) (t : Fin cfg2.N) : (dat2 V c).after 16 t =
    out2_16 (grid2.coords t) (iblk2 V c 0 t) (iblk2 V c 1 t) (iblk2 V c 2 t) (iblk2 V c 3 t) (iblk2 V c 4 t)
      (iblk2 V c 5 t) (iblk2 V c 6 t) (iblk2 V c 7 t) (iblk2 V c 8 t) (iblk2 V c 9 t) (iblk2 V c 10 t) (iblk2 V c 11 t)
      (iblk2 V c 12 t) (iblk2 V c 13 t) (iblk2 V c 14 t) (iblk2 V c 15 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

theorem before2_6 (c : Dev nD) (t : Fin cfg2.N) (d) : (dat2 V c).before 6 t d = iblk2 V c 6 t :=
  (dat2 V c).before_in_eq_fetched 6 rfl (fun _ => rfl) (fun _ _ _ => rfl) (fun _ => rfl) t d

theorem before2_7 (c : Dev nD) (t : Fin cfg2.N) (d) : (dat2 V c).before 7 t d = iblk2 V c 7 t :=
  (dat2 V c).before_in_eq_fetched 7 rfl (fun _ => rfl) (fun _ _ _ => rfl) (fun _ => rfl) t d

theorem before2_8 (c : Dev nD) (t : Fin cfg2.N) (d) : (dat2 V c).before 8 t d = iblk2 V c 8 t :=
  (dat2 V c).before_in_eq_fetched 8 rfl (fun _ => rfl) (fun _ _ _ => rfl) (fun _ => rfl) t d

theorem before2_9 (c : Dev nD) (t : Fin cfg2.N) (d) : (dat2 V c).before 9 t d = iblk2 V c 9 t :=
  (dat2 V c).before_in_eq_fetched 9 rfl (fun _ => rfl) (fun _ _ _ => rfl) (fun _ => rfl) t d

theorem before2_10 (c : Dev nD) (t : Fin cfg2.N) (d) : (dat2 V c).before 10 t d = iblk2 V c 10 t :=
  (dat2 V c).before_in_eq_fetched 10 rfl (fun _ => rfl) (fun _ _ _ => rfl) (fun _ => rfl) t d

theorem before2_11 (c : Dev nD) (t : Fin cfg2.N) (d) : (dat2 V c).before 11 t d = iblk2 V c 11 t :=
  (dat2 V c).before_in_eq_fetched 11 rfl (fun _ => rfl) (fun _ _ _ => rfl) (fun _ => rfl) t d

theorem before2_12 (c : Dev nD) (t : Fin cfg2.N) (d) : (dat2 V c).before 12 t d = iblk2 V c 12 t :=
  (dat2 V c).before_in_eq_fetched 12 rfl (fun _ => rfl) (fun _ _ _ => rfl) (fun _ => rfl) t d

theorem before2_13 (c : Dev nD) (t : Fin cfg2.N) (d) : (dat2 V c).before 13 t d = iblk2 V c 13 t :=
  (dat2 V c).before_in_eq_fetched 13 rfl (fun _ => rfl) (fun _ _ _ => rfl) (fun _ => rfl) t d

theorem before2_14 (c : Dev nD) (t : Fin cfg2.N) (d) : (dat2 V c).before 14 t d = iblk2 V c 14 t :=
  (dat2 V c).before_in_eq_fetched 14 rfl (fun _ => rfl) (fun _ _ _ => rfl) (fun _ => rfl) t d

theorem before2_15 (c : Dev nD) (t : Fin cfg2.N) (d) : (dat2 V c).before 15 t d = iblk2 V c 15 t :=
  (dat2 V c).before_in_eq_fetched 15 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9,
    before2_10, before2_11, before2_12, before2_13, before2_14, before2_15]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel2 c Set.univ (grid2.coords t) _ _ _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) (iblk2 V c 15 t) _)
  iframe H0 H1 H2 H3 H4 H5 H6 H7 H8 H9 H10 H11 H12 H13 H14 H15
  isplitl [H16]; · iexists _; iexact H16
  iintro ⟨H0, H1, H2, H3, H4, H5, H6, H7, H8, H9, H10, H11, H12, H13, H14, H15, H16⟩
  iframe HΦ Ho H0 H1 H2 H3 H4 H5 H6 H7 H8 H9 H10 H11 H12 H13 H14 H15 H16

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«121860_j42219528520113_1_alg».proof.Proof.KI.R0Frame
import proofs.«121860_j42219528520113_1_alg».proof.Proof.KI.R1Frame
import proofs.«121860_j42219528520113_1_alg».proof.Proof.KI.R2Frame
import proofs.«121860_j42219528520113_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N

theorem W3_arr (c : Dev nD) (w : Fin cfg1.W) :
    W3 m ρ c (Proc.devRef .tc (Pipeline.arrRef spec1 w)) = (dat1 (V2 m ρ) c).arrAt w cfg1.N :=
  Pipeline.withArrays_arr spec1 launch1.win.arr_inj c _ _ w

theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb

abbrev V3 : (c : Dev nD) → (b : Ref sig .tc) → Buf (Elt F) ((c : Thread nD τ).loc b) := fun c b => W3 m ρ c b

def W4 (c : Dev nD) : Valuation τ sig (Elt F) :=
  Pipeline.withArrays spec2 c (W3 m ρ c) fun w => (dat2 (V3 m ρ) c).arrAt w cfg2.N

theorem W4_arr (c : Dev nD) (w : Fin cfg2.W) :
    W4 m ρ c (Proc.devRef .tc (Pipeline.arrRef spec2 w)) = (dat2 (V3 m ρ) c).arrAt w cfg2.N :=
  Pipeline.withArrays_arr spec2 launch2.win.arr_inj c _ _ w

theorem W4_of_ne (c : Dev nD) (b : Ref sig .tc) (hb : ∀ w, Pipeline.arrRef spec2 w ≠ b) :
    W4 m ρ c (Proc.devRef .tc b) = W3 m ρ c (Proc.devRef .tc b) :=
  Pipeline.withArrays_of_ne spec2 c _ _ b hb

abbrev V4 : (c : Dev nD) → (b : Ref sig .tc) → Buf (Elt F) ((c : Thread nD τ).loc b) := fun c b => W4 m ρ c b

theorem V2_in (c : Dev nD) (w : Fin cfg0.W) (h : (cfg0.win w).isOut = false) :
    V2 m ρ c (Pipeline.arrRef spec0 w) = V1 m ρ c (Pipeline.arrRef spec0 w) :=
  (W2_arr m ρ c w).trans (((dat0 (V1 m ρ) c).arrAt_in w h _).trans (A_eq0 (V1 m ρ) c w))

theorem V3_in (c : Dev nD) (w : Fin cfg1.W) (h : (cfg1.win w).isOut = false) :
    V3 m ρ c (Pipeline.arrRef spec1 w) = V2 m ρ c (Pipeline.arrRef spec1 w) :=
  (W3_arr m ρ c w).trans (((dat1 (V2 m ρ) c).arrAt_in w h _).trans (A_eq1 (V2 m ρ) c w))

def hostW0 : List (Ref sig .tc) :=
  [main_v0, main_cst, main_v1, main_cst_0, main_v2, main_v3, main_v4, main_v5, main_v6, main_v7, main_v8, main_v9,
   main_v10, main_v11, main_v12, main_v13, main_v14, main_v15, main_v16, main_v17, main_v18, main_v19, main_v20]

theorem W1_of_notin (c : Dev nD) (b : Ref sig .tc) (hb : b ∉ hostW0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

theorem W4_result (c : Dev nD) : W4 m ρ c (Proc.devRef .tc main_v23) = (dat2 (V3 m ρ) c).arrAt 16 cfg2.N :=
  W4_arr m ρ c 16

-- Unless it is one of the region's output arrays, an array is the same before and after the region.
theorem V2_keep (c : Dev nD) (b : Ref sig .tc) (h : ∀ w, Pipeline.arrRef spec0 w = b → (cfg0.win w).isOut = false) :
    V2 m ρ c b = V1 m ρ c b := by
  by_cases hb : ∃ w, Pipeline.arrRef spec0 w = b
  · obtain ⟨w, rfl⟩ := hb
    exact V2_in m ρ c w (h w rfl)
  · exact W2_of_ne m ρ c b fun w e => hb ⟨w, e⟩

theorem V3_keep (c : Dev nD) (b : Ref sig .tc) (h1 : ∀ w, Pipeline.arrRef spec1 w = b → (cfg1.win w).isOut = false)
    (h0 : ∀ w, Pipeline.arrRef spec0 w = b → (cfg0.win w).isOut = false) : V3 m ρ c b = V1 m ρ c b := by
  refine Eq.trans ?_ (V2_keep m ρ c b h0)
  by_cases hb : ∃ w, Pipeline.arrRef spec1 w = b
  · obtain ⟨w, rfl⟩ := hb
    exact V3_in m ρ c w (h1 w rfl)
  · exact W3_of_ne m ρ c b fun w e => hb ⟨w, e⟩

theorem V2_main_v21_0 (c : Dev nD) : V2 m ρ c main_v21_0 = (dat0 (V1 m ρ) c).arrAt 3 cfg0.N := W2_arr m ρ c 3

theorem V2_main_v21_1 (c : Dev nD) : V2 m ρ c main_v21_1 = (dat0 (V1 m ρ) c).arrAt 4 cfg0.N := W2_arr m ρ c 4

theorem V3_main_v22_0 (c : Dev nD) : V3 m ρ c main_v22_0 = (dat1 (V2 m ρ) c).arrAt 9 cfg1.N := W3_arr m ρ c 9

theorem V3_main_v22_1 (c : Dev nD) : V3 m ρ c main_v22_1 = (dat1 (V2 m ρ) c).arrAt 10 cfg1.N := W3_arr m ρ c 10

theorem V3_main_v21_0 (c : Dev nD) : V3 m ρ c main_v21_0 = (dat0 (V1 m ρ) c).arrAt 3 cfg0.N :=
  (V3_in m ρ c 3 rfl).trans (W2_arr m ρ c 3)

theorem V3_main_v21_1 (c : Dev nD) : V3 m ρ c main_v21_1 = (dat0 (V1 m ρ) c).arrAt 4 cfg0.N :=
  (V3_in m ρ c 4 rfl).trans (W2_arr m ρ c 4)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

-- Two rearrangements of separating conjunctions used at every region's first and last point.
theorem in_shuffle {X Pf SR : sProp 𝕄} : iprop(X ∗ Pf ∗ SR) ⊢ iprop(SR ∗ X) := by
  iintro ⟨Hp, -, Hr⟩
  isplitl [Hr]; · iexact Hr
  iexact Hp

theorem out_shuffle {X SR : sProp 𝕄} : iprop(SR ∗ X) ⊢ iprop(X ∗ emp ∗ SR) := by
  iintro ⟨Hr, Hp⟩
  isplitl [Hp]; · iexact Hp
  isplitr; · iempintro
  iexact Hr

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed _ = 0 from owed0 (V1 m ρ) c _]
      icases HO with ⟨%W, HO⟩; iexists W; isplitr; · ipureintro; exact fun _ _ => Or.inl trivial
      iexact HO
    isplitl [Hp]; · iexact Hp
    iexact Hrest
  hin c := BIBase.Entails.trans in_shuffle (hin0 (V1 m ρ) c)
  hout c := by
    rw [Pipeline.ownSems0_none]
    exact BIBase.Entails.trans (hout0 (V1 m ρ) c) out_shuffle
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V1 m ρ) c w)
      (V1 m ρ c) (V2 m ρ c) ((pdats m ρ 0 c).arrAt · cfg0.N) (fun w => (W2_arr m ρ c w).symm)
      fun b hb => W2_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed _ = 0 from owed0 (V1 m ρ) c _]
    icases HO with ⟨%W, -, HO⟩; iexists W; iexact HO

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1 (V2 m ρ) c w) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed _ = 0 from owed1 (V2 m ρ) c _]
      icases HO with ⟨%W, HO⟩; iexists W; isplitr; · ipureintro; exact fun _ _ => Or.inl trivial
      iexact HO
    isplitl [Hp]; · iexact Hp
    iexact Hrest
  hin c := BIBase.Entails.trans in_shuffle (hin1 (V2 m ρ) c)
  hout c := by
    rw [Pipeline.ownSems0_none]
    exact BIBase.Entails.trans (hout1 (V2 m ρ) c) out_shuffle
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V2 m ρ) c w)
      (V2 m ρ c) (V3 m ρ c) ((pdats m ρ 1 c).arrAt · cfg1.N) (fun w => (W3_arr m ρ c w).symm)
      fun b hb => W3_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed _ = 0 from owed1 (V2 m ρ) c _]
    icases HO with ⟨%W, -, HO⟩; iexists W; iexact HO

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun w => A_eq2 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    exact in_shuffle
  hout c := by
    rw [Pipeline.ownSems0_none, show (pdats m ρ 2 c).Φ (Fin.last _) = Pipeline.ΦA spec2 c from rfl]
    exact out_shuffle
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (fun w => (W4_arr m ρ c w).symm)
      fun b hb => W4_of_ne m ρ c b fun w e => hb (Finset.mem_image.mpr ⟨w, Finset.mem_univ _, e⟩)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]

theorem main_run (c : Dev nD) : main (F := F) c = Pipeline.Seg.run (segs m ρ) := (main_chain c).trans (by chain_rfl)

theorem run_with {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_with m ρ fun _ h => h

def ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

-- An array that belongs to no region and is no result of the host operations is the same at every boundary.
theorem kept (s : MemSt nD τ sig (Elt F))
    (h : ∀ c : Dev nD, ∀ b ∈ Pipeline.ucRefs τ sig, s.mem (((c : Thread nD τ)).1, b) = W4 m ρ c b) (c : Dev nD) (b : Ref sig .tc)
    (hb : ¬ (Proc.devRef .tc b : DevRef τ sig).isScoped ∧ (∀ w, Pipeline.arrRef spec2 w ≠ b) ∧ (∀ w, Pipeline.arrRef spec1 w ≠ b)
      ∧ (∀ w, Pipeline.arrRef spec0 w ≠ b) ∧ b ∉ hostW0) :
    s.mem ((c.tc : Thread nD τ).loc b) = m ((c.tc : Thread nD τ).loc b) :=
  (h c _ (mem_uc b hb.1)).trans ((W4_of_ne m ρ c b hb.2.1).trans ((W3_of_ne m ρ c b hb.2.2.1).trans
    ((W2_of_ne m ρ c b hb.2.2.2.1).trans (W1_of_notin m ρ c b hb.2.2.2.2))))

theorem args_kept (s : MemSt nD τ sig (Elt F))
    (h : ∀ c : Dev nD, ∀ b ∈ Pipeline.ucRefs τ sig, s.mem (((c : Thread nD τ)).1, b) = W4 m ρ c b) (c : Dev nD) : ArgsKept m s c :=
  ⟨(h c _ (mem_uc main_arg0 (by decide))).trans (((W4_arr m ρ c 0).trans (((dat2 (V3 m ρ) c).arrAt_in 0 rfl _).trans (A_eq2 (V3 m ρ) c 0))).trans ((V3_in m ρ c 0 rfl).trans
    ((V2_in m ρ c 0 rfl).trans (W1_of_notin m ρ c main_arg0 (by decide))))),
   kept m ρ s h c main_arg1 (by decide), kept m ρ s h c main_arg2 (by decide), kept m ρ s h c main_arg3 (by decide),
   kept m ρ s h c main_arg4 (by decide), kept m ρ s h c main_arg5 (by decide), kept m ρ s h c main_arg6 (by decide),
   kept m ρ s h c main_arg7 (by decide), kept m ρ s h c main_arg8 (by decide), kept m ρ s h c main_arg9 (by decide),
   kept m ρ s h c main_arg10 (by decide), kept m ρ s h c main_arg11 (by decide)⟩

theorem frame : θ_run defs (onTc (τ := τ) (main (F := F))) ⟨m, fun _ => 0, ρ⟩ (fun r => ∀ c : Dev nD, ArgsKept m r.2 c) :=
  run_with m ρ fun s h c => args_kept m ρ s h c

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

abbrev cnt : EReal := Ideal.ofBits .f32 0x47800000#32

abbrev eps : EReal := Ideal.ofBits .f32 0x3727C5AC#32

abbrev npix : EReal := Ideal.ofBits .f32 0x44800000#32

abbrev invpix : EReal := Ideal.ofBits .f32 0x3A800000#32

def tb (t : Fin 32) : Fin 4 := ⟨t.val / 8, by have := t.isLt; omega⟩

def tn (t : Fin 32) (r : Fin 2048) : Fin 16384 := ⟨(t.val % 8) * 2048 + r.val, by have := t.isLt; have := r.isLt; omega⟩

def sumK (y : Fin 4 → Fin 16384 → EReal) : EReal := ∑ t : Fin 32, ∑ r : Fin 2048, y (tb t) (tn t r)

def sumR (y : Fin 4 → Fin 16384 → EReal) : EReal := 0 + ∑ b : Fin 4, ∑ n : Fin 16384, y b n

section Stats

variable {N : ℕ} (y : Fin 4 → Fin 16384 → Fin N → EReal)

def muK (o : Fin N) : EReal := Ideal.div (sumK fun b n => y b n o) cnt

def varK (o : Fin N) : EReal := Ideal.div (sumK fun b n => y b n o * y b n o) cnt - muK y o * muK y o

def muR (o : Fin N) : EReal := Ideal.div (sumR fun b n => y b n o) cnt

def varR (o : Fin N) : EReal := Ideal.div (sumR fun b n => (y b n o - muR y o) * (y b n o - muR y o)) cnt

end Stats

def bnrelu (y mu var g be : EReal) : EReal := max ((y - mu) * Ideal.rsqrt (var + eps) * g + be) 0

variable (X : Fin 4 → Fin 16384 → Fin 64 → EReal) (Im : Fin 4 → Fin 64 → Fin 1024 → EReal)
  (W1 : Fin 128 → Fin 128 → EReal) (b1 g1 be1 : Fin 128 → EReal)
  (W2 : Fin 64 → Fin 128 → EReal) (b2 g2 be2 : Fin 64 → EReal)
  (W3 : Fin 1024 → Fin 64 → EReal) (b3 : Fin 1024 → EReal)

def pool (b : Fin 4) (c : Fin 64) : EReal := Ideal.div (0 + ∑ k : Fin 1024, Im b c k) npix

def joined (b : Fin 4) (n : Fin 16384) (j : Fin 128) : EReal :=
  if h : j.val < 64 then pool Im b ⟨j.val, h⟩ else X b n ⟨j.val - 64, by have := j.isLt; omega⟩

def y1R (b : Fin 4) (n : Fin 16384) (o : Fin 128) : EReal := (∑ j : Fin 128, joined X Im b n j * W1 o j) + b1 o

def bias1 (b : Fin 4) (o : Fin 128) : EReal :=
  (∑ c : Fin 64, pool Im b c * W1 o ⟨c.val, by have := c.isLt; omega⟩) + b1 o

def y1K (b : Fin 4) (n : Fin 16384) (o : Fin 128) : EReal :=
  (∑ c : Fin 64, X b n c * W1 o ⟨64 + c.val, by have := c.isLt; omega⟩) + bias1 Im W1 b1 b o

def h1 (y1 : Fin 4 → Fin 16384 → Fin 128 → EReal) (mu1 var1 : Fin 128 → EReal) (b : Fin 4) (n : Fin 16384) (o : Fin 128) : EReal :=
  bnrelu (y1 b n o) (mu1 o) (var1 o) (g1 o) (be1 o)

def y2 (h : Fin 4 → Fin 16384 → Fin 128 → EReal) (b : Fin 4) (n : Fin 16384) (o : Fin 64) : EReal :=
  (∑ j : Fin 128, h b n j * W2 o j) + b2 o

def h2 (y : Fin 4 → Fin 16384 → Fin 64 → EReal) (mu2 var2 : Fin 64 → EReal) (b : Fin 4) (n : Fin 16384) (o : Fin 64) : EReal :=
  bnrelu (y b n o) (mu2 o) (var2 o) (g2 o) (be2 o)

def x3 (h : Fin 4 → Fin 16384 → Fin 64 → EReal) (b : Fin 4) (n : Fin 16384) (k : Fin 1024) : EReal :=
  (∑ j : Fin 64, h b n j * W3 k j) + b3 k

def mix (x : Fin 4 → Fin 16384 → Fin 1024 → EReal) (b : Fin 4) (n : Fin 16384) (c : Fin 64) : EReal :=
  ∑ k : Fin 1024, x b n k * Im b c k

def h1K := h1 g1 be1 (y1K X Im W1 b1) (muK (y1K X Im W1 b1)) (varK (y1K X Im W1 b1))

def y2K := y2 W2 b2 (h1K X Im W1 b1 g1 be1)

def h2K := h2 g2 be2 (y2K X Im W1 b1 g1 be1 W2 b2) (muK (y2K X Im W1 b1 g1 be1 W2 b2)) (varK (y2K X Im W1 b1 g1 be1 W2 b2))

def x3K := x3 W3 b3 (h2K X Im W1 b1 g1 be1 W2 b2 g2 be2)

def outK (b : Fin 4) (n : Fin 16384) (c : Fin 64) : EReal :=
  mix Im (x3K X Im W1 b1 g1 be1 W2 b2 g2 be2 W3 b3) b n c * invpix

def h1R := h1 g1 be1 (y1R X Im W1 b1) (muR (y1R X Im W1 b1)) (varR (y1R X Im W1 b1))

def y2R := y2 W2 b2 (h1R X Im W1 b1 g1 be1)

def h2R := h2 g2 be2 (y2R X Im W1 b1 g1 be1 W2 b2) (muR (y2R X Im W1 b1 g1 be1 W2 b2)) (varR (y2R X Im W1 b1 g1 be1 W2 b2))

def x3R := x3 W3 b3 (h2R X Im W1 b1 g1 be1 W2 b2 g2 be2)

def outR (b : Fin 4) (n : Fin 16384) (c : Fin 64) : EReal :=
  Ideal.div (mix Im (x3R X Im W1 b1 g1 be1 W2 b2 g2 be2 W3 b3) b n c) npix

def imOf (a : (⟨4, ![4, 64, 16, 64]⟩ : Shape).Idx → EReal) (b : Fin 4) (c : Fin 64) (k : Fin 1024) : EReal :=
  a (ValueIdx.ix4 b c ⟨k.val / 64, by have := k.isLt; omega⟩ ⟨k.val % 64, Nat.mod_lt _ (by norm_num)⟩)

end Cert.Spec

end
-- ==== Proof.ImFlat.lean ====
import Idealize.ShloMosaic.Lib.ValueIdx
import Idealize.ShloMosaic.Lib.Pipeline.Value
import proofs.«121860_j42219528520113_1_alg».proof.Proof.Spec

noncomputable section

namespace Cert.ImFlat

open Idealize.ShloMosaic Idealize.ShloMosaic.ValueIdx

theorem shapeCast_apply (a : (⟨4, ![4, 64, 16, 64]⟩ : Shape).Idx → EReal)
    (h : (⟨4, ![4, 64, 16, 64]⟩ : Shape).ShapeCasts (⟨3, ![4, 64, 1024]⟩ : Shape)) (b : Fin 4) (c : Fin 64) (k : Fin 1024) :
    shapeCast (⟨3, ![4, 64, 1024]⟩ : Shape) a h (ix3 b c k) = Cert.Spec.imOf a b c k := by
  unfold Cert.Spec.imOf
  refine Idealize.ShloMosaic.shapeCast_apply a h (ix3 b c k)
    (ix4 b c ⟨k.val / 64, by have := k.isLt; omega⟩ ⟨k.val % 64, Nat.mod_lt _ (by norm_num)⟩) ?_
  rw [Shape.rowMajor_val_four, Shape.rowMajor_val_three]
  show ((b.val * 64 + c.val) * 16 + k.val / 64) * 64 + k.val % 64 = (b.val * 64 + c.val) * 1024 + k.val
  omega

end Cert.ImFlat

end
-- ==== Proof.LibPlainDot.lean ====
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

private theorem coord_congr {s : Shape} (j : s.Idx) (p q : ℕ) (hp : p < s.rank) (hq : q < s.rank) (h : p = q) :
    (j ⟨p, hp⟩).val = (j ⟨q, hq⟩).val := by subst h; rfl

theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.KI.HostRead.lean ====
import proofs.«121860_j42219528520113_1_alg».proof.Proof.Gen.KernelIdeal.Launch
import proofs.«121860_j42219528520113_1_alg».proof.Proof.Spec
import proofs.«121860_j42219528520113_1_alg».proof.Proof.ImFlat
import proofs.«121860_j42219528520113_1_alg».proof.Proof.LibPlainDot
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

variable (U : Valuation τ sig (Elt Ideal))

abbrev a0 : S4x16384x64.Idx → EReal := U (Proc.devRef .tc main_arg0)

abbrev a1 : S4x64x16x64.Idx → EReal := U (Proc.devRef .tc main_arg1)

abbrev a2 : S128x128.Idx → EReal := U (Proc.devRef .tc main_arg2)

abbrev a3 : S128.Idx → EReal := U (Proc.devRef .tc main_arg3)

abbrev a4 : S128.Idx → EReal := U (Proc.devRef .tc main_arg4)

abbrev a5 : S128.Idx → EReal := U (Proc.devRef .tc main_arg5)

abbrev a6 : S64x128.Idx → EReal := U (Proc.devRef .tc main_arg6)

abbrev a7 : S64.Idx → EReal := U (Proc.devRef .tc main_arg7)

abbrev a8 : S64.Idx → EReal := U (Proc.devRef .tc main_arg8)

abbrev a9 : S64.Idx → EReal := U (Proc.devRef .tc main_arg9)

abbrev a10 : S1024x64.Idx → EReal := U (Proc.devRef .tc main_arg10)

abbrev a11 : S1024.Idx → EReal := U (Proc.devRef .tc main_arg11)

abbrev A : Valuation τ sig (Elt Ideal) := StableHlo.after (hostOps0 (F := Ideal)) U

abbrev t0 : S4x64x1024.Idx → EReal := shapeCast S4x64x1024 (a1 U) shapeCasts_S4x64x16x64_S4x64x1024

abbrev t1 : S4x64.Idx → EReal :=
  Host.reduceAdd (F := Ideal) (φ := .f32) (t0 U) (constant (F := Ideal) S_ .f32 0x00000000#32) reducesTo_S4x64x1024_S4x64_d2 h_S_

abbrev t2 : S4x64.Idx → EReal := broadcastInDim S4x64 ![] bcast_S_S4x64 (constant (F := Ideal) S_ .f32 0x44800000#32)

abbrev t3 : S4x64.Idx → EReal := Host.divf (F := Ideal) (φ := .f32) (t1 U) t2

abbrev t4 : S128x64.Idx → EReal := extractStridedSlice S128x64 ![0, 0] (a2 U) slices_S128x128_S128x64_0_0

abbrev t6 : S64x128.Idx → EReal := transpose S64x128 [1, 0] (t4 U) transposes_S128x64_S64x128_1_0

abbrev t7 : S4x128.Idx → EReal :=
  Host.dotGeneral (F := Ideal) (φ₁ := .f32) (φ₂ := .f32) dot_S4x64_S64x128_S4x128_1_0_0_1_n_n none (t3 U) (t6 U)

abbrev t8 : S1x128.Idx → EReal := broadcastInDim S1x128 ![1] bcast_S128_S1x128_1 (a3 U)

abbrev t9 : S4x128.Idx → EReal := broadcastInDim S4x128 ![0, 1] bcast_S1x128_S4x128_0_1 (t8 U)

theorem arg0_eq : (A U (Proc.devRef .tc main_arg0) : S4x16384x64.Idx → EReal) = a0 U := by
  after_results

theorem v11_at (c : Fin 64) (o : Fin 128) :
    (A U (Proc.devRef .tc main_v11) : S64x128.Idx → EReal) (ix2 c o)
      = a2 U (ix2 o ⟨64 + c.val, by have := c.isLt; omega⟩) := by
  after_results
  refine (transpose_ix2_apply _ _ c o).trans ?_
  exact slice2_axis1_apply 64 _ _ o c _ rfl

theorem v12_at (j : Fin 128) (o : Fin 64) :
    (A U (Proc.devRef .tc main_v12) : S128x64.Idx → EReal) (ix2 j o) = a6 U (ix2 o j) := by
  after_results
  exact transpose_ix2_apply _ _ j o

theorem v13_at (j : Fin 64) (k : Fin 1024) :
    (A U (Proc.devRef .tc main_v13) : S64x1024.Idx → EReal) (ix2 j k) = a10 U (ix2 k j) := by
  after_results
  exact transpose_ix2_apply _ _ j k

theorem v14_at (b : Fin 4) (k : Fin 1024) (c : Fin 64) :
    (A U (Proc.devRef .tc main_v14) : S4x1024x64.Idx → EReal) (ix3 b k c) = Cert.Spec.imOf (a1 U) b c k := by
  after_results
  refine (transpose_ix3_021_apply _ _ b k c).trans ?_
  exact Cert.ImFlat.shapeCast_apply _ _ b c k

theorem v15_at (u : Fin 1) (o : Fin 128) :
    (A U (Proc.devRef .tc main_v15) : S1x128.Idx → EReal) (ix2 u o) = a4 U (ix1 o) := by
  after_results
  exact shapeCast_a_1a_apply _ _ u o

theorem v16_at (u : Fin 1) (o : Fin 128) :
    (A U (Proc.devRef .tc main_v16) : S1x128.Idx → EReal) (ix2 u o) = a5 U (ix1 o) := by
  after_results
  exact shapeCast_a_1a_apply _ _ u o

theorem v17_at (u : Fin 1) (o : Fin 64) :
    (A U (Proc.devRef .tc main_v17) : S1x64.Idx → EReal) (ix2 u o) = a7 U (ix1 o) := by
  after_results
  exact shapeCast_a_1a_apply _ _ u o

theorem v18_at (u : Fin 1) (o : Fin 64) :
    (A U (Proc.devRef .tc main_v18) : S1x64.Idx → EReal) (ix2 u o) = a8 U (ix1 o) := by
  after_results
  exact shapeCast_a_1a_apply _ _ u o

theorem v19_at (u : Fin 1) (o : Fin 64) :
    (A U (Proc.devRef .tc main_v19) : S1x64.Idx → EReal) (ix2 u o) = a9 U (ix1 o) := by
  after_results
  exact shapeCast_a_1a_apply _ _ u o

theorem v20_at (u : Fin 1) (k : Fin 1024) :
    (A U (Proc.devRef .tc main_v20) : S1x1024.Idx → EReal) (ix2 u k) = a11 U (ix1 k) := by
  after_results
  exact shapeCast_a_1a_apply _ _ u k

theorem lift_ix (hr : S4x64x1024.Reduces [2] S4x64) (b : Fin 4) (c : Fin 64) (k : Fin 1024) :
    hr.lift (ix2 b c) k = ix3 b c k := by
  funext a
  apply Fin.ext
  match a with
  | ⟨0, _⟩ => rfl
  | ⟨1, _⟩ => rfl
  | ⟨2, _⟩ => rfl

-- The sum over the 1024 flattened pixels divided by 1024 is the pooled feature.
theorem t3_at (b : Fin 4) (c : Fin 64) : t3 U (ix2 b c) = Cert.Spec.pool (Cert.Spec.imOf (a1 U)) b c := by
  have hr : S4x64x1024.Reduces [2] S4x64 := by decide
  have e1 : t1 U (ix2 b c) = 0 + ∑ k : Fin 1024, Cert.Spec.imOf (a1 U) b c k := by
    show Ideal.hostReduceAdd reducesTo_S4x64x1024_S4x64_d2 (t0 U) (Ideal.ofBits .f32 0x00000000#32) (ix2 b c) = _
    rw [Ideal.hostReduceAdd_single _ hr, Ideal.ofBits_zero_f32]
    show 0 + ∑ k : Fin 1024, t0 U (hr.lift (ix2 b c) k) = _
    refine congrArg (0 + ·) (Finset.sum_congr rfl fun k _ => ?_)
    exact (congrArg (t0 U) (lift_ix hr b c k)).trans
      (Cert.ImFlat.shapeCast_apply (a1 U) shapeCasts_S4x64x16x64_S4x64x1024 b c k)
  have e2 : t2 (ix2 b c) = Cert.Spec.npix :=
    (broadcastInDim_scalar_apply bcast_S_S4x64 (constant (F := Ideal) S_ .f32 0x44800000#32) (ix2 b c)).trans rfl
  show Ideal.div (t1 U (ix2 b c)) (t2 (ix2 b c)) = _
  rw [e1, e2]
  rfl

-- The pooled feature against the image columns of the first weight matrix, plus its bias.
theorem v10_at (b : Fin 4) (o : Fin 128) :
    (A U (Proc.devRef .tc main_v10) : S4x128.Idx → EReal) (ix2 b o)
      = Cert.Spec.bias1 (Cert.Spec.imOf (a1 U)) (fun o j => a2 U (ix2 o j)) (fun o => a3 U (ix1 o)) b o := by
  after_results
  have e7 : t7 U (ix2 b o)
      = ∑ c : Fin 64, Cert.Spec.pool (Cert.Spec.imOf (a1 U)) b c * a2 U (ix2 o ⟨c.val, by have := c.isLt; omega⟩) := by
    refine (Cert.PlainDot.dotGeneral_apply dot_S4x64_S64x128_S4x128_1_0_0_1_n_n rfl rfl rfl rfl rfl rfl none .single
      (t3 U) (t6 U) b o).trans ?_
    refine Finset.sum_congr rfl fun c _ => ?_
    rw [t3_at]
    congr 1
    refine (transpose_ix2_apply (t4 U) transposes_S128x64_S64x128_1_0 c o).trans ?_
    exact slice2_axis1_apply 0 (a2 U) slices_S128x128_S128x64_0_0 o c _ (Nat.zero_add _).symm
  have e9 : t9 U (ix2 b o) = a3 U (ix1 o) := by
    refine (broadcastInDim_apply ![0, 1] bcast_S1x128_S4x128_0_1 (t8 U) (ix2 b o) (ix2 (0 : Fin 1) o) fun a => ?_).trans ?_
    · match a with
      | ⟨0, _⟩ => rfl
      | ⟨1, _⟩ => rfl
    · refine broadcastInDim_apply ![1] bcast_S128_S1x128_1 (a3 U) (ix2 (0 : Fin 1) o) (ix1 o) fun a => ?_
      match a with
      | ⟨0, _⟩ => rfl
  show t7 U (ix2 b o) + t9 U (ix2 b o) = _
  rw [e7, e9]
  rfl

end Cert.KernelIdeal.Hand

end
-- ==== Proof.KI.PiecesLib.lean ====
import Idealize.ShloMosaic.Lib.Pipeline.Value

namespace Cert.KernelIdeal.Hand

open Idealize.ShloMosaic

theorem zeros2 : (![0, 0] : Fin 2 → Nat) = fun _ => 0 := by funext a; fin_cases a <;> rfl

theorem zeros3 : (![0, 0, 0] : Fin 3 → Nat) = fun _ => 0 := by funext a; fin_cases a <;> rfl

variable {Val : EltTy → Type} [∀ e, Nonempty (Val e)] {sig : RefSig} {κ : Kind} {sp : Space} {S : Shape} {e : EltTy}

-- A load through rectangle r from a whole buffer holding X reads X at r's indices.
theorem readAt_unread (m : Memref sig κ sp S e) (hm : m.IsWhole) (X : S.Idx → Val e) (r : Rect S) :
    m.view.readAt Val r (hm.unread X) = View.ld X r := by
  rw [View.readAt_eq_ld, hm.read_unread]

variable {sz : Fin 2 → ℕ}

-- A store through the whole-shape rectangle at zero offsets, made last, leaves its payload as the contents.
theorem read_writes_zero2 (v : View sig κ sp ⟨2, sz⟩ e) (f : v.ty.Contents Val) (inb) (w : (⟨2, sz⟩ : Shape).Idx → Val e)
    (L : List (View.Piece Val ⟨2, sz⟩ e)) : v.read Val (v.writes Val f (⟨Rect.unit ![0, 0] sz inb, w⟩ :: L)) = w :=
  (View.read_writes_eq_canon v f _ fun y => ⟨_, List.mem_cons_self .., View.mem_set_unit_zero zeros2 inb y⟩).trans
    (View.canon_cons_unit_zero zeros2 inb w L)

-- A load through that rectangle of what one store through it left reads the payload.
theorem readCov_zero2 (v : View sig κ sp ⟨2, sz⟩ e) (inb) (w : (⟨2, sz⟩ : Shape).Idx → Val e) :
    v.readCov [(⟨Rect.unit ![0, 0] sz inb, w⟩ : View.Piece Val ⟨2, sz⟩ e)] (Rect.unit (s := ⟨2, sz⟩) ![0, 0] sz inb).toLoadRect = w :=
  View.readCov_unit_zero v zeros2 inb w

-- Through that rectangle a load reads the contents themselves (rank 2, rank 3).
theorem ld_zero2 (inb) (X : (⟨2, sz⟩ : Shape).Idx → Val e) : View.ld X (Rect.unit (s := ⟨2, sz⟩) ![0, 0] sz inb) = X :=
  View.ld_unit_zero zeros2 inb X

theorem ld_zero3 {sz : Fin 3 → ℕ} (inb) (X : (⟨3, sz⟩ : Shape).Idx → Val e) :
    View.ld X (Rect.unit (s := ⟨3, sz⟩) ![0, 0, 0] sz inb) = X :=
  View.ld_unit_zero zeros3 inb X

end Cert.KernelIdeal.Hand
-- ==== Proof.KI.R0Pieces.lean ====
import proofs.«121860_j42219528520113_1_alg».proof.Proof.KI.R0Frame
import proofs.«121860_j42219528520113_1_alg».proof.Proof.KI.PiecesLib

noncomputable section

namespace Cert.KernelIdeal.Hand

open Cert.KernelIdeal Cert.KernelIdeal.Gen Idealize.ShloMosaic Idealize.ShloMosaic.TcCoe Idealize.ShloMosaic.Tactic

variable {F : FTy → Type} [FloatOps F] (V : (c : Dev nD) → (b : Ref sig .tc) → Buf (Elt F) ((c : Thread nD τ).loc b))

abbrev rowAt (i : grid0.Coords) (x1 : Vec F S4x128 .f32) : Vec F S1x128 .f32 :=
  View.ld x1 (Rect.unit (s := S4x128) (k0_off1 i) S1x128.size (k0_off1_inb i))

abbrev x0 (c : Dev nD) (t : Fin cfg0.N) : Vec F S1x2048x64 .f32 := iblk0 V c 0 t

abbrev w0 (c : Dev nD) (t : Fin cfg0.N) : Vec F S64x128 .f32 := iblk0 V c 2 t

abbrev brow0 (c : Dev nD) (t : Fin cfg0.N) : Vec F S1x128 .f32 := rowAt (grid0.coords t) (iblk0 V c 1 t)

section
variable (c : Dev nD) (t : Fin cfg0.N)

-- What point t leaves, case by case: the block's column sums (of the values, of their squares) added to zero or to s0, s1.
theorem scrA0 (hp : cond0_0 (grid0.coords t)) (hq : ¬cond0_1 (grid0.coords t)) :
    (ptA0 V c t hp hq).2.2 = (k0_pay6 (x0 V c t) (brow0 V c t) (w0 V c t) (k0_pay3 (F := F)), k0_pay7 (x0 V c t) (brow0 V c t) (w0 V c t) (k0_pay4 (F := F))) := by
  unfold ptA0 sout0_A_0 sout0_A_1 kernelRun0_A
  dsimp only
  sl_unfold_words
  simp only [read_writes_zero2, readCov_zero2, readAt_unread, ld_zero2, ld_zero3]
  rfl

theorem scrB0 (hp : ¬cond0_0 (grid0.coords t)) (hq : ¬cond0_1 (grid0.coords t)) (s0 s1 : Vec F S1x128 .f32) :
    (ptB0 V c t hp hq s0 s1).2.2 = (k0_pay6 (x0 V c t) (brow0 V c t) (w0 V c t) s0, k0_pay7 (x0 V c t) (brow0 V c t) (w0 V c t) s1) := by
  unfold ptB0 sout0_B_0 sout0_B_1 kernelRun0_B
  dsimp only
  sl_unfold_words
  simp only [read_writes_zero2, readCov_zero2, readAt_unread, ld_zero2, ld_zero3]
  rfl

-- The last case also leaves the mean and the variance taken from those sums.
theorem allC0 (hp : ¬cond0_0 (grid0.coords t)) (hq : cond0_1 (grid0.coords t)) (s0 s1 : Vec F S1x128 .f32) :
    ptC0 V c t hp hq s0 s1 = (k0_pay1 (k0_pay6 (x0 V c t) (brow0 V c t) (w0 V c t) s0), k0_pay2 (k0_pay6 (x0 V c t) (brow0 V c t) (w0 V c t) s0) (k0_pay7 (x0 V c t) (brow0 V c t) (w0 V c t) s1), k0_pay6 (x0 V c t) (brow0 V c t) (w0 V c t) s0, k0_pay7 (x0 V c t) (brow0 V c t) (w0 V c t) s1) := by
  unfold ptC0 out0_C_3 out0_C_4 sout0_C_0 sout0_C_1 kernelRun0_C
  dsimp only
  sl_unfold_words
  simp only [read_writes_zero2, readCov_zero2, readAt_unread, ld_zero2, ld_zero3]
  rfl

end

theorem scr0_first (c : Dev nD) (h : 0 < cfg0.N) :
    (outsAt0 V c 0 h).2.2 = (k0_pay6 (x0 V c ⟨0, h⟩) (brow0 V c ⟨0, h⟩) (w0 V c ⟨0, h⟩) (k0_pay3 (F := F)), k0_pay7 (x0 V c ⟨0, h⟩) (brow0 V c ⟨0, h⟩) (w0 V c ⟨0, h⟩) (k0_pay4 (F := F))) :=
  scrA0 V c ⟨0, h⟩ _ _

theorem scr0_step (c : Dev nD) (n : ℕ) (h : n + 1 < cfg0.N) :
    (outsAt0 V c (n + 1) h).2.2 = (k0_pay6 (x0 V c ⟨n + 1, h⟩) (brow0 V c ⟨n + 1, h⟩) (w0 V c ⟨n + 1, h⟩) (outsAt0 V c n (Nat.lt_of_succ_lt h)).2.2.1, k0_pay7 (x0 V c ⟨n + 1, h⟩) (brow0 V c ⟨n + 1, h⟩) (w0 V c ⟨n + 1, h⟩) (outsAt0 V c n (Nat.lt_of_succ_lt h)).2.2.2) := by
  conv_lhs => unfold outsAt0
  split
  · exact congrArg (·.2.2) (allC0 V c ⟨n + 1, h⟩ _ _ _ _)
  · exact scrB0 V c ⟨n + 1, h⟩ _ _ _ _

theorem out0_last (c : Dev nD) (h : 31 < cfg0.N) :
    (outsAt0 V c 31 h).1 = k0_pay1 (outsAt0 V c 31 h).2.2.1 ∧ (outsAt0 V c 31 h).2.1 = k0_pay2 (outsAt0 V c 31 h).2.2.1 (outsAt0 V c 31 h).2.2.2 := by
  have e : outsAt0 V c 31 h = _ := (dif_pos rfl).trans (allC0 V c ⟨31, h⟩ _ _ _ _)
  rw [e]
  exact ⟨rfl, rfl⟩

end Cert.KernelIdeal.Hand

end
-- ==== Proof.KI.PayLib.lean ====
import proofs.«121860_j42219528520113_1_alg».proof.Proof.Spec
import Idealize.ShloMosaic.Lib.ValueLayout

namespace Cert.KernelIdeal.Hand

open Idealize.ShloMosaic Idealize.ShloMosaic.ValueIdx

abbrev vecS (b : ℕ) : Shape := ⟨1, ![b]⟩

abbrev rowS (b : ℕ) : Shape := ⟨2, ![1, b]⟩

abbrev matS (a b : ℕ) : Shape := ⟨2, ![a, b]⟩

variable {a b : ℕ}

-- A row copied down the rows has at (p, j) the row's entry j.
theorem row_spread (v : FVec Ideal (rowS b) .f32) (hc : (rowS b).ShapeCasts (rowS b)) (hb : (rowS b).Broadcasts (matS a b))
    (p : Fin a) (j : Fin b) : broadcastTo (matS a b) (shapeCast (rowS b) v hc) hb (ix2 p j) = v (ix2 (0 : Fin 1) j) := by
  rw [broadcastTo_1b_ab_apply, shapeCast_self]

-- Centre by the mean, scale by the inverse root of the variance, scale, shift, clamp at 0: entrywise `bnrelu`.
theorem bn_apply (y : FVec Ideal (matS a b) .f32) (mu var g be : FVec Ideal (rowS b) .f32)
    (hc : (rowS b).ShapeCasts (rowS b)) (hb : (rowS b).Broadcasts (matS a b)) (p : Fin a) (j : Fin b) :
    maximumf
        (addf
          (mulf
            (mulf (subf y (broadcastTo (matS a b) (shapeCast (rowS b) mu hc) hb))
              (broadcastTo (matS a b)
                (rsqrt (addf (shapeCast (rowS b) var hc) (broadcast (rowS b) (FloatOps.ofBits (F := Ideal) .f32 0x3727C5AC#32)))) hb))
            (broadcastTo (matS a b) (shapeCast (rowS b) g hc) hb))
          (broadcastTo (matS a b) (shapeCast (rowS b) be hc) hb))
        (broadcast (matS a b) (FloatOps.ofBits (F := Ideal) .f32 0x00000000#32)) (ix2 p j) =
      Cert.Spec.bnrelu (y (ix2 p j)) (mu (ix2 0 j)) (var (ix2 0 j)) (g (ix2 0 j)) (be (ix2 0 j)) := by
  rw [maximumf_apply, addf_apply, mulf_apply, mulf_apply, subf_apply, broadcast_apply, row_spread, row_spread, row_spread,
    broadcastTo_1b_ab_apply, shapeCast_self]
  exact congrArg (max _) Ideal.ofBits_zero_f32

-- A row plus the column sums of `y` is, at column o, the row's entry plus the sum of `y` down column o.
theorem acc_apply (y : FVec Ideal (matS a b) .f32) (s : FVec Ideal (rowS b) .f32) (h1 : (matS a b).Reduces [0] (vecS b))
    (h2 : (vecS b).ShapeCasts (rowS b)) (h3 : (rowS b).ShapeCasts (rowS b)) (o : Fin b) :
    shapeCast (rowS b) (addf s (shapeCast (rowS b) (multiReduction .add [0] (vecS b) y 0x00000000#32 h1 (.inl rfl) rfl) h2)) h3 (ix2 0 o)
      = s (ix2 0 o) + ∑ r : Fin a, y (ix2 r o) := by
  rw [shapeCast_self, addf_apply, shapeCast_a_1a_apply]
  refine congrArg _ ((Ideal.multiReduction_add_single y _ h1 _ _ (ix1 o)).trans ?_)
  exact Finset.sum_congr rfl fun r _ => congrArg y (funext fun c => Fin.ext (by
    match c with
    | ⟨0, _⟩ => rfl
    | ⟨1, _⟩ => rfl))

end Cert.KernelIdeal.Hand
-- ==== Proof.KI.Val0Pay.lean ====
import proofs.«121860_j42219528520113_1_alg».proof.Proof.KI.PayLib
import proofs.«121860_j42219528520113_1_alg».proof.Proof.Gen.KernelIdeal.Skeleton
import proofs.«121860_j42219528520113_1_alg».proof.Proof.LibPlainDot

namespace Cert.KernelIdeal.Hand

open Cert.KernelIdeal Cert.KernelIdeal.Gen Idealize.ShloMosaic Idealize.ShloMosaic.ValueIdx

theorem k0_pay5_apply (x : Vec Ideal S1x2048x64 .f32) (bias : Vec Ideal S1x128 .f32) (w : Vec Ideal S64x128 .f32)
    (r : Fin 2048) (o : Fin 128) :
    k0_pay5 x bias w (ix2 r o) = (∑ c : Fin 64, x (ix3 (0 : Fin 1) r c) * w (ix2 c o)) + bias (ix2 (0 : Fin 1) o) := by
  unfold k0_pay5
  rw [addf_apply, broadcastTo_1b_ab_apply, shapeCast_shapeCast]
  refine congrArg (· + bias (ix2 0 o)) ?_
  refine (Cert.PlainDot.matmul_zero_apply dot_S2048x64_S64x128_S2048x128_1_0_0_1_n_n rfl rfl rfl rfl rfl rfl none _ _ r o).trans ?_
  exact Finset.sum_congr rfl fun c _ => by rw [shapeCast_1ab_ab_apply, shapeCast_self]

theorem k0_pay1_apply (s : Vec Ideal S1x128 .f32) (o : Fin 128) :
    k0_pay1 s (ix2 (0 : Fin 1) o) = Ideal.div (s (ix2 (0 : Fin 1) o)) Cert.Spec.cnt := rfl

theorem k0_pay2_apply (s q : Vec Ideal S1x128 .f32) (o : Fin 128) :
    k0_pay2 s q (ix2 (0 : Fin 1) o)
      = Ideal.div (q (ix2 (0 : Fin 1) o)) Cert.Spec.cnt - k0_pay1 s (ix2 (0 : Fin 1) o) * k0_pay1 s (ix2 (0 : Fin 1) o) := rfl

theorem k0_pay6_apply (x : Vec Ideal S1x2048x64 .f32) (bias : Vec Ideal S1x128 .f32) (w : Vec Ideal S64x128 .f32)
    (s : Vec Ideal S1x128 .f32) (o : Fin 128) :
    k0_pay6 x bias w s (ix2 (0 : Fin 1) o) = s (ix2 (0 : Fin 1) o) + ∑ r : Fin 2048, k0_pay5 x bias w (ix2 r o) :=
  acc_apply _ s _ _ _ o

theorem k0_pay7_apply (x : Vec Ideal S1x2048x64 .f32) (bias : Vec Ideal S1x128 .f32) (w : Vec Ideal S64x128 .f32)
    (s : Vec Ideal S1x128 .f32) (o : Fin 128) :
    k0_pay7 x bias w s (ix2 (0 : Fin 1) o)
      = s (ix2 (0 : Fin 1) o) + ∑ r : Fin 2048, k0_pay5 x bias w (ix2 r o) * k0_pay5 x bias w (ix2 r o) :=
  acc_apply _ s _ _ _ o

theorem k0_pay3_apply (o : Fin 128) : k0_pay3 (F := Ideal) (ix2 (0 : Fin 1) o) = 0 := Ideal.ofBits_zero_f32

theorem k0_pay4_apply (o : Fin 128) : k0_pay4 (F := Ideal) (ix2 (0 : Fin 1) o) = 0 := Ideal.ofBits_zero_f32

end Cert.KernelIdeal.Hand
-- ==== Proof.KI.RangeSum.lean ====
import proofs.«121860_j42219528520113_1_alg».proof.Proof.Spec

namespace Cert.Spec

def pt (n : ℕ) : Fin 32 := ⟨n % 32, Nat.mod_lt n (by decide)⟩

-- A quantity that starts at A 0 and gains A (n + 1) at step n + 1 is a partial sum of A.
theorem eq_sum_range {N : ℕ} (S : (n : ℕ) → n < N → EReal) (A : ℕ → EReal) (h0 : ∀ h, S 0 h = A 0)
    (hs : ∀ n (h : n + 1 < N), S (n + 1) h = S n (Nat.lt_of_succ_lt h) + A (n + 1)) :
    ∀ n h, S n h = ∑ t ∈ Finset.range (n + 1), A t
  | 0, h => by rw [h0, Finset.sum_range_one]
  | n + 1, h => by rw [hs, eq_sum_range S A h0 hs n, Finset.sum_range_succ _ (n + 1)]

-- The sum over the 32 blocks of 2048 rows is a sum over a range of naturals.
theorem range_sumK (y : Fin 4 → Fin 16384 → EReal) :
    ∑ t ∈ Finset.range 32, ∑ r, y (tb (pt t)) (tn (pt t) r) = sumK y := by
  unfold sumK
  rw [Finset.sum_range]
  exact Finset.sum_congr rfl fun t _ => by rw [show pt t.val = t from Fin.ext (Nat.mod_eq_of_lt t.isLt)]

end Cert.Spec
-- ==== Proof.KI.Val0.lean ====
import proofs.«121860_j42219528520113_1_alg».proof.Proof.KI.R0Pieces
import proofs.«121860_j42219528520113_1_alg».proof.Proof.KI.Val0Pay
import proofs.«121860_j42219528520113_1_alg».proof.Proof.KI.RangeSum

noncomputable section

namespace Cert.KernelIdeal.Hand.R0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.Spec (tb tn pt eq_sum_range range_sumK)

section Value0

variable (V : (c : Dev nD) → (b : Ref sig .tc) → Buf (Elt Ideal) ((c : Thread nD τ).loc b))

abbrev Xv (c : Dev nD) : Vec Ideal S4x16384x64 .f32 := V c (Pipeline.arrRef spec0 0)

abbrev Bv (c : Dev nD) : Vec Ideal S4x128 .f32 := V c (Pipeline.arrRef spec0 1)

abbrev Wv (c : Dev nD) : Vec Ideal S64x128 .f32 := V c (Pipeline.arrRef spec0 2)

def y1v (c : Dev nD) : Fin 4 → Fin 16384 → Fin 128 → EReal :=
  fun b n o => (∑ c' : Fin 64, Xv V c (ix3 b n c') * Wv V c (ix2 c' o)) + Bv V c (ix2 b o)

def tLast : Fin cfg0.N := ⟨31, by have hN : cfg0.N = 32 := N_0; omega⟩

-- The block coordinates of the three inputs, and the offset of the bias row, at point t.
theorem idx_facts : ∀ t : Fin cfg0.N,
    (win0_0.index t (0 : Fin 3) = t.val % 32 / 8 ∧ win0_0.index t (1 : Fin 3) = t.val % 32 % 8
      ∧ win0_0.index t (2 : Fin 3) = 0)
    ∧ (win0_1.index t (0 : Fin 2) = 0 ∧ win0_1.index t (1 : Fin 2) = 0
      ∧ k0_off1 (grid0.coords t) (0 : Fin 2) = t.val % 32 / 8 ∧ k0_off1 (grid0.coords t) (1 : Fin 2) = 0)
    ∧ win0_2.index t (0 : Fin 2) = 0 ∧ win0_2.index t (1 : Fin 2) = 0 :=
  (by decide +kernel : ∀ t : Fin grid0.N, _)

theorem x0_apply (c : Dev nD) (t : Fin cfg0.N) (r : Fin 2048) (c' : Fin 64) :
    x0 V c t (ix3 (0 : Fin 1) r c') = Xv V c (ix3 (tb (pt t.val)) (tn (pt t.val) r) c') := by
  obtain ⟨⟨e0, e1, e2⟩, -⟩ := idx_facts t
  show V c _ _ = V c _ _
  refine congrArg _ (funext fun a => Fin.ext ?_)
  match a with
  | ⟨0, _⟩ => show win0_0.index t (0 : Fin 3) * 1 + 1 * 0 = t.val % 32 / 8; omega
  | ⟨1, _⟩ => show win0_0.index t (1 : Fin 3) * 2048 + 1 * r.val = t.val % 32 % 8 * 2048 + r.val; omega
  | ⟨2, _⟩ => show win0_0.index t (2 : Fin 3) * 64 + 1 * c'.val = c'.val; omega

theorem w0_apply (c : Dev nD) (t : Fin cfg0.N) (c' : Fin 64) (o : Fin 128) :
    w0 V c t (ix2 c' o) = Wv V c (ix2 c' o) := by
  obtain ⟨-, -, e0, e1⟩ := idx_facts t
  show V c _ _ = V c _ _
  refine congrArg _ (funext fun a => Fin.ext ?_)
  match a with
  | ⟨0, _⟩ => show win0_2.index t (0 : Fin 2) * 64 + 1 * c'.val = c'.val; omega
  | ⟨1, _⟩ => show win0_2.index t (1 : Fin 2) * 128 + 1 * o.val = o.val; omega

theorem brow_apply (c : Dev nD) (t : Fin cfg0.N) (o : Fin 128) :
    brow0 V c t (ix2 (0 : Fin 1) o) = Bv V c (ix2 (tb (pt t.val)) o) := by
  obtain ⟨-, ⟨e0, e1, e2, e3⟩, -⟩ := idx_facts t
  show V c _ _ = V c _ _
  refine congrArg _ (funext fun a => Fin.ext ?_)
  match a with
  | ⟨0, _⟩ =>
    show win0_1.index t (0 : Fin 2) * 4 + 1 * (k0_off1 (grid0.coords t) (0 : Fin 2) + 1 * 0) = t.val % 32 / 8; omega
  | ⟨1, _⟩ =>
    show win0_1.index t (1 : Fin 2) * 128 + 1 * (k0_off1 (grid0.coords t) (1 : Fin 2) + 1 * o.val) = o.val; omega

abbrev yp (c : Dev nD) (o : Fin 128) (t : ℕ) (r : Fin 2048) : EReal := y1v V c (tb (pt t)) (tn (pt t) r) o

-- Point t's block product is the whole-array product at the rows that block covers.
theorem pay5_at (c : Dev nD) (t : Fin cfg0.N) (r : Fin 2048) (o : Fin 128) :
    k0_pay5 (x0 V c t) (brow0 V c t) (w0 V c t) (ix2 r o) = yp V c o t.val r := by
  rw [k0_pay5_apply, brow_apply V c]
  refine congrArg (· + Bv V c (ix2 (tb (pt t.val)) o)) ?_
  exact Finset.sum_congr rfl fun c' _ => congrArg₂ (· * ·) (x0_apply V c t r c') (w0_apply V c t c' o)

theorem sum_at (c : Dev nD) (o : Fin 128) : ∀ n h, (outsAt0 V c n h).2.2.1 (ix2 (0 : Fin 1) o)
    = ∑ t ∈ Finset.range (n + 1), ∑ r, yp V c o t r :=
  eq_sum_range _ _
    (fun h => by
      rw [scr0_first V c h]
      show k0_pay6 _ _ _ _ _ = _
      rw [k0_pay6_apply, k0_pay3_apply, zero_add]
      exact Finset.sum_congr rfl fun r _ => pay5_at V c ⟨0, h⟩ r o)
    fun n h => by
      rw [scr0_step V c n h]
      show k0_pay6 _ _ _ _ _ = _
      rw [k0_pay6_apply]
      exact congrArg₂ (· + ·) rfl (Finset.sum_congr rfl fun r _ => pay5_at V c ⟨n + 1, h⟩ r o)

theorem sumsq_at (c : Dev nD) (o : Fin 128) : ∀ n h, (outsAt0 V c n h).2.2.2 (ix2 (0 : Fin 1) o)
    = ∑ t ∈ Finset.range (n + 1), ∑ r, yp V c o t r * yp V c o t r :=
  eq_sum_range _ _
    (fun h => by
      rw [scr0_first V c h]
      show k0_pay7 _ _ _ _ _ = _
      rw [k0_pay7_apply, k0_pay4_apply, zero_add]
      exact Finset.sum_congr rfl fun r _ => congrArg₂ (· * ·) (pay5_at V c ⟨0, h⟩ r o) (pay5_at V c ⟨0, h⟩ r o))
    fun n h => by
      rw [scr0_step V c n h]
      show k0_pay7 _ _ _ _ _ = _
      rw [k0_pay7_apply]
      exact congrArg₂ (· + ·) rfl (Finset.sum_congr rfl fun r _ =>
        congrArg₂ (· * ·) (pay5_at V c ⟨n + 1, h⟩ r o) (pay5_at V c ⟨n + 1, h⟩ r o))

theorem last3 {c : Dev nD} (dat : Dat τ (Elt Ideal) Unit ℕ (UR sig nD τ) ℕ cfg0 c) :
    (dat.arrAt 3 cfg0.N : Vec Ideal S1x128 .f32) = dat.after 3 tLast := by
  have hz : (fun a => win0_3.index tLast a * main_v21_0.ty.shape.size a) = fun _ => 0 :=
    funext fun a => by fin_cases a <;> decide +kernel
  refine dat.arrAt_eq_of_cover 3 _ (fun t hf => ?_) fun i => ⟨tLast, (flush0_3 tLast).mpr rfl, ?_⟩
  · have hN : cfg0.N = 32 := N_0
    obtain rfl : t = tLast := Fin.ext (show t.val = 31 by have := (flush0_3 t).mp hf; have := t.isLt; omega)
    exact (Memref.read_access_unit_zero (Elt Ideal) main_v21_0 hz (fun a => by rw [congrFun hz a]; simp) (dat.after 3 tLast)).symm
  · show i ∈ ((View.whole main_v21_0).slice (win0_3.rect tLast)).set
    rw [View.set_slice_whole]
    exact View.mem_set_unit_zero hz _ i

theorem last4 {c : Dev nD} (dat : Dat τ (Elt Ideal) Unit ℕ (UR sig nD τ) ℕ cfg0 c) :
    (dat.arrAt 4 cfg0.N : Vec Ideal S1x128 .f32) = dat.after 4 tLast := by
  have hz : (fun a => win0_4.index tLast a * main_v21_1.ty.shape.size a) = fun _ => 0 :=
    funext fun a => by fin_cases a <;> decide +kernel
  refine dat.arrAt_eq_of_cover 4 _ (fun t hf => ?_) fun i => ⟨tLast, (flush0_4 tLast).mpr rfl, ?_⟩
  · have hN : cfg0.N = 32 := N_0
    obtain rfl : t = tLast := Fin.ext (show t.val = 31 by have := (flush0_4 t).mp hf; have := t.isLt; omega)
    exact (Memref.read_access_unit_zero (Elt Ideal) main_v21_1 hz (fun a => by rw [congrFun hz a]; simp) (dat.after 4 tLast)).symm
  · show i ∈ ((View.whole main_v21_1).slice (win0_4.rect tLast)).set
    rw [View.set_slice_whole]
    exact View.mem_set_unit_zero hz _ i

theorem mu1_apply (c : Dev nD) (o : Fin 128) :
    ((dat0 (F := Ideal) V c).arrAt 3 cfg0.N : Vec Ideal S1x128 .f32) (ix2 (0 : Fin 1) o) = Cert.Spec.muK (y1v V c) o := by
  rw [last3 (dat0 V c), (after0_3 V c tLast).trans (out0_last V c tLast.isLt).1, k0_pay1_apply,
    (sum_at V c o 31 tLast.isLt).trans (range_sumK fun b n => y1v V c b n o)]
  rfl

theorem var1_apply (c : Dev nD) (o : Fin 128) :
    ((dat0 (F := Ideal) V c).arrAt 4 cfg0.N : Vec Ideal S1x128 .f32) (ix2 (0 : Fin 1) o) = Cert.Spec.varK (y1v V c) o := by
  rw [last4 (dat0 V c), (after0_4 V c tLast).trans (out0_last V c tLast.isLt).2, k0_pay2_apply, k0_pay1_apply,
    (sum_at V c o 31 tLast.isLt).trans (range_sumK fun b n => y1v V c b n o),
    (sumsq_at V c o 31 tLast.isLt).trans (range_sumK fun b n => y1v V c b n o * y1v V c b n o)]
  rfl

end Value0

end Cert.KernelIdeal.Hand.R0

end
-- ==== Proof.KI.Val1Blk.lean ====
import proofs.«121860_j42219528520113_1_alg».proof.Proof.KI.R1Runs
import proofs.«121860_j42219528520113_1_alg».proof.Proof.Spec
import Idealize.ShloMosaic.Lib.Pipeline.Value

noncomputable section

namespace Cert.KernelIdeal.Hand.R1

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Idealize.ShloMosaic.Pipeline (Dat)

variable {F : FTy → Type} [FloatOps F]

variable (V : (c : Dev nD) → (b : Ref sig .tc) → Buf (Elt F) ((c : Thread nD τ).loc b))

abbrev Xv (c : Dev nD) : Vec F S4x16384x64 .f32 := V c (Pipeline.arrRef spec1 0)

abbrev Bv (c : Dev nD) : Vec F S4x128 .f32 := V c (Pipeline.arrRef spec1 1)

abbrev Wv (c : Dev nD) : Vec F S64x128 .f32 := V c (Pipeline.arrRef spec1 2)

abbrev Mu1 (c : Dev nD) : Vec F S1x128 .f32 := V c (Pipeline.arrRef spec1 3)

abbrev Var1 (c : Dev nD) : Vec F S1x128 .f32 := V c (Pipeline.arrRef spec1 4)

abbrev G1 (c : Dev nD) : Vec F S1x128 .f32 := V c (Pipeline.arrRef spec1 5)

abbrev Be1 (c : Dev nD) : Vec F S1x128 .f32 := V c (Pipeline.arrRef spec1 6)

abbrev W2v (c : Dev nD) : Vec F S128x64 .f32 := V c (Pipeline.arrRef spec1 7)

abbrev B2v (c : Dev nD) : Vec F S1x64 .f32 := V c (Pipeline.arrRef spec1 8)

abbrev pt1 (t : Fin cfg1.N) : Fin 32 := Fin.cast N_1 t

theorem idx1_0 : ∀ t : Fin cfg1.N, win1_0.index t (0 : Fin 3) = t.val / 8 ∧ win1_0.index t (1 : Fin 3) = t.val % 8
    ∧ win1_0.index t (2 : Fin 3) = 0 :=
  (by decide +kernel : ∀ t : Fin grid1.N, _)

theorem xblk_apply (c : Dev nD) (t : Fin cfg1.N) (r : Fin 2048) (k : Fin 64) :
    (iblk1 V c 0 t : Vec F S1x2048x64 .f32) (ix3 0 r k)
      = Xv V c (ix3 (Cert.Spec.tb (pt1 t)) (Cert.Spec.tn (pt1 t) r) k) := by
  obtain ⟨e0, e1, e2⟩ := idx1_0 t
  show V c _ _ = V c _ _
  refine congrArg _ (funext fun a => Fin.ext ?_)
  match a with
  | ⟨0, _⟩ => show win1_0.index t (0 : Fin 3) * 1 + 1 * 0 = t.val / 8; omega
  | ⟨1, _⟩ => show win1_0.index t (1 : Fin 3) * 2048 + 1 * r.val = t.val % 8 * 2048 + r.val; omega
  | ⟨2, _⟩ => show win1_0.index t (2 : Fin 3) * 64 + 1 * k.val = k.val; omega

theorem wblk_eq (c : Dev nD) (t : Fin cfg1.N) : (iblk1 V c 2 t : Vec F S64x128 .f32) = Wv V c :=
  Memref.read_access_unit_zero (Elt F) main_v11 (funext fun a => by fin_cases a <;> rfl) _ _

theorem mu1blk_eq (c : Dev nD) (t : Fin cfg1.N) : (iblk1 V c 3 t : Vec F S1x128 .f32) = Mu1 V c :=
  Memref.read_access_unit_zero (Elt F) main_v21_0 (funext fun a => by fin_cases a <;> rfl) _ _

theorem var1blk_eq (c : Dev nD) (t : Fin cfg1.N) : (iblk1 V c 4 t : Vec F S1x128 .f32) = Var1 V c :=
  Memref.read_access_unit_zero (Elt F) main_v21_1 (funext fun a => by fin_cases a <;> rfl) _ _

theorem g1blk_eq (c : Dev nD) (t : Fin cfg1.N) : (iblk1 V c 5 t : Vec F S1x128 .f32) = G1 V c :=
  Memref.read_access_unit_zero (Elt F) main_v15 (funext fun a => by fin_cases a <;> rfl) _ _

theorem be1blk_eq (c : Dev nD) (t : Fin cfg1.N) : (iblk1 V c 6 t : Vec F S1x128 .f32) = Be1 V c :=
  Memref.read_access_unit_zero (Elt F) main_v16 (funext fun a => by fin_cases a <;> rfl) _ _

theorem w2blk_eq (c : Dev nD) (t : Fin cfg1.N) : (iblk1 V c 7 t : Vec F S128x64 .f32) = W2v V c :=
  Memref.read_access_unit_zero (Elt F) main_v12 (funext fun a => by fin_cases a <;> rfl) _ _

theorem b2blk_eq (c : Dev nD) (t : Fin cfg1.N) : (iblk1 V c 8 t : Vec F S1x64 .f32) = B2v V c :=
  Memref.read_access_unit_zero (Elt F) main_v17 (funext fun a => by fin_cases a <;> rfl) _ _

abbrev t31 : Fin cfg1.N := ⟨31, by rw [show cfg1.N = 32 from N_1]; decide⟩

theorem arr9_last {c : Dev nD} (dat : Dat τ (Elt F) Unit ℕ (UR sig nD τ) ℕ cfg1 c) :
    (dat.arrAt 9 cfg1.N : Vec F S1x64 .f32) = dat.after 9 t31 := by
  have hz : (fun a => win1_9.index t31 a * main_v22_0.ty.shape.size a) = fun _ => 0 :=
    funext fun a => by fin_cases a <;> decide
  refine dat.arrAt_eq_of_cover 9 _ (fun t hf => ?_) fun i => ⟨t31, (flush1_9 t31).mpr rfl, ?_⟩
  · have hN : cfg1.N = 32 := N_1
    obtain rfl : t = t31 := Fin.ext (show t.val = 31 by have := (flush1_9 t).mp hf; have := t.isLt; omega)
    exact (Memref.read_access_unit_zero (Elt F) main_v22_0 hz (fun a => by rw [congrFun hz a]; simp) (dat.after 9 t31)).symm
  · show i ∈ ((View.whole main_v22_0).slice (win1_9.rect t31)).set
    rw [View.set_slice_whole]
    exact View.mem_set_unit_zero hz _ i

theorem arr10_last {c : Dev nD} (dat : Dat τ (Elt F) Unit ℕ (UR sig nD τ) ℕ cfg1 c) :
    (dat.arrAt 10 cfg1.N : Vec F S1x64 .f32) = dat.after 10 t31 := by
  have hz : (fun a => win1_10.index t31 a * main_v22_1.ty.shape.size a) = fun _ => 0 :=
    funext fun a => by fin_cases a <;> decide
  refine dat.arrAt_eq_of_cover 10 _ (fun t hf => ?_) fun i => ⟨t31, (flush1_10 t31).mpr rfl, ?_⟩
  · have hN : cfg1.N = 32 := N_1
    obtain rfl : t = t31 := Fin.ext (show t.val = 31 by have := (flush1_10 t).mp hf; have := t.isLt; omega)
    exact (Memref.read_access_unit_zero (Elt F) main_v22_1 hz (fun a => by rw [congrFun hz a]; simp) (dat.after 10 t31)).symm
  · show i ∈ ((View.whole main_v22_1).slice (win1_10.rect t31)).set
    rw [View.set_slice_whole]
    exact View.mem_set_unit_zero hz _ i

end Cert.KernelIdeal.Hand.R1

end
-- ==== Proof.KI.Val1Pay.lean ====
import proofs.«121860_j42219528520113_1_alg».proof.Proof.KI.Val0Pay

namespace Cert.KernelIdeal.Hand

open Cert.KernelIdeal Cert.KernelIdeal.Gen Idealize.ShloMosaic Idealize.ShloMosaic.ValueIdx

theorem k1_pay8_apply (x : Vec Ideal S1x2048x64 .f32) (bias : Vec Ideal S1x128 .f32) (w : Vec Ideal S64x128 .f32)
    (mu var g be : Vec Ideal S1x128 .f32) (r : Fin 2048) (j : Fin 128) :
    k1_pay8 x bias w mu var g be (ix2 r j) =
      Cert.Spec.bnrelu ((∑ c : Fin 64, x (ix3 0 r c) * w (ix2 c j)) + bias (ix2 0 j)) (mu (ix2 0 j)) (var (ix2 0 j))
        (g (ix2 0 j)) (be (ix2 0 j)) := by
  unfold k1_pay8
  refine (bn_apply (k0_pay5 x bias w) mu var g be _ _ r j).trans ?_
  rw [k0_pay5_apply]

theorem k1_pay1_apply (h : FVec Ideal S2048x128 .f32) (w2 : Vec Ideal S128x64 .f32) (b2 : Vec Ideal S1x64 .f32)
    (r : Fin 2048) (o : Fin 64) :
    k1_pay1 h w2 b2 (ix2 r o) = (∑ j : Fin 128, h (ix2 r j) * w2 (ix2 j o)) + b2 (ix2 0 o) := by
  unfold k1_pay1
  rw [addf_apply, row_spread, shapeCast_self]
  exact congrArg (· + b2 (ix2 0 o))
    (Cert.PlainDot.matmul_zero_apply dot_S2048x128_S128x64_S2048x64_1_0_0_1_n_n rfl rfl rfl rfl rfl rfl none _ _ r o)

theorem k1_pay2_apply (h : FVec Ideal S2048x128 .f32) (w2 : Vec Ideal S128x64 .f32) (b2 s : Vec Ideal S1x64 .f32) (o : Fin 64) :
    k1_pay2 h w2 b2 s (ix2 0 o) = s (ix2 0 o) + ∑ r : Fin 2048, k1_pay1 h w2 b2 (ix2 r o) :=
  acc_apply _ s _ _ _ o

theorem k1_pay3_apply (h : FVec Ideal S2048x128 .f32) (w2 : Vec Ideal S128x64 .f32) (b2 q : Vec Ideal S1x64 .f32) (o : Fin 64) :
    k1_pay3 h w2 b2 q (ix2 0 o) = q (ix2 0 o) + ∑ r : Fin 2048, k1_pay1 h w2 b2 (ix2 r o) * k1_pay1 h w2 b2 (ix2 r o) :=
  acc_apply _ q _ _ _ o

theorem k1_pay6_apply (o : Fin 64) : (k1_pay6 (F := Ideal)) (ix2 0 o) = 0 := Ideal.ofBits_zero_f32

theorem k1_pay7_apply (o : Fin 64) : (k1_pay7 (F := Ideal)) (ix2 0 o) = 0 := Ideal.ofBits_zero_f32

theorem k1_pay4_apply (s : Vec Ideal S1x64 .f32) (o : Fin 64) : k1_pay4 s (ix2 0 o) = Ideal.div (s (ix2 0 o)) Cert.Spec.cnt := rfl

theorem k1_pay5_apply (s q : Vec Ideal S1x64 .f32) (o : Fin 64) :
    k1_pay5 s q (ix2 0 o) = Ideal.div (q (ix2 0 o)) Cert.Spec.cnt - k1_pay4 s (ix2 0 o) * k1_pay4 s (ix2 0 o) := rfl

end Cert.KernelIdeal.Hand
-- ==== Proof.KI.R1Pieces.lean ====
import proofs.«121860_j42219528520113_1_alg».proof.Proof.KI.R1Frame
import proofs.«121860_j42219528520113_1_alg».proof.Proof.KI.PiecesLib
import Idealize.ShloMosaic.Lib.ValueIdx

noncomputable section

namespace Cert.KernelIdeal.Hand

open Cert.KernelIdeal Cert.KernelIdeal.Gen Idealize.ShloMosaic Idealize.ShloMosaic.TcCoe Idealize.ShloMosaic.Tactic

variable {F : FTy → Type} [FloatOps F] (V : (c : Dev nD) → (b : Ref sig .tc) → Buf (Elt F) ((c : Thread nD τ).loc b))

abbrev rrow1 (i : grid1.Coords) : Rect S4x128 := Rect.unit (s := S4x128) (k1_off1 i) S1x128.size (k1_off1_inb i)

def brow1 (c : Dev nD) (t : Fin cfg1.N) : Vec F S1x128 .f32 :=
  View.ld (iblk1 V c 1 t) (rrow1 (grid1.coords t))

def y1blk (c : Dev nD) (t : Fin cfg1.N) : FVec F S2048x128 .f32 :=
  k1_pay8 (iblk1 V c 0 t) (brow1 V c t) (iblk1 V c 2 t) (iblk1 V c 3 t) (iblk1 V c 4 t) (iblk1 V c 5 t) (iblk1 V c 6 t)

section
variable (c : Dev nD) (t : Fin cfg1.N)

-- What point t leaves, case by case: the block's column sums (of the values, of their squares) added to zero or to s0, s1.
theorem scrA1 (hp : cond1_0 (grid1.coords t)) (hq : ¬cond1_1 (grid1.coords t)) :
    (ptA1 V c t hp hq).2.2 = (k1_pay2 (y1blk V c t) (iblk1 V c 7 t) (iblk1 V c 8 t) (k1_pay6 (F := F)), k1_pay3 (y1blk V c t) (iblk1 V c 7 t) (iblk1 V c 8 t) (k1_pay7 (F := F))) := by
  unfold ptA1 sout1_A_0 sout1_A_1 kernelRun1_A
  dsimp only
  sl_unfold_words
  simp only [read_writes_zero2, readCov_zero2, readAt_unread, ld_zero2, ld_zero3]
  rfl

theorem scrB1 (hp : ¬cond1_0 (grid1.coords t)) (hq : ¬cond1_1 (grid1.coords t)) (s0 s1 : Vec F S1x64 .f32) :
    (ptB1 V c t hp hq s0 s1).2.2 = (k1_pay2 (y1blk V c t) (iblk1 V c 7 t) (iblk1 V c 8 t) s0, k1_pay3 (y1blk V c t) (iblk1 V c 7 t) (iblk1 V c 8 t) s1) := by
  unfold ptB1 sout1_B_0 sout1_B_1 kernelRun1_B
  dsimp only
  sl_unfold_words
  simp only [read_writes_zero2, readCov_zero2, readAt_unread, ld_zero2, ld_zero3]
  rfl

-- The last case also leaves the mean and the variance taken from those sums.
theorem allC1 (hp : ¬cond1_0 (grid1.coords t)) (hq : cond1_1 (grid1.coords t)) (s0 s1 : Vec F S1x64 .f32) :
    ptC1 V c t hp hq s0 s1 = (k1_pay4 (k1_pay2 (y1blk V c t) (iblk1 V c 7 t) (iblk1 V c 8 t) s0), k1_pay5 (k1_pay2 (y1blk V c t) (iblk1 V c 7 t) (iblk1 V c 8 t) s0) (k1_pay3 (y1blk V c t) (iblk1 V c 7 t) (iblk1 V c 8 t) s1), k1_pay2 (y1blk V c t) (iblk1 V c 7 t) (iblk1 V c 8 t) s0, k1_pay3 (y1blk V c t) (iblk1 V c 7 t) (iblk1 V c 8 t) s1) := by
  unfold ptC1 out1_C_9 out1_C_10 sout1_C_0 sout1_C_1 kernelRun1_C
  dsimp only
  sl_unfold_words
  simp only [read_writes_zero2, readCov_zero2, readAt_unread, ld_zero2, ld_zero3]
  rfl

end

theorem scr1_first (c : Dev nD) (h : 0 < cfg1.N) :
    (outsAt1 V c 0 h).2.2 = (k1_pay2 (y1blk V c ⟨0, h⟩) (iblk1 V c 7 ⟨0, h⟩) (iblk1 V c 8 ⟨0, h⟩) (k1_pay6 (F := F)), k1_pay3 (y1blk V c ⟨0, h⟩) (iblk1 V c 7 ⟨0, h⟩) (iblk1 V c 8 ⟨0, h⟩) (k1_pay7 (F := F))) :=
  scrA1 V c ⟨0, h⟩ _ _

theorem scr1_step (c : Dev nD) (n : ℕ) (h : n + 1 < cfg1.N) :
    (outsAt1 V c (n + 1) h).2.2 = (k1_pay2 (y1blk V c ⟨n + 1, h⟩) (iblk1 V c 7 ⟨n + 1, h⟩) (iblk1 V c 8 ⟨n + 1, h⟩) (outsAt1 V c n (Nat.lt_of_succ_lt h)).2.2.1, k1_pay3 (y1blk V c ⟨n + 1, h⟩) (iblk1 V c 7 ⟨n + 1, h⟩) (iblk1 V c 8 ⟨n + 1, h⟩) (outsAt1 V c n (Nat.lt_of_succ_lt h)).2.2.2) := by
  conv_lhs => unfold outsAt1
  split
  · exact congrArg (·.2.2) (allC1 V c ⟨n + 1, h⟩ _ _ _ _)
  · exact scrB1 V c ⟨n + 1, h⟩ _ _ _ _

theorem out1_last (c : Dev nD) (h : 31 < cfg1.N) :
    (outsAt1 V c 31 h).1 = k1_pay4 (outsAt1 V c 31 h).2.2.1 ∧ (outsAt1 V c 31 h).2.1 = k1_pay5 (outsAt1 V c 31 h).2.2.1 (outsAt1 V c 31 h).2.2.2 := by
  have e : outsAt1 V c 31 h = _ := (dif_pos rfl).trans (allC1 V c ⟨31, h⟩ _ _ _ _)
  rw [e]
  exact ⟨rfl, rfl⟩

theorem coord0_1 : ∀ t : Fin cfg1.N, ((grid1.coords t) 0).val = t.val / 8 :=
  (by decide +kernel : ∀ t : Fin grid1.N, ((grid1.coords t) 0).val = t.val / 8)

theorem index1_1 : ∀ t : Fin cfg1.N, win1_1.index t 0 = 0 ∧ win1_1.index t 1 = 0 :=
  (by decide +kernel : ∀ t : Fin grid1.N, win1_1.index t 0 = 0 ∧ win1_1.index t 1 = 0)

theorem brow1_apply (c : Dev nD) (t : Fin cfg1.N) (o : Fin 128) :
    brow1 V c t (ValueIdx.ix2 0 o) = (show Vec F S4x128 .f32 from V c (Pipeline.arrRef spec1 1)) (ValueIdx.ix2 ⟨t.val / 8, by have := t.isLt; have hN : cfg1.N = 32 := N_1; omega⟩ o) := by
  have hi := index1_1 t
  have hc := coord0_1 t
  unfold brow1 iblk1
  show ((cfg1.win 1).blk t).view.read (Elt F) (V c (Pipeline.arrRef spec1 1)) _ = _
  rw [View.read_apply]
  show V c main_v10 _ = V c main_v10 _
  congr 1
  funext a
  apply Fin.ext
  match a with
  | ⟨0, _⟩ =>
    show win1_1.index t 0 * 4 + 1 * (k1_off1 (grid1.coords t) 0 + 1 * 0) = t.val / 8
    rw [hi.1, k1_off1_eq]
    show 0 * 4 + 1 * ((grid1.coords t 0).val + 1 * 0) = t.val / 8
    rw [hc]; omega
  | ⟨1, _⟩ =>
    show win1_1.index t 1 * 128 + 1 * (k1_off1 (grid1.coords t) 1 + 1 * o.val) = o.val
    rw [hi.2, k1_off1_eq]
    show 0 * 128 + 1 * (0 + 1 * o.val) = o.val
    omega

end Cert.KernelIdeal.Hand

end
-- ==== Proof.KI.Val1Pt.lean ====
import proofs.«121860_j42219528520113_1_alg».proof.Proof.KI.Val1Blk
import proofs.«121860_j42219528520113_1_alg».proof.Proof.KI.Val1Pay
import proofs.«121860_j42219528520113_1_alg».proof.Proof.KI.R1Pieces
import proofs.«121860_j42219528520113_1_alg».proof.Proof.KI.RangeSum

noncomputable section

namespace Cert.KernelIdeal.Hand.R1

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Cert.Spec (tb tn pt)

variable (V : (c : Dev nD) → (b : Ref sig .tc) → Buf (Elt Ideal) ((c : Thread nD τ).loc b))

def y1v (c : Dev nD) (b : Fin 4) (n : Fin 16384) (j : Fin 128) : EReal :=
  (∑ c' : Fin 64, Xv V c (ix3 b n c') * Wv V c (ix2 c' j)) + Bv V c (ix2 b j)

def h1v (c : Dev nD) : Fin 4 → Fin 16384 → Fin 128 → EReal :=
  Cert.Spec.h1 (fun j => G1 V c (ix2 0 j)) (fun j => Be1 V c (ix2 0 j)) (y1v V c) (fun j => Mu1 V c (ix2 0 j))
    (fun j => Var1 V c (ix2 0 j))

def y2v (c : Dev nD) (b : Fin 4) (n : Fin 16384) (o : Fin 64) : EReal :=
  (∑ j : Fin 128, h1v V c b n j * W2v V c (ix2 j o)) + B2v V c (ix2 0 o)

-- Point t's block of the first layer is the whole-array one at the rows that block covers.
theorem blk_h1 (c : Dev nD) (t : Fin cfg1.N) (r : Fin 2048) (j : Fin 128) :
    y1blk V c t (ix2 r j) = h1v V c (tb (pt1 t)) (tn (pt1 t) r) j := by
  unfold y1blk
  rw [wblk_eq V c t, mu1blk_eq V c t, var1blk_eq V c t, g1blk_eq V c t, be1blk_eq V c t, k1_pay8_apply]
  refine congrArg (Cert.Spec.bnrelu · _ _ _ _) (congrArg₂ (· + ·) (Finset.sum_congr rfl fun c' _ => ?_) (brow1_apply V c t j))
  exact congrArg (· * _) (xblk_apply V c t r c')

theorem blk_y2 (c : Dev nD) (t : Fin cfg1.N) (r : Fin 2048) (o : Fin 64) :
    k1_pay1 (y1blk V c t) (iblk1 V c 7 t) (iblk1 V c 8 t) (ix2 r o) = y2v V c (tb (pt t.val)) (tn (pt t.val) r) o := by
  rw [show pt t.val = pt1 t from Fin.ext (Nat.mod_eq_of_lt (pt1 t).isLt)]
  refine (k1_pay1_apply _ _ _ r o).trans ?_
  unfold y2v
  refine congrArg₂ (· + ·) (Finset.sum_congr rfl fun j _ => ?_) (congrFun (b2blk_eq V c t) (ix2 0 o))
  exact congrArg₂ (· * ·) (blk_h1 V c t r j) (congrFun (w2blk_eq V c t) (ix2 j o))

end Cert.KernelIdeal.Hand.R1

end
-- ==== Proof.KI.Val1.lean ====
import proofs.«121860_j42219528520113_1_alg».proof.Proof.KI.Val1Pt

noncomputable section

namespace Cert.KernelIdeal.Hand.R1

open Cert.KernelIdeal Cert.KernelIdeal.Gen Cert.KernelIdeal.Hand
open Idealize.ShloMosaic Idealize.ShloMosaic.TcCoe Idealize.ShloMosaic.ValueIdx
open Idealize.SL Idealize.SL.RA Idealize.SL.Sem
open Cert.Spec (tb tn pt eq_sum_range range_sumK)

variable (V : (c : Dev nD) → (b : Ref sig .tc) → Buf (Elt Ideal) ((c : Thread nD τ).loc b))

theorem sum_at (c : Dev nD) (o : Fin 64) : ∀ n h, (outsAt1 V c n h).2.2.1 (ix2 0 o)
    = ∑ t ∈ Finset.range (n + 1), ∑ r, y2v V c (tb (pt t)) (tn (pt t) r) o :=
  eq_sum_range _ _
    (fun h => by
      rw [scr1_first V c h]
      show k1_pay2 _ _ _ _ _ = _
      rw [k1_pay2_apply, k1_pay6_apply, zero_add]
      exact Finset.sum_congr rfl fun r _ => blk_y2 V c ⟨0, h⟩ r o)
    fun n h => by
      rw [scr1_step V c n h]
      show k1_pay2 _ _ _ _ _ = _
      rw [k1_pay2_apply]
      exact congrArg₂ (· + ·) rfl (Finset.sum_congr rfl fun r _ => blk_y2 V c ⟨n + 1, h⟩ r o)

theorem sumsq_at (c : Dev nD) (o : Fin 64) : ∀ n h, (outsAt1 V c n h).2.2.2 (ix2 0 o)
    = ∑ t ∈ Finset.range (n + 1), ∑ r, y2v V c (tb (pt t)) (tn (pt t) r) o * y2v V c (tb (pt t)) (tn (pt t) r) o :=
  eq_sum_range _ _
    (fun h => by
      rw [scr1_first V c h]
      show k1_pay3 _ _ _ _ _ = _
      rw [k1_pay3_apply, k1_pay7_apply, zero_add]
      exact Finset.sum_congr rfl fun r _ => congrArg₂ (· * ·) (blk_y2 V c ⟨0, h⟩ r o) (blk_y2 V c ⟨0, h⟩ r o))
    fun n h => by
      rw [scr1_step V c n h]
      show k1_pay3 _ _ _ _ _ = _
      rw [k1_pay3_apply]
      exact congrArg₂ (· + ·) rfl (Finset.sum_congr rfl fun r _ =>
        congrArg₂ (· * ·) (blk_y2 V c ⟨n + 1, h⟩ r o) (blk_y2 V c ⟨n + 1, h⟩ r o))

theorem mu2_apply (c : Dev nD) (o : Fin 64) :
    ((dat1 (F := Ideal) V c).arrAt 9 cfg1.N : Vec Ideal S1x64 .f32) (ix2 0 o) = Cert.Spec.muK (y2v V c) o := by
  rw [arr9_last (dat1 V c), (after1_9 V c t31).trans (out1_last V c t31.isLt).1, k1_pay4_apply,
    (sum_at V c o 31 t31.isLt).trans (range_sumK fun b n => y2v V c b n o)]
  rfl

theorem var2_apply (c : Dev nD) (o : Fin 64) :
    ((dat1 (F := Ideal) V c).arrAt 10 cfg1.N : Vec Ideal S1x64 .f32) (ix2 0 o) = Cert.Spec.varK (y2v V c) o := by
  rw [arr10_last (dat1 V c), (after1_10 V c t31).trans (out1_last V c t31.isLt).2, k1_pay5_apply, k1_pay4_apply,
    (sum_at V c o 31 t31.isLt).trans (range_sumK fun b n => y2v V c b n o),
    (sumsq_at V c o 31 t31.isLt).trans (range_sumK fun b n => y2v V c b n o * y2v V c b n o)]
  rfl

end Cert.KernelIdeal.Hand.R1

end
-- ==== Proof.KI.R2Pieces.lean ====
import proofs.«121860_j42219528520113_1_alg».proof.Proof.KI.R2Frame
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

variable {F : FTy → Type} [FloatOps F]

theorem zeros3 : (![0, 0, 0] : Fin 3 → Nat) = fun _ => 0 := funext fun a => by fin_cases a <;> rfl

theorem zeros2 : (![0, 0] : Fin 2 → Nat) = fun _ => 0 := funext fun a => by fin_cases a <;> rfl

def brow2 (i : grid2.Coords) (x1 : Vec F S4x128 .f32) : Vec F S1x128 .f32 := View.ld x1 (r2_1 i)

theorem out2_16_eq (i : grid2.Coords) (x0 : Vec F S1x2048x64 .f32) (x1 : Vec F S4x128 .f32) (x2 : Vec F S64x128 .f32)
    (x3 x4 x5 x6 : Vec F S1x128 .f32) (x7 : Vec F S128x64 .f32) (x8 x9 x10 x11 x12 : Vec F S1x64 .f32)
    (x13 : Vec F S64x1024 .f32) (x14 : Vec F S1x1024 .f32) (x15 : Vec F S1x1024x64 .f32) :
    out2_16 i x0 x1 x2 x3 x4 x5 x6 x7 x8 x9 x10 x11 x12 x13 x14 x15
      = k2_pay1 (k2_pay3 (k2_pay2 x0 (brow2 i x1) x2 x3 x4 x5 x6 x7) x8 x9 x10 x11 x12 x13 x14 x15) := by
  unfold out2_16 brow2
  rw [View.canon_unit_zero zeros3]
  simp only [View.ld_unit_zero (S := S1x2048x64) zeros3, View.ld_unit_zero (S := S64x128) zeros2,
    View.ld_unit_zero (S := S1x128) zeros2, View.ld_unit_zero (S := S128x64) zeros2, View.ld_unit_zero (S := S1x64) zeros2,
    View.ld_unit_zero (S := S64x1024) zeros2, View.ld_unit_zero (S := S1x1024) zeros2,
    View.ld_unit_zero (S := S1x1024x64) zeros3]

theorem brow2_apply (i : grid2.Coords) (x1 : Vec F S4x128 .f32) (o : Fin 128) :
    brow2 i x1 (ix2 (0 : Fin 1) o) = x1 (ix2 (i 0 : Fin 4) o) := by
  unfold brow2
  show x1 ((r2_1 i).idx (ix2 (0 : Fin 1) o)) = x1 (ix2 (i 0 : Fin 4) o)
  refine congrArg x1 (funext fun a => Fin.ext ?_)
  match a with
  | ⟨0, _⟩ =>
    show k2_off1 i (0 : Fin 2) + 1 * (0 : Nat) = (i 0).val
    rw [k2_off1_eq]; rfl
  | ⟨1, _⟩ =>
    show k2_off1 i (1 : Fin 2) + 1 * o.val = o.val
    rw [k2_off1_eq]; show 0 + 1 * o.val = o.val; omega

end Cert.KernelIdeal.Hand

end
-- ==== Proof.KI.Val2Pay.lean ====
import proofs.«121860_j42219528520113_1_alg».proof.Proof.KI.Val1Pay

namespace Cert.KernelIdeal.Hand

open Cert.KernelIdeal Cert.KernelIdeal.Gen Idealize.ShloMosaic Idealize.ShloMosaic.ValueIdx

theorem k2_pay1_apply (v71 : FVec Ideal S2048x64 .f32) (r : Fin 2048) (q : Fin 64) :
    k2_pay1 v71 (ix3 (0 : Fin 1) r q) = v71 (ix2 r q) :=
  shapeCast_ab_1ab_apply v71 _ 0 r q

theorem k2_pay2_apply (x : Vec Ideal S1x2048x64 .f32) (bias : Vec Ideal S1x128 .f32) (w : Vec Ideal S64x128 .f32)
    (mu1 var1 g1 be1 : Vec Ideal S1x128 .f32) (w2 : Vec Ideal S128x64 .f32) (r : Fin 2048) (o : Fin 64) :
    k2_pay2 x bias w mu1 var1 g1 be1 w2 (ix2 r o) =
      ∑ j : Fin 128, Cert.Spec.bnrelu ((∑ c : Fin 64, x (ix3 0 r c) * w (ix2 c j)) + bias (ix2 0 j))
        (mu1 (ix2 0 j)) (var1 (ix2 0 j)) (g1 (ix2 0 j)) (be1 (ix2 0 j)) * w2 (ix2 j o) := by
  unfold k2_pay2
  refine (Cert.PlainDot.matmul_zero_apply dot_S2048x128_S128x64_S2048x64_1_0_0_1_n_n rfl rfl rfl rfl rfl rfl none _ _ r o).trans
    (Finset.sum_congr rfl fun j _ => ?_)
  rw [shapeCast_self w2]
  exact congrArg (· * w2 (ix2 j o)) (k1_pay8_apply x bias w mu1 var1 g1 be1 r j)

theorem k2_pay3_apply (v34 : FVec Ideal S2048x64 .f32) (b2 mu2 var2 g2 be2 : Vec Ideal S1x64 .f32)
    (w3 : Vec Ideal S64x1024 .f32) (b3 : Vec Ideal S1x1024 .f32) (img : Vec Ideal S1x1024x64 .f32)
    (r : Fin 2048) (q : Fin 64) :
    k2_pay3 v34 b2 mu2 var2 g2 be2 w3 b3 img (ix2 r q) =
      (∑ k : Fin 1024, ((∑ j : Fin 64, Cert.Spec.bnrelu (v34 (ix2 r j) + b2 (ix2 0 j)) (mu2 (ix2 0 j)) (var2 (ix2 0 j))
          (g2 (ix2 0 j)) (be2 (ix2 0 j)) * w3 (ix2 j k)) + b3 (ix2 0 k)) * img (ix3 0 k q)) * Cert.Spec.invpix := by
  unfold k2_pay3
  rw [mulf_apply, broadcast_apply]
  refine congrArg (· * Cert.Spec.invpix) ((Cert.PlainDot.matmul_zero_apply
    dot_S2048x1024_S1024x64_S2048x64_1_0_0_1_n_n rfl rfl rfl rfl rfl rfl none _ _ r q).trans (Finset.sum_congr rfl fun k _ => ?_))
  rw [shapeCast_1ab_ab_apply img, addf_apply, row_spread b3]
  refine congrArg (fun z => (z + b3 (ix2 0 k)) * img (ix3 0 k q)) ((Cert.PlainDot.matmul_zero_apply
    dot_S2048x64_S64x1024_S2048x1024_1_0_0_1_n_n rfl rfl rfl rfl rfl rfl none _ _ r k).trans (Finset.sum_congr rfl fun j _ => ?_))
  rw [shapeCast_self w3]
  refine congrArg (· * w3 (ix2 j k)) ((bn_apply _ mu2 var2 g2 be2 _ _ r j).trans ?_)
  rw [addf_apply, row_spread b2]

end Cert.KernelIdeal.Hand
-- ==== Proof.KI.Val2.lean ====
import proofs.«121860_j42219528520113_1_alg».proof.Proof.KI.R2Pieces
import proofs.«121860_j42219528520113_1_alg».proof.Proof.KI.Val2Pay
import proofs.«121860_j42219528520113_1_alg».proof.Proof.Spec
import Idealize.ShloMosaic.Lib.Pipeline.Value

noncomputable section

namespace Cert.KernelIdeal.Hand.R2

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

abbrev Xv (c : Dev nD) : Vec Ideal S4x16384x64 .f32 := V c (Pipeline.arrRef spec2 0)

abbrev Bv (c : Dev nD) : Vec Ideal S4x128 .f32 := V c (Pipeline.arrRef spec2 1)

abbrev Wv (c : Dev nD) : Vec Ideal S64x128 .f32 := V c (Pipeline.arrRef spec2 2)

abbrev Mu1 (c : Dev nD) : Vec Ideal S1x128 .f32 := V c (Pipeline.arrRef spec2 3)

abbrev Var1 (c : Dev nD) : Vec Ideal S1x128 .f32 := V c (Pipeline.arrRef spec2 4)

abbrev G1 (c : Dev nD) : Vec Ideal S1x128 .f32 := V c (Pipeline.arrRef spec2 5)

abbrev Be1 (c : Dev nD) : Vec Ideal S1x128 .f32 := V c (Pipeline.arrRef spec2 6)

abbrev W2v (c : Dev nD) : Vec Ideal S128x64 .f32 := V c (Pipeline.arrRef spec2 7)

abbrev B2v (c : Dev nD) : Vec Ideal S1x64 .f32 := V c (Pipeline.arrRef spec2 8)

abbrev Mu2 (c : Dev nD) : Vec Ideal S1x64 .f32 := V c (Pipeline.arrRef spec2 9)

abbrev Var2 (c : Dev nD) : Vec Ideal S1x64 .f32 := V c (Pipeline.arrRef spec2 10)

abbrev G2 (c : Dev nD) : Vec Ideal S1x64 .f32 := V c (Pipeline.arrRef spec2 11)

abbrev Be2 (c : Dev nD) : Vec Ideal S1x64 .f32 := V c (Pipeline.arrRef spec2 12)

abbrev W3v (c : Dev nD) : Vec Ideal S64x1024 .f32 := V c (Pipeline.arrRef spec2 13)

abbrev B3v (c : Dev nD) : Vec Ideal S1x1024 .f32 := V c (Pipeline.arrRef spec2 14)

abbrev ImT (c : Dev nD) : Vec Ideal S4x1024x64 .f32 := V c (Pipeline.arrRef spec2 15)

theorem t_lt (t : Fin cfg2.N) : t.val < 32 := lt_of_lt_of_eq t.isLt N_2

def pb (t : Fin cfg2.N) : Fin 4 := ⟨t.val / 8, by have := t_lt t; omega⟩

def pn (t : Fin cfg2.N) (r : Fin 2048) : Fin 16384 :=
  ⟨t.val % 8 * 2048 + r.val, by have := t_lt t; have := r.isLt; omega⟩

theorem idx_moving : ∀ t : Fin cfg2.N,
    (win2_15.index t (0 : Fin 3) = t.val / 8 ∧ win2_15.index t (1 : Fin 3) = 0 ∧ win2_15.index t (2 : Fin 3) = 0)
    ∧ (win2_16.index t (0 : Fin 3) = t.val / 8 ∧ win2_16.index t (1 : Fin 3) = t.val % 8 ∧ win2_16.index t (2 : Fin 3) = 0)
    ∧ (grid2.coords t (0 : Fin 2)).val = t.val / 8 :=
  (by decide +kernel : ∀ t : Fin grid2.N, _)

theorem emb16 (t : Fin cfg2.N) (r : Fin 2048) (q : Fin 64) :
    (((cfg2.win 16).blk t).view.emb (ix3 (0 : Fin 1) r q) : S4x16384x64.Idx) = ix3 (pb t) (pn t r) q := by
  obtain ⟨-, ⟨e0, e1, e2⟩, -⟩ := idx_moving t
  funext a
  apply Fin.ext
  match a with
  | ⟨0, _⟩ => show win2_16.index t (0 : Fin 3) * 1 + 1 * 0 = t.val / 8; omega
  | ⟨1, _⟩ => show win2_16.index t (1 : Fin 3) * 2048 + 1 * r.val = t.val % 8 * 2048 + r.val; omega
  | ⟨2, _⟩ => show win2_16.index t (2 : Fin 3) * 64 + 1 * q.val = q.val; omega

-- Same offsets and extents as the output block's rectangle, in an array of the same shape: the two embeddings coincide.
theorem xblk_apply (c : Dev nD) (t : Fin cfg2.N) (r : Fin 2048) (k : Fin 64) :
    (iblk2 V c 0 t : Vec Ideal S1x2048x64 .f32) (ix3 0 r k) = Xv V c (ix3 (pb t) (pn t r) k) :=
  congrArg (Xv V c) (emb16 t r k)

theorem imblk_apply (c : Dev nD) (t : Fin cfg2.N) (k : Fin 1024) (q : Fin 64) :
    (iblk2 V c 15 t : Vec Ideal S1x1024x64 .f32) (ix3 0 k q) = ImT V c (ix3 (pb t) k q) := by
  obtain ⟨⟨e0, e1, e2⟩, -, -⟩ := idx_moving t
  unfold iblk2
  rw [View.read_apply]
  show V c (Pipeline.arrRef spec2 15) _ = V c (Pipeline.arrRef spec2 15) _
  congr 1
  funext a
  apply Fin.ext
  match a with
  | ⟨0, _⟩ => show win2_15.index t (0 : Fin 3) * 1 + 1 * 0 = t.val / 8; omega
  | ⟨1, _⟩ => show win2_15.index t (1 : Fin 3) * 1024 + 1 * k.val = k.val; omega
  | ⟨2, _⟩ => show win2_15.index t (2 : Fin 3) * 64 + 1 * q.val = q.val; omega

-- Reading an array through the rectangle of its own extents at offset zero returns the array.
theorem whole_eq (c : Dev nD) (t : Fin cfg2.N) :
    (iblk2 V c 1 t : Vec Ideal S4x128 .f32) = Bv V c ∧ (iblk2 V c 2 t : Vec Ideal S64x128 .f32) = Wv V c ∧ (iblk2 V c 3 t : Vec Ideal S1x128 .f32) = Mu1 V c
    ∧ (iblk2 V c 4 t : Vec Ideal S1x128 .f32) = Var1 V c ∧ (iblk2 V c 5 t : Vec Ideal S1x128 .f32) = G1 V c ∧ (iblk2 V c 6 t : Vec Ideal S1x128 .f32) = Be1 V c ∧ (iblk2 V c 7 t : Vec Ideal S128x64 .f32) = W2v V c
    ∧ (iblk2 V c 8 t : Vec Ideal S1x64 .f32) = B2v V c ∧ (iblk2 V c 9 t : Vec Ideal S1x64 .f32) = Mu2 V c ∧ (iblk2 V c 10 t : Vec Ideal S1x64 .f32) = Var2 V c ∧ (iblk2 V c 11 t : Vec Ideal S1x64 .f32) = G2 V c
    ∧ (iblk2 V c 12 t : Vec Ideal S1x64 .f32) = Be2 V c ∧ (iblk2 V c 13 t : Vec Ideal S64x1024 .f32) = W3v V c ∧ (iblk2 V c 14 t : Vec Ideal S1x1024 .f32) = B3v V c := by
  and_intros <;> exact Memref.read_access_unit_zero _ _ (funext fun a => match a with | ⟨0, _⟩ => rfl | ⟨1, _⟩ => rfl) _ _

def y1v (c : Dev nD) (b : Fin 4) (n : Fin 16384) (j : Fin 128) : EReal :=
  (∑ c' : Fin 64, Xv V c (ix3 b n c') * Wv V c (ix2 c' j)) + Bv V c (ix2 b j)

def h1v (c : Dev nD) : Fin 4 → Fin 16384 → Fin 128 → EReal :=
  Cert.Spec.h1 (fun j => G1 V c (ix2 0 j)) (fun j => Be1 V c (ix2 0 j)) (y1v V c)
    (fun j => Mu1 V c (ix2 0 j)) (fun j => Var1 V c (ix2 0 j))

def y2v (c : Dev nD) : Fin 4 → Fin 16384 → Fin 64 → EReal :=
  Cert.Spec.y2 (fun o j => W2v V c (ix2 j o)) (fun o => B2v V c (ix2 0 o)) (h1v V c)

def h2v (c : Dev nD) : Fin 4 → Fin 16384 → Fin 64 → EReal :=
  Cert.Spec.h2 (fun o => G2 V c (ix2 0 o)) (fun o => Be2 V c (ix2 0 o)) (y2v V c)
    (fun o => Mu2 V c (ix2 0 o)) (fun o => Var2 V c (ix2 0 o))

def x3v (c : Dev nD) : Fin 4 → Fin 16384 → Fin 1024 → EReal :=
  Cert.Spec.x3 (fun k j => W3v V c (ix2 j k)) (fun k => B3v V c (ix2 0 k)) (h2v V c)

def outv (c : Dev nD) (b : Fin 4) (n : Fin 16384) (q : Fin 64) : EReal :=
  (∑ k : Fin 1024, x3v V c b n k * ImT V c (ix3 b k q)) * Cert.Spec.invpix

theorem coord_pb (t : Fin cfg2.N) : (grid2.coords t 0 : Fin 4) = pb t := Fin.ext (idx_moving t).2.2

-- The three stages compose; operands spanning their whole array are that array, the others are read at (t / 8, (t % 8) · 2048 + r).
theorem point_apply (c : Dev nD) (t : Fin cfg2.N) (r : Fin 2048) (q : Fin 64) :
    out2_16 (F := Ideal) (grid2.coords t) (iblk2 V c 0 t) (iblk2 V c 1 t) (iblk2 V c 2 t) (iblk2 V c 3 t) (iblk2 V c 4 t)
      (iblk2 V c 5 t) (iblk2 V c 6 t) (iblk2 V c 7 t) (iblk2 V c 8 t) (iblk2 V c 9 t) (iblk2 V c 10 t) (iblk2 V c 11 t)
      (iblk2 V c 12 t) (iblk2 V c 13 t) (iblk2 V c 14 t) (iblk2 V c 15 t) (ix3 (0 : Fin 1) r q)
      = outv V c (pb t) (pn t r) q := by
  simp only [whole_eq V c t, out2_16_eq, k2_pay1_apply, k2_pay3_apply, k2_pay2_apply, xblk_apply V c t, imblk_apply V c t,
    brow2_apply, coord_pb]
  rfl

abbrev G16 (c : Dev nD) : Vec Ideal S4x16384x64 .f32 := fun i => outv V c (i 0) (i 1) (i 2)

theorem flushed16_eq (c : Dev nD) (t : Fin cfg2.N) :
    (dat2 V c).flushed 16 t = ((cfg2.win 16).blk t).view.read (Elt Ideal) (G16 V c) := by
  show (cfg2.win 16).cut (grid2.coords t) ((dat2 V c).after 16 t) = _
  rw [after2_16]
  funext y
  obtain ⟨u, r, q, rfl⟩ : ∃ (u : Fin 1) (r : Fin 2048) (q : Fin 64), y = ix3 u r q := ⟨y 0, y 1, y 2, eq_ix3 y⟩
  obtain rfl : u = 0 := Subsingleton.elim _ _
  exact (point_apply V c t r q).trans (congrArg (G16 V c) (emb16 t r q)).symm

theorem cover16 (i : S4x16384x64.Idx) :
    ∃ t : Fin cfg2.N, (cfg2.win 16).flush t = true ∧ i ∈ ((cfg2.win 16).blk t).view.set := by
  have h0 : (i 0).val < 4 := (i 0).isLt
  have h1 : (i 1).val < 16384 := (i 1).isLt
  have h2 : (i 2).val < 64 := (i 2).isLt
  have hN : cfg2.N = 32 := N_2
  obtain ⟨t, ht⟩ : ∃ t : Fin cfg2.N, t.val = (i 0).val * 8 + (i 1).val / 2048 :=
    ⟨⟨(i 0).val * 8 + (i 1).val / 2048, by omega⟩, rfl⟩
  obtain ⟨-, ⟨e0, e1, e2⟩, -⟩ := idx_moving t
  refine ⟨t, flush2_16 t, ?_⟩
  show i ∈ ((View.whole main_v23).slice (win2_16.rect t)).set
  rw [View.set_slice_whole, Rect.mem_set_unit]
  intro a
  match a with
  | ⟨0, _⟩ =>
    show win2_16.index t (0 : Fin 3) * 1 ≤ (i 0).val ∧ (i 0).val < win2_16.index t (0 : Fin 3) * 1 + 1
    omega
  | ⟨1, _⟩ =>
    show win2_16.index t (1 : Fin 3) * 2048 ≤ (i 1).val ∧ (i 1).val < win2_16.index t (1 : Fin 3) * 2048 + 2048
    omega
  | ⟨2, _⟩ =>
    show win2_16.index t (2 : Fin 3) * 64 ≤ (i 2).val ∧ (i 2).val < win2_16.index t (2 : Fin 3) * 64 + 64
    omega

theorem out_apply (c : Dev nD) (b : Fin 4) (n : Fin 16384) (q : Fin 64) :
    ((dat2 V c).arrAt 16 cfg2.N : Vec Ideal S4x16384x64 .f32) (ix3 b n q)
      = (∑ k : Fin 1024, x3v V c b n k * ImT V c (ix3 b k q)) * Cert.Spec.invpix :=
  congrFun ((dat2 V c).arrAt_eq_of_cover 16 (G16 V c) (fun t _ => flushed16_eq V c t) cover16) (ix3 b n q)

end Cert.KernelIdeal.Hand.R2

end
-- ==== Proof.KI.Value.lean ====
import proofs.«121860_j42219528520113_1_alg».proof.Proof.KI.Run
import proofs.«121860_j42219528520113_1_alg».proof.Proof.KI.HostRead
import proofs.«121860_j42219528520113_1_alg».proof.Proof.KI.Val0
import proofs.«121860_j42219528520113_1_alg».proof.Proof.KI.Val1
import proofs.«121860_j42219528520113_1_alg».proof.Proof.KI.Val2
import proofs.«121860_j42219528520113_1_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

section Congr

-- Equal arguments give equal values, for a function of three or of five arguments.
theorem congr3 {α β γ δ : Sort*} (f : α → β → γ → δ) {a a' : α} {b b' : β} {c c' : γ}
    (ha : a = a') (hb : b = b') (hc : c = c') : f a b c = f a' b' c' := by
  subst ha hb hc; rfl

theorem congr5 {α β γ δ ε ζ : Sort*} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

-- A [1, n] array equal to another one has the other's row.
theorem row_eq {n : ℕ} {G G' : (⟨2, ![1, n]⟩ : Shape).Idx → EReal} {k : Fin n → EReal} (h : G = G') (h' : ∀ o, G' (ix2 0 o) = k o) :
    (fun o => G (ix2 0 o)) = k := by
  subst h; exact funext h'

end Congr

section Value

variable (m : (ℓ : Loc nD τ sig) → Buf (Elt Ideal) ℓ) (ρ : Dev nD → PrngReg) (c : Dev nD)

abbrev U0 : Valuation τ sig (Elt Ideal) := W0 (F := Ideal) m ρ c

abbrev kX : Fin 4 → Fin 16384 → Fin 64 → EReal := fun b n c' => a0 (U0 m ρ c) (ix3 b n c')

abbrev kIm : Fin 4 → Fin 64 → Fin 1024 → EReal := Cert.Spec.imOf (a1 (U0 m ρ c))

abbrev kW1 : Fin 128 → Fin 128 → EReal := fun o j => a2 (U0 m ρ c) (ix2 o j)

abbrev kb1 : Fin 128 → EReal := fun o => a3 (U0 m ρ c) (ix1 o)

abbrev kg1 : Fin 128 → EReal := fun o => a4 (U0 m ρ c) (ix1 o)

abbrev kbe1 : Fin 128 → EReal := fun o => a5 (U0 m ρ c) (ix1 o)

abbrev kW2 : Fin 64 → Fin 128 → EReal := fun o j => a6 (U0 m ρ c) (ix2 o j)

abbrev kb2 : Fin 64 → EReal := fun o => a7 (U0 m ρ c) (ix1 o)

abbrev kg2 : Fin 64 → EReal := fun o => a8 (U0 m ρ c) (ix1 o)

abbrev kbe2 : Fin 64 → EReal := fun o => a9 (U0 m ρ c) (ix1 o)

abbrev kW3 : Fin 1024 → Fin 64 → EReal := fun k j => a10 (U0 m ρ c) (ix2 k j)

abbrev kb3 : Fin 1024 → EReal := fun k => a11 (U0 m ρ c) (ix1 k)

abbrev sY1 := Cert.Spec.y1K (kX m ρ c) (kIm m ρ c) (kW1 m ρ c) (kb1 m ρ c)

abbrev sH1 := Cert.Spec.h1K (kX m ρ c) (kIm m ρ c) (kW1 m ρ c) (kb1 m ρ c) (kg1 m ρ c) (kbe1 m ρ c)

abbrev sY2 := Cert.Spec.y2K (kX m ρ c) (kIm m ρ c) (kW1 m ρ c) (kb1 m ρ c) (kg1 m ρ c) (kbe1 m ρ c) (kW2 m ρ c) (kb2 m ρ c)

abbrev sH2 := Cert.Spec.h2K (kX m ρ c) (kIm m ρ c) (kW1 m ρ c) (kb1 m ρ c) (kg1 m ρ c) (kbe1 m ρ c) (kW2 m ρ c) (kb2 m ρ c)
  (kg2 m ρ c) (kbe2 m ρ c)

abbrev sX3 := Cert.Spec.x3K (kX m ρ c) (kIm m ρ c) (kW1 m ρ c) (kb1 m ρ c) (kg1 m ρ c) (kbe1 m ρ c) (kW2 m ρ c) (kb2 m ρ c)
  (kg2 m ρ c) (kbe2 m ρ c) (kW3 m ρ c) (kb3 m ρ c)

theorem y1_eq (Xa : Vec Ideal S4x16384x64 .f32) (Ba : Vec Ideal S4x128 .f32) (Wa : Vec Ideal S64x128 .f32)
    (hX : Xa = V1 m ρ c main_arg0) (hB : Ba = V1 m ρ c main_v10) (hW : Wa = V1 m ρ c main_v11) :
    (fun (b : Fin 4) (n : Fin 16384) (o : Fin 128) => (∑ c' : Fin 64, Xa (ix3 b n c') * Wa (ix2 c' o)) + Ba (ix2 b o))
      = sY1 m ρ c := by
  subst hX hB hW
  funext b n o
  show _ = (∑ c' : Fin 64, kX m ρ c b n c' * kW1 m ρ c o ⟨64 + c'.val, by have := c'.isLt; omega⟩)
    + Cert.Spec.bias1 (kIm m ρ c) (kW1 m ρ c) (kb1 m ρ c) b o
  refine congrArg₂ (· + ·) (Finset.sum_congr rfl fun c' _ => congrArg₂ (· * ·) ?_ ?_) ?_
  · exact congrFun (arg0_eq (U0 m ρ c)) (ix3 b n c')
  · exact v11_at (U0 m ρ c) c' o
  · exact v10_at (U0 m ρ c) b o

theorem y1v0_eq : R0.y1v (V1 m ρ) c = sY1 m ρ c := y1_eq m ρ c _ _ _ rfl rfl rfl

theorem y1v1_eq : R1.y1v (V2 m ρ) c = sY1 m ρ c :=
  y1_eq m ρ c _ _ _ (V2_keep m ρ c main_arg0 (by decide)) (V2_keep m ρ c main_v10 (by decide)) (V2_keep m ρ c main_v11 (by decide))

theorem y1v2_eq : R2.y1v (V3 m ρ) c = sY1 m ρ c :=
  y1_eq m ρ c _ _ _ (V3_keep m ρ c main_arg0 (by decide) (by decide)) (V3_keep m ρ c main_v10 (by decide) (by decide)) (V3_keep m ρ c main_v11 (by decide) (by decide))

theorem mu1_eq (o : Fin 128) :
    ((dat0 (F := Ideal) (V1 m ρ) c).arrAt 3 cfg0.N : Vec Ideal S1x128 .f32) (ix2 0 o) = Cert.Spec.muK (sY1 m ρ c) o :=
  (R0.mu1_apply (V1 m ρ) c o).trans (congrArg (fun y => Cert.Spec.muK y o) (y1v0_eq m ρ c))

theorem var1_eq (o : Fin 128) :
    ((dat0 (F := Ideal) (V1 m ρ) c).arrAt 4 cfg0.N : Vec Ideal S1x128 .f32) (ix2 0 o) = Cert.Spec.varK (sY1 m ρ c) o :=
  (R0.var1_apply (V1 m ρ) c o).trans (congrArg (fun y => Cert.Spec.varK y o) (y1v0_eq m ρ c))

theorem h1v1_eq : R1.h1v (V2 m ρ) c = sH1 m ρ c :=
  congr5 Cert.Spec.h1
    (row_eq (V2_keep m ρ c main_v15 (by decide)) (v15_at (U0 m ρ c) 0))
    (row_eq (V2_keep m ρ c main_v16 (by decide)) (v16_at (U0 m ρ c) 0))
    (y1v1_eq m ρ c)
    (row_eq (V2_main_v21_0 m ρ c) (mu1_eq m ρ c))
    (row_eq (V2_main_v21_1 m ρ c) (var1_eq m ρ c))

theorem h1v2_eq : R2.h1v (V3 m ρ) c = sH1 m ρ c :=
  congr5 Cert.Spec.h1
    (row_eq (V3_keep m ρ c main_v15 (by decide) (by decide)) (v15_at (U0 m ρ c) 0))
    (row_eq (V3_keep m ρ c main_v16 (by decide) (by decide)) (v16_at (U0 m ρ c) 0))
    (y1v2_eq m ρ c)
    (row_eq (V3_main_v21_0 m ρ c) (mu1_eq m ρ c))
    (row_eq (V3_main_v21_1 m ρ c) (var1_eq m ρ c))

theorem y2v1_eq : R1.y2v (V2 m ρ) c = sY2 m ρ c :=
  congr3 Cert.Spec.y2
    (funext fun o => funext fun j => (congrFun (V2_keep m ρ c main_v12 (by decide)) (ix2 j o)).trans (v12_at (U0 m ρ c) j o))
    (row_eq (V2_keep m ρ c main_v17 (by decide)) (v17_at (U0 m ρ c) 0)) (h1v1_eq m ρ c)

theorem y2v2_eq : R2.y2v (V3 m ρ) c = sY2 m ρ c :=
  congr3 Cert.Spec.y2
    (funext fun o => funext fun j => (congrFun (V3_keep m ρ c main_v12 (by decide) (by decide)) (ix2 j o)).trans (v12_at (U0 m ρ c) j o))
    (row_eq (V3_keep m ρ c main_v17 (by decide) (by decide)) (v17_at (U0 m ρ c) 0)) (h1v2_eq m ρ c)

theorem h2v2_eq : R2.h2v (V3 m ρ) c = sH2 m ρ c :=
  congr5 Cert.Spec.h2
    (row_eq (V3_keep m ρ c main_v18 (by decide) (by decide)) (v18_at (U0 m ρ c) 0))
    (row_eq (V3_keep m ρ c main_v19 (by decide) (by decide)) (v19_at (U0 m ρ c) 0))
    (y2v2_eq m ρ c)
    (row_eq (V3_main_v22_0 m ρ c) fun o => (R1.mu2_apply (V2 m ρ) c o).trans (congrArg (fun y => Cert.Spec.muK y o) (y2v1_eq m ρ c)))
    (row_eq (V3_main_v22_1 m ρ c) fun o => (R1.var2_apply (V2 m ρ) c o).trans (congrArg (fun y => Cert.Spec.varK y o) (y2v1_eq m ρ c)))

theorem x3v2_eq : R2.x3v (V3 m ρ) c = sX3 m ρ c :=
  congr3 Cert.Spec.x3
    (funext fun k => funext fun j => (congrFun (V3_keep m ρ c main_v13 (by decide) (by decide)) (ix2 j k)).trans (v13_at (U0 m ρ c) j k))
    (row_eq (V3_keep m ρ c main_v20 (by decide) (by decide)) (v20_at (U0 m ρ c) 0)) (h2v2_eq m ρ c)

theorem kernel_value (m : (ℓ : Loc nD τ sig) → Buf (Elt Ideal) ℓ) (ρ : Dev nD → PrngReg) (c : Dev nD)
    (b : Fin 4) (n : Fin 16384) (q : Fin 64) :
    (W4 (F := Ideal) m ρ c (Proc.devRef .tc main_v23) : S4x16384x64.Idx → EReal) (ix3 b n q)
      = Cert.Spec.outK (fun b n c' => m ((c.tc : Thread nD τ).loc main_arg0) (ix3 b n c'))
          (Cert.Spec.imOf (m ((c.tc : Thread nD τ).loc main_arg1)))
          (fun o j => m ((c.tc : Thread nD τ).loc main_arg2) (ix2 o j))
          (fun o => m ((c.tc : Thread nD τ).loc main_arg3) (ix1 o))
          (fun o => m ((c.tc : Thread nD τ).loc main_arg4) (ix1 o))
          (fun o => m ((c.tc : Thread nD τ).loc main_arg5) (ix1 o))
          (fun o j => m ((c.tc : Thread nD τ).loc main_arg6) (ix2 o j))
          (fun o => m ((c.tc : Thread nD τ).loc main_arg7) (ix1 o))
          (fun o => m ((c.tc : Thread nD τ).loc main_arg8) (ix1 o))
          (fun o => m ((c.tc : Thread nD τ).loc main_arg9) (ix1 o))
          (fun k j => m ((c.tc : Thread nD τ).loc main_arg10) (ix2 k j))
          (fun k => m ((c.tc : Thread nD τ).loc main_arg11) (ix1 k)) b n q := by
  refine (congrFun (W4_result m ρ c) (ix3 b n q)).trans ((R2.out_apply (V3 m ρ) c b n q).trans ?_)
  show _ = (∑ k : Fin 1024, sX3 m ρ c b n k * kIm m ρ c b q k) * Cert.Spec.invpix
  refine congrArg (· * Cert.Spec.invpix) (Finset.sum_congr rfl fun k _ => congrArg₂ (· * ·) ?_
    ((congrFun (V3_keep m ρ c main_v14 (by decide) (by decide)) (ix3 b k q)).trans (v14_at (U0 m ρ c) b k q)))
  exact congrFun (congrFun (congrFun (x3v2_eq m ρ c) b) n) k

end Value

end Cert.KernelIdeal.Hand

end
-- ==== Proof.Ref.Ops.lean ====
/-
  The reference's 119 operations in program order, in three consecutive lists: up to the broadcast
  image mean (8), from the concatenation through the second layer's pre-activation (56), and from the
  second normalisation to the result (55). A called function's operations stand where it is called, over
  that call's own buffers. With each list, that every operation touches tensor buffers of the device only.
-/
import proofs.«121860_j42219528520113_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 8 of 119. -/
abbrev opsHead : List (HloOp τ sig (Elt F)) :=
  [ reshape main_arg1 main_v0 rfl shapeCasts_S4x64x16x64_S4x64x1024,
    nullary main_cst (constant S_ .f32 0x00000000#32),
    binary main_v0 main_cst main_v1 ((fun x v => Host.reduceAdd x v reducesTo_S4x64x1024_S4x64_d2 h_S_) : (⟨S4x64x1024, .f32⟩ : BufTy).Contents (Elt F) → (⟨S_, .f32⟩ : BufTy).Contents (Elt F) → (⟨S4x64, .f32⟩ : BufTy).Contents (Elt F)),
    nullary main_cst_0 (constant S_ .f32 0x44800000#32),
    unary main_cst_0 main_v2 (broadcastInDim S4x64 ![] bcast_S_S4x64 : (⟨S_, .f32⟩ : BufTy).Contents (Elt F) → (⟨S4x64, .f32⟩ : BufTy).Contents (Elt F)),
    binary main_v1 main_v2 main_v3 (Host.divf : (⟨S4x64, .f32⟩ : BufTy).Contents (Elt F) → (⟨S4x64, .f32⟩ : BufTy).Contents (Elt F) → (⟨S4x64, .f32⟩ : BufTy).Contents (Elt F)),
    unary main_v3 main_v4 (broadcastInDim S4x1x64 ![0, 2] bcast_S4x64_S4x1x64_0_2 : (⟨S4x64, .f32⟩ : BufTy).Contents (Elt F) → (⟨S4x1x64, .f32⟩ : BufTy).Contents (Elt F)),
    unary main_v4 main_v5 (broadcastInDim S4x16384x64 ![0, 1, 2] bcast_S4x1x64_S4x16384x64_0_1_2 : (⟨S4x1x64, .f32⟩ : BufTy).Contents (Elt F) → (⟨S4x16384x64, .f32⟩ : BufTy).Contents (Elt F)) ]

set_option maxRecDepth 8192 in
theorem opsHead_sub : (opsHead : List (HloOp τ sig (Elt F))).Forall fun op => op.bufs ⊆ tcRefs τ sig :=
  ⟨reshape_bufs_sub .., nullary_bufs_sub .., binary_bufs_sub .., nullary_bufs_sub .., unary_bufs_sub .., binary_bufs_sub .., unary_bufs_sub .., unary_bufs_sub ..⟩

/-- Operations 9 … 64 of 119. -/
abbrev opsFirst : List (HloOp τ sig (Elt F)) :=
  [ binary main_v5 main_arg0 main_v6 ((fun a b => concatenate S4x16384x128 2 [⟨S4x16384x64, a⟩, ⟨S4x16384x64, b⟩] concatenates_S4x16384x64_S4x16384x64_S4x16384x128_d2) : (⟨S4x16384x64, .f32⟩ : BufTy).Contents (Elt F) → (⟨S4x16384x64, .f32⟩ : BufTy).Contents (Elt F) → (⟨S4x16384x128, .f32⟩ : BufTy).Contents (Elt F)),
    binary main_v6 main_arg2 main_v7 ((fun l r => Host.dotGeneral dot_S4x16384x128_S128x128_S4x16384x128_2_1_01_0_n_n none l r) : (⟨S4x16384x128, .f32⟩ : BufTy).Contents (Elt F) → (⟨S128x128, .f32⟩ : BufTy).Contents (Elt F) → (⟨S4x16384x128, .f32⟩ : BufTy).Contents (Elt F)),
    unary main_arg3 main_v8 (broadcastInDim S1x1x128 ![2] bcast_S128_S1x1x128_2 : (⟨S128, .f32⟩ : BufTy).Contents (Elt F) → (⟨S1x1x128, .f32⟩ : BufTy).Contents (Elt F)),
    unary main_v8 main_v9 (broadcastInDim S4x16384x128 ![0, 1, 2] bcast_S1x1x128_S4x16384x128_0_1_2 : (⟨S1x1x128, .f32⟩ : BufTy).Contents (Elt F) → (⟨S4x16384x128, .f32⟩ : BufTy).Contents (Elt F)),
    binary main_v7 main_v9 main_v10 (addf : (⟨S4x16384x128, .f32⟩ : BufTy).Contents (Elt F) → (⟨S4x16384x128, .f32⟩ : BufTy).Contents (Elt F) → (⟨S4x16384x128, .f32⟩ : BufTy).Contents (Elt F)),
    nullary main_cst_1 (constant S_ .f32 0x00000000#32),
    binary main_v10 main_cst_1 main_v11 ((fun x v => Host.reduceAdd x v reducesTo_S4x16384x128_S128_d0_1 h_S_) : (⟨S4x16384x128, .f32⟩ : BufTy).Contents (Elt F) → (⟨S_, .f32⟩ : BufTy).Contents (Elt F) → (⟨S128, .f32⟩ : BufTy).Contents (Elt F)),
    nullary main_cst_2 (constant S_ .f32 0x47800000#32),
    unary main_cst_2 main_v12 (broadcastInDim S128 ![] bcast_S_S128 : (⟨S_, .f32⟩ : BufTy).Contents (Elt F) → (⟨S128, .f32⟩ : BufTy).Contents (Elt F)),
    binary main_v11 main_v12 main_v13 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (TRef.of (T := ⟨S4x16384x128, .f32⟩) main_v10) main_call0.cst main_call0.v0 (fun x v => Host.reduceAdd x v reducesTo_S4x16384x128_S128_d0_1 h_S_),
    TRef.unary main_call0.v0 main_call0.v1 (broadcastInDim S1x1x128 ![2] bcast_S128_S1x1x128_2),
    TRef.nullary main_call0.cst_0 (constant S_ .f32 0x47800000#32),
    TRef.unary main_call0.cst_0 main_call0.v2 (broadcastInDim S1x1x128 ![] bcast_S_S1x1x128),
    TRef.binary main_call0.v1 main_call0.v2 main_call0.v3 Host.divf,
    TRef.unary main_call0.v3 main_call0.v4 (broadcastInDim S4x16384x128 ![0, 1, 2] bcast_S1x1x128_S4x16384x128_0_1_2),
    TRef.binary (TRef.of (T := ⟨S4x16384x128, .f32⟩) main_v10) main_call0.v4 main_call0.v5 subf,
    TRef.binary main_call0.v5 main_call0.v5 main_call0.v6 mulf,
    TRef.unary (TRef.of (T := ⟨S_, .i32⟩) main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x16384x128_S128_d0_1 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v13 main_v15 (broadcastInDim S1x1x128 ![2] bcast_S128_S1x1x128_2 : (⟨S128, .f32⟩ : BufTy).Contents (Elt F) → (⟨S1x1x128, .f32⟩ : BufTy).Contents (Elt F)),
    unary main_v15 main_v16 (broadcastInDim S4x16384x128 ![0, 1, 2] bcast_S1x1x128_S4x16384x128_0_1_2 : (⟨S1x1x128, .f32⟩ : BufTy).Contents (Elt F) → (⟨S4x16384x128, .f32⟩ : BufTy).Contents (Elt F)),
    binary main_v10 main_v16 main_v17 (subf : (⟨S4x16384x128, .f32⟩ : BufTy).Contents (Elt F) → (⟨S4x16384x128, .f32⟩ : BufTy).Contents (Elt F) → (⟨S4x16384x128, .f32⟩ : BufTy).Contents (Elt F)),
    nullary main_cst_3 (constant S_ .f32 0x3727C5AC#32),
    unary main_cst_3 main_v18 (broadcastInDim S128 ![] bcast_S_S128 : (⟨S_, .f32⟩ : BufTy).Contents (Elt F) → (⟨S128, .f32⟩ : BufTy).Contents (Elt F)),
    binary main_v14 main_v18 main_v19 (addf : (⟨S128, .f32⟩ : BufTy).Contents (Elt F) → (⟨S128, .f32⟩ : BufTy).Contents (Elt F) → (⟨S128, .f32⟩ : BufTy).Contents (Elt F)),
    unary main_v19 main_v20 (Host.rsqrt : (⟨S128, .f32⟩ : BufTy).Contents (Elt F) → (⟨S128, .f32⟩ : BufTy).Contents (Elt F)),
    unary main_v20 main_v21 (broadcastInDim S1x1x128 ![2] bcast_S128_S1x1x128_2 : (⟨S128, .f32⟩ : BufTy).Contents (Elt F) → (⟨S1x1x128, .f32⟩ : BufTy).Contents (Elt F)),
    unary main_v21 main_v22 (broadcastInDim S4x16384x128 ![0, 1, 2] bcast_S1x1x128_S4x16384x128_0_1_2 : (⟨S1x1x128, .f32⟩ : BufTy).Contents (Elt F) → (⟨S4x16384x128, .f32⟩ : BufTy).Contents (Elt F)),
    binary main_v17 main_v22 main_v23 (mulf : (⟨S4x16384x128, .f32⟩ : BufTy).Contents (Elt F) → (⟨S4x16384x128, .f32⟩ : BufTy).Contents (Elt F) → (⟨S4x16384x128, .f32⟩ : BufTy).Contents (Elt F)),
    unary main_arg4 main_v24 (broadcastInDim S1x1x128 ![2] bcast_S128_S1x1x128_2 : (⟨S128, .f32⟩ : BufTy).Contents (Elt F) → (⟨S1x1x128, .f32⟩ : BufTy).Contents (Elt F)),
    unary main_v24 main_v25 (broadcastInDim S4x16384x128 ![0, 1, 2] bcast_S1x1x128_S4x16384x128_0_1_2 : (⟨S1x1x128, .f32⟩ : BufTy).Contents (Elt F) → (⟨S4x16384x128, .f32⟩ : BufTy).Contents (Elt F)),
    binary main_v23 main_v25 main_v26 (mulf : (⟨S4x16384x128, .f32⟩ : BufTy).Contents (Elt F) → (⟨S4x16384x128, .f32⟩ : BufTy).Contents (Elt F) → (⟨S4x16384x128, .f32⟩ : BufTy).Contents (Elt F)),
    unary main_arg5 main_v27 (broadcastInDim S1x1x128 ![2] bcast_S128_S1x1x128_2 : (⟨S128, .f32⟩ : BufTy).Contents (Elt F) → (⟨S1x1x128, .f32⟩ : BufTy).Contents (Elt F)),
    unary main_v27 main_v28 (broadcastInDim S4x16384x128 ![0, 1, 2] bcast_S1x1x128_S4x16384x128_0_1_2 : (⟨S1x1x128, .f32⟩ : BufTy).Contents (Elt F) → (⟨S4x16384x128, .f32⟩ : BufTy).Contents (Elt F)),
    binary main_v26 main_v28 main_v29 (addf : (⟨S4x16384x128, .f32⟩ : BufTy).Contents (Elt F) → (⟨S4x16384x128, .f32⟩ : BufTy).Contents (Elt F) → (⟨S4x16384x128, .f32⟩ : BufTy).Contents (Elt F)),
    TRef.nullary main_call1.cst (constant S_ .f32 0x00000000#32),
    TRef.unary main_call1.cst main_call1.v0 (broadcastInDim S4x16384x128 ![] bcast_S_S4x16384x128),
    TRef.binary (TRef.of (T := ⟨S4x16384x128, .f32⟩) main_v29) main_call1.v0 main_call1.v1 maximumf,
    binary main_v30 main_arg6 main_v31 ((fun l r => Host.dotGeneral dot_S4x16384x128_S64x128_S4x16384x64_2_1_01_0_n_n none l r) : (⟨S4x16384x128, .f32⟩ : BufTy).Contents (Elt F) → (⟨S64x128, .f32⟩ : BufTy).Contents (Elt F) → (⟨S4x16384x64, .f32⟩ : BufTy).Contents (Elt F)),
    unary main_arg7 main_v32 (broadcastInDim S1x1x64 ![2] bcast_S64_S1x1x64_2 : (⟨S64, .f32⟩ : BufTy).Contents (Elt F) → (⟨S1x1x64, .f32⟩ : BufTy).Contents (Elt F)),
    unary main_v32 main_v33 (broadcastInDim S4x16384x64 ![0, 1, 2] bcast_S1x1x64_S4x16384x64_0_1_2 : (⟨S1x1x64, .f32⟩ : BufTy).Contents (Elt F) → (⟨S4x16384x64, .f32⟩ : BufTy).Contents (Elt F)),
    binary main_v31 main_v33 main_v34 (addf : (⟨S4x16384x64, .f32⟩ : BufTy).Contents (Elt F) → (⟨S4x16384x64, .f32⟩ : BufTy).Contents (Elt F) → (⟨S4x16384x64, .f32⟩ : BufTy).Contents (Elt F)) ]

set_option maxRecDepth 8192 in
theorem opsFirst_sub : (opsFirst : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Operations 65 … 119 of 119. -/
abbrev opsSecond : List (HloOp τ sig (Elt F)) :=
  [ nullary main_cst_4 (constant S_ .f32 0x00000000#32),
    binary main_v34 main_cst_4 main_v35 ((fun x v => Host.reduceAdd x v reducesTo_S4x16384x64_S64_d0_1 h_S_) : (⟨S4x16384x64, .f32⟩ : BufTy).Contents (Elt F) → (⟨S_, .f32⟩ : BufTy).Contents (Elt F) → (⟨S64, .f32⟩ : BufTy).Contents (Elt F)),
    nullary main_cst_5 (constant S_ .f32 0x47800000#32),
    unary main_cst_5 main_v36 (broadcastInDim S64 ![] bcast_S_S64 : (⟨S_, .f32⟩ : BufTy).Contents (Elt F) → (⟨S64, .f32⟩ : BufTy).Contents (Elt F)),
    binary main_v35 main_v36 main_v37 (Host.divf : (⟨S64, .f32⟩ : BufTy).Contents (Elt F) → (⟨S64, .f32⟩ : BufTy).Contents (Elt F) → (⟨S64, .f32⟩ : BufTy).Contents (Elt F)),
    nullary main_c_6 (constantI S_ 32 0#32),
    TRef.nullary main_call2.cst (constant S_ .f32 0x00000000#32),
    TRef.binary (TRef.of (T := ⟨S4x16384x64, .f32⟩) main_v34) main_call2.cst main_call2.v0 (fun x v => Host.reduceAdd x v reducesTo_S4x16384x64_S64_d0_1 h_S_),
    TRef.unary main_call2.v0 main_call2.v1 (broadcastInDim S1x1x64 ![2] bcast_S64_S1x1x64_2),
    TRef.nullary main_call2.cst_0 (constant S_ .f32 0x47800000#32),
    TRef.unary main_call2.cst_0 main_call2.v2 (broadcastInDim S1x1x64 ![] bcast_S_S1x1x64),
    TRef.binary main_call2.v1 main_call2.v2 main_call2.v3 Host.divf,
    TRef.unary main_call2.v3 main_call2.v4 (broadcastInDim S4x16384x64 ![0, 1, 2] bcast_S1x1x64_S4x16384x64_0_1_2),
    TRef.binary (TRef.of (T := ⟨S4x16384x64, .f32⟩) main_v34) main_call2.v4 main_call2.v5 subf,
    TRef.binary main_call2.v5 main_call2.v5 main_call2.v6 mulf,
    TRef.unary (TRef.of (T := ⟨S_, .i32⟩) main_c_6) main_call2.v7 (sitofp .f32),
    TRef.nullary main_call2.cst_1 (constant S_ .f32 0x47800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4x16384x64_S64_d0_1 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v37 main_v39 (broadcastInDim S1x1x64 ![2] bcast_S64_S1x1x64_2 : (⟨S64, .f32⟩ : BufTy).Contents (Elt F) → (⟨S1x1x64, .f32⟩ : BufTy).Contents (Elt F)),
    unary main_v39 main_v40 (broadcastInDim S4x16384x64 ![0, 1, 2] bcast_S1x1x64_S4x16384x64_0_1_2 : (⟨S1x1x64, .f32⟩ : BufTy).Contents (Elt F) → (⟨S4x16384x64, .f32⟩ : BufTy).Contents (Elt F)),
    binary main_v34 main_v40 main_v41 (subf : (⟨S4x16384x64, .f32⟩ : BufTy).Contents (Elt F) → (⟨S4x16384x64, .f32⟩ : BufTy).Contents (Elt F) → (⟨S4x16384x64, .f32⟩ : BufTy).Contents (Elt F)),
    nullary main_cst_7 (constant S_ .f32 0x3727C5AC#32),
    unary main_cst_7 main_v42 (broadcastInDim S64 ![] bcast_S_S64 : (⟨S_, .f32⟩ : BufTy).Contents (Elt F) → (⟨S64, .f32⟩ : BufTy).Contents (Elt F)),
    binary main_v38 main_v42 main_v43 (addf : (⟨S64, .f32⟩ : BufTy).Contents (Elt F) → (⟨S64, .f32⟩ : BufTy).Contents (Elt F) → (⟨S64, .f32⟩ : BufTy).Contents (Elt F)),
    unary main_v43 main_v44 (Host.rsqrt : (⟨S64, .f32⟩ : BufTy).Contents (Elt F) → (⟨S64, .f32⟩ : BufTy).Contents (Elt F)),
    unary main_v44 main_v45 (broadcastInDim S1x1x64 ![2] bcast_S64_S1x1x64_2 : (⟨S64, .f32⟩ : BufTy).Contents (Elt F) → (⟨S1x1x64, .f32⟩ : BufTy).Contents (Elt F)),
    unary main_v45 main_v46 (broadcastInDim S4x16384x64 ![0, 1, 2] bcast_S1x1x64_S4x16384x64_0_1_2 : (⟨S1x1x64, .f32⟩ : BufTy).Contents (Elt F) → (⟨S4x16384x64, .f32⟩ : BufTy).Contents (Elt F)),
    binary main_v41 main_v46 main_v47 (mulf : (⟨S4x16384x64, .f32⟩ : BufTy).Contents (Elt F) → (⟨S4x16384x64, .f32⟩ : BufTy).Contents (Elt F) → (⟨S4x16384x64, .f32⟩ : BufTy).Contents (Elt F)),
    unary main_arg8 main_v48 (broadcastInDim S1x1x64 ![2] bcast_S64_S1x1x64_2 : (⟨S64, .f32⟩ : BufTy).Contents (Elt F) → (⟨S1x1x64, .f32⟩ : BufTy).Contents (Elt F)),
    unary main_v48 main_v49 (broadcastInDim S4x16384x64 ![0, 1, 2] bcast_S1x1x64_S4x16384x64_0_1_2 : (⟨S1x1x64, .f32⟩ : BufTy).Contents (Elt F) → (⟨S4x16384x64, .f32⟩ : BufTy).Contents (Elt F)),
    binary main_v47 main_v49 main_v50 (mulf : (⟨S4x16384x64, .f32⟩ : BufTy).Contents (Elt F) → (⟨S4x16384x64, .f32⟩ : BufTy).Contents (Elt F) → (⟨S4x16384x64, .f32⟩ : BufTy).Contents (Elt F)),
    unary main_arg9 main_v51 (broadcastInDim S1x1x64 ![2] bcast_S64_S1x1x64_2 : (⟨S64, .f32⟩ : BufTy).Contents (Elt F) → (⟨S1x1x64, .f32⟩ : BufTy).Contents (Elt F)),
    unary main_v51 main_v52 (broadcastInDim S4x16384x64 ![0, 1, 2] bcast_S1x1x64_S4x16384x64_0_1_2 : (⟨S1x1x64, .f32⟩ : BufTy).Contents (Elt F) → (⟨S4x16384x64, .f32⟩ : BufTy).Contents (Elt F)),
    binary main_v50 main_v52 main_v53 (addf : (⟨S4x16384x64, .f32⟩ : BufTy).Contents (Elt F) → (⟨S4x16384x64, .f32⟩ : BufTy).Contents (Elt F) → (⟨S4x16384x64, .f32⟩ : BufTy).Contents (Elt F)),
    TRef.nullary main_call3.cst (constant S_ .f32 0x00000000#32),
    TRef.unary main_call3.cst main_call3.v0 (broadcastInDim S4x16384x64 ![] bcast_S_S4x16384x64),
    TRef.binary (TRef.of (T := ⟨S4x16384x64, .f32⟩) main_v53) main_call3.v0 main_call3.v1 maximumf,
    binary main_v54 main_arg10 main_v55 ((fun l r => Host.dotGeneral dot_S4x16384x64_S1024x64_S4x16384x1024_2_1_01_0_n_n none l r) : (⟨S4x16384x64, .f32⟩ : BufTy).Contents (Elt F) → (⟨S1024x64, .f32⟩ : BufTy).Contents (Elt F) → (⟨S4x16384x1024, .f32⟩ : BufTy).Contents (Elt F)),
    unary main_arg11 main_v56 (broadcastInDim S1x1x1024 ![2] bcast_S1024_S1x1x1024_2 : (⟨S1024, .f32⟩ : BufTy).Contents (Elt F) → (⟨S1x1x1024, .f32⟩ : BufTy).Contents (Elt F)),
    unary main_v56 main_v57 (broadcastInDim S4x16384x1024 ![0, 1, 2] bcast_S1x1x1024_S4x16384x1024_0_1_2 : (⟨S1x1x1024, .f32⟩ : BufTy).Contents (Elt F) → (⟨S4x16384x1024, .f32⟩ : BufTy).Contents (Elt F)),
    binary main_v55 main_v57 main_v58 (addf : (⟨S4x16384x1024, .f32⟩ : BufTy).Contents (Elt F) → (⟨S4x16384x1024, .f32⟩ : BufTy).Contents (Elt F) → (⟨S4x16384x1024, .f32⟩ : BufTy).Contents (Elt F)),
    binary main_v58 main_v0 main_v59 ((fun l r => Host.dotGeneral dot_S4x16384x1024_S4x64x1024_S4x16384x64_2_2_1_1_0_0 none l r) : (⟨S4x16384x1024, .f32⟩ : BufTy).Contents (Elt F) → (⟨S4x64x1024, .f32⟩ : BufTy).Contents (Elt F) → (⟨S4x16384x64, .f32⟩ : BufTy).Contents (Elt F)),
    nullary main_cst_8 (constant S_ .f32 0x44800000#32),
    unary main_cst_8 main_v60 (broadcastInDim S4x16384x64 ![] bcast_S_S4x16384x64 : (⟨S_, .f32⟩ : BufTy).Contents (Elt F) → (⟨S4x16384x64, .f32⟩ : BufTy).Contents (Elt F)),
    binary main_v59 main_v60 main_v61 (Host.divf : (⟨S4x16384x64, .f32⟩ : BufTy).Contents (Elt F) → (⟨S4x16384x64, .f32⟩ : BufTy).Contents (Elt F) → (⟨S4x16384x64, .f32⟩ : BufTy).Contents (Elt F)) ]

set_option maxRecDepth 8192 in
theorem opsSecond_sub : (opsSecond : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub ..⟩

/-- All 119 operations, in order. -/
abbrev ops : List (HloOp τ sig (Elt F)) := opsHead ++ (opsFirst ++ opsSecond)

end Cert.ReferenceIdeal.RefRun

end
-- ==== Proof.Ref.Term.lean ====
import proofs.«121860_j42219528520113_1_alg».proof.ReferenceIdeal

noncomputable section

namespace Cert.ReferenceIdeal.RefTerm

open Idealize.ShloMosaic Idealize.SL.Sem
open Cert.ReferenceIdeal
open Cert.ReferenceIdeal.Facts₀ Cert.ReferenceIdeal.Facts

variable {F : FTy → Type} [FloatOps F] [Facts]

set_option maxHeartbeats 4000000 in
def result (a0 : FVec F S4x16384x64 .f32) (a1 : FVec F S4x64x16x64 .f32) (a2 : FVec F S128x128 .f32)
    (a3 a4 a5 : FVec F S128 .f32) (a6 : FVec F S64x128 .f32) (a7 a8 a9 : FVec F S64 .f32)
    (a10 : FVec F S1024x64 .f32) (a11 : FVec F S1024 .f32) : FVec F S4x16384x64 .f32 :=
  have v0 : FVec F S4x64x1024 .f32 := shapeCast S4x64x1024 a1 shapeCasts_S4x64x16x64_S4x64x1024
  have cst : FVec F S_ .f32 := constant S_ .f32 0x00000000#32
  have v1 : FVec F S4x64 .f32 := Host.reduceAdd v0 cst reducesTo_S4x64x1024_S4x64_d2 h_S_
  have cst_0 : FVec F S_ .f32 := constant S_ .f32 0x44800000#32
  have v2 : FVec F S4x64 .f32 := broadcastInDim S4x64 ![] bcast_S_S4x64 cst_0
  have v3 : FVec F S4x64 .f32 := Host.divf v1 v2
  have v4 : FVec F S4x1x64 .f32 := broadcastInDim S4x1x64 ![0, 2] bcast_S4x64_S4x1x64_0_2 v3
  have v5 : FVec F S4x16384x64 .f32 := broadcastInDim S4x16384x64 ![0, 1, 2] bcast_S4x1x64_S4x16384x64_0_1_2 v4
  have v6 : FVec F S4x16384x128 .f32 := concatenate S4x16384x128 2 [⟨S4x16384x64, v5⟩, ⟨S4x16384x64, a0⟩] concatenates_S4x16384x64_S4x16384x64_S4x16384x128_d2
  have v7 : FVec F S4x16384x128 .f32 := Host.dotGeneral dot_S4x16384x128_S128x128_S4x16384x128_2_1_01_0_n_n none v6 a2
  have v8 : FVec F S1x1x128 .f32 := broadcastInDim S1x1x128 ![2] bcast_S128_S1x1x128_2 a3
  have v9 : FVec F S4x16384x128 .f32 := broadcastInDim S4x16384x128 ![0, 1, 2] bcast_S1x1x128_S4x16384x128_0_1_2 v8
  have v10 : FVec F S4x16384x128 .f32 := addf v7 v9
  have cst_1 : FVec F S_ .f32 := constant S_ .f32 0x00000000#32
  have v11 : FVec F S128 .f32 := Host.reduceAdd v10 cst_1 reducesTo_S4x16384x128_S128_d0_1 h_S_
  have cst_2 : FVec F S_ .f32 := constant S_ .f32 0x47800000#32
  have v12 : FVec F S128 .f32 := broadcastInDim S128 ![] bcast_S_S128 cst_2
  have v13 : FVec F S128 .f32 := Host.divf v11 v12
  have c : IVec S_ 32 := constantI S_ 32 0#32
  have p_cst : FVec F S_ .f32 := constant S_ .f32 0x00000000#32
  have p_v0 : FVec F S128 .f32 := Host.reduceAdd v10 p_cst reducesTo_S4x16384x128_S128_d0_1 h_S_
  have p_v1 : FVec F S1x1x128 .f32 := broadcastInDim S1x1x128 ![2] bcast_S128_S1x1x128_2 p_v0
  have p_cst_0 : FVec F S_ .f32 := constant S_ .f32 0x47800000#32
  have p_v2 : FVec F S1x1x128 .f32 := broadcastInDim S1x1x128 ![] bcast_S_S1x1x128 p_cst_0
  have p_v3 : FVec F S1x1x128 .f32 := Host.divf p_v1 p_v2
  have p_v4 : FVec F S4x16384x128 .f32 := broadcastInDim S4x16384x128 ![0, 1, 2] bcast_S1x1x128_S4x16384x128_0_1_2 p_v3
  have p_v5 : FVec F S4x16384x128 .f32 := subf v10 p_v4
  have p_v6 : FVec F S4x16384x128 .f32 := mulf p_v5 p_v5
  have p_v7 : FVec F S_ .f32 := sitofp .f32 c
  have p_cst_1 : FVec F S_ .f32 := constant S_ .f32 0x47800000#32
  have p_v8 : FVec F S_ .f32 := subf p_cst_1 p_v7
  have p_cst_2 : FVec F S_ .f32 := constant S_ .f32 0x00000000#32
  have p_v9 : FVec F S128 .f32 := Host.reduceAdd p_v6 p_cst_2 reducesTo_S4x16384x128_S128_d0_1 h_S_
  have p_v10 : FVec F S128 .f32 := broadcastInDim S128 ![] bcast_S_S128 p_v8
  have p_v11 : FVec F S128 .f32 := Host.divf p_v9 p_v10
  have p_cst_3 : FVec F S_ .f32 := constant S_ .f32 0x00000000#32
  have p_v12 : IVec S_ 1 := cmpf .ogt p_v8 p_cst_3
  have p_cst_4 : FVec F S_ .f32 := constant S_ .f32 0x7FC00000#32
  have p_w0 : FVec F S_ .f32 := id p_cst_4
  have p_w1 : FVec F S128 .f32 := broadcastInDim S128 ![] bcast_S_S128 p_w0
  have v14 : FVec F S128 .f32 := select (broadcastInDim S128 ![] bcast_S_S128 p_v12) p_v11 p_w1
  have v15 : FVec F S1x1x128 .f32 := broadcastInDim S1x1x128 ![2] bcast_S128_S1x1x128_2 v13
  have v16 : FVec F S4x16384x128 .f32 := broadcastInDim S4x16384x128 ![0, 1, 2] bcast_S1x1x128_S4x16384x128_0_1_2 v15
  have v17 : FVec F S4x16384x128 .f32 := subf v10 v16
  have cst_3 : FVec F S_ .f32 := constant S_ .f32 0x3727C5AC#32
  have v18 : FVec F S128 .f32 := broadcastInDim S128 ![] bcast_S_S128 cst_3
  have v19 : FVec F S128 .f32 := addf v14 v18
  have v20 : FVec F S128 .f32 := Host.rsqrt v19
  have v21 : FVec F S1x1x128 .f32 := broadcastInDim S1x1x128 ![2] bcast_S128_S1x1x128_2 v20
  have v22 : FVec F S4x16384x128 .f32 := broadcastInDim S4x16384x128 ![0, 1, 2] bcast_S1x1x128_S4x16384x128_0_1_2 v21
  have v23 : FVec F S4x16384x128 .f32 := mulf v17 v22
  have v24 : FVec F S1x1x128 .f32 := broadcastInDim S1x1x128 ![2] bcast_S128_S1x1x128_2 a4
  have v25 : FVec F S4x16384x128 .f32 := broadcastInDim S4x16384x128 ![0, 1, 2] bcast_S1x1x128_S4x16384x128_0_1_2 v24
  have v26 : FVec F S4x16384x128 .f32 := mulf v23 v25
  have v27 : FVec F S1x1x128 .f32 := broadcastInDim S1x1x128 ![2] bcast_S128_S1x1x128_2 a5
  have v28 : FVec F S4x16384x128 .f32 := broadcastInDim S4x16384x128 ![0, 1, 2] bcast_S1x1x128_S4x16384x128_0_1_2 v27
  have v29 : FVec F S4x16384x128 .f32 := addf v26 v28
  have r_cst : FVec F S_ .f32 := constant S_ .f32 0x00000000#32
  have r_v0 : FVec F S4x16384x128 .f32 := broadcastInDim S4x16384x128 ![] bcast_S_S4x16384x128 r_cst
  have v30 : FVec F S4x16384x128 .f32 := maximumf v29 r_v0
  have v31 : FVec F S4x16384x64 .f32 := Host.dotGeneral dot_S4x16384x128_S64x128_S4x16384x64_2_1_01_0_n_n none v30 a6
  have v32 : FVec F S1x1x64 .f32 := broadcastInDim S1x1x64 ![2] bcast_S64_S1x1x64_2 a7
  have v33 : FVec F S4x16384x64 .f32 := broadcastInDim S4x16384x64 ![0, 1, 2] bcast_S1x1x64_S4x16384x64_0_1_2 v32
  have v34 : FVec F S4x16384x64 .f32 := addf v31 v33
  have cst_4 : FVec F S_ .f32 := constant S_ .f32 0x00000000#32
  have v35 : FVec F S64 .f32 := Host.reduceAdd v34 cst_4 reducesTo_S4x16384x64_S64_d0_1 h_S_
  have cst_5 : FVec F S_ .f32 := constant S_ .f32 0x47800000#32
  have v36 : FVec F S64 .f32 := broadcastInDim S64 ![] bcast_S_S64 cst_5
  have v37 : FVec F S64 .f32 := Host.divf v35 v36
  have c_6 : IVec S_ 32 := constantI S_ 32 0#32
  have q_cst : FVec F S_ .f32 := constant S_ .f32 0x00000000#32
  have q_v0 : FVec F S64 .f32 := Host.reduceAdd v34 q_cst reducesTo_S4x16384x64_S64_d0_1 h_S_
  have q_v1 : FVec F S1x1x64 .f32 := broadcastInDim S1x1x64 ![2] bcast_S64_S1x1x64_2 q_v0
  have q_cst_0 : FVec F S_ .f32 := constant S_ .f32 0x47800000#32
  have q_v2 : FVec F S1x1x64 .f32 := broadcastInDim S1x1x64 ![] bcast_S_S1x1x64 q_cst_0
  have q_v3 : FVec F S1x1x64 .f32 := Host.divf q_v1 q_v2
  have q_v4 : FVec F S4x16384x64 .f32 := broadcastInDim S4x16384x64 ![0, 1, 2] bcast_S1x1x64_S4x16384x64_0_1_2 q_v3
  have q_v5 : FVec F S4x16384x64 .f32 := subf v34 q_v4
  have q_v6 : FVec F S4x16384x64 .f32 := mulf q_v5 q_v5
  have q_v7 : FVec F S_ .f32 := sitofp .f32 c_6
  have q_cst_1 : FVec F S_ .f32 := constant S_ .f32 0x47800000#32
  have q_v8 : FVec F S_ .f32 := subf q_cst_1 q_v7
  have q_cst_2 : FVec F S_ .f32 := constant S_ .f32 0x00000000#32
  have q_v9 : FVec F S64 .f32 := Host.reduceAdd q_v6 q_cst_2 reducesTo_S4x16384x64_S64_d0_1 h_S_
  have q_v10 : FVec F S64 .f32 := broadcastInDim S64 ![] bcast_S_S64 q_v8
  have q_v11 : FVec F S64 .f32 := Host.divf q_v9 q_v10
  have q_cst_3 : FVec F S_ .f32 := constant S_ .f32 0x00000000#32
  have q_v12 : IVec S_ 1 := cmpf .ogt q_v8 q_cst_3
  have q_cst_4 : FVec F S_ .f32 := constant S_ .f32 0x7FC00000#32
  have q_w0 : FVec F S_ .f32 := id q_cst_4
  have q_w1 : FVec F S64 .f32 := broadcastInDim S64 ![] bcast_S_S64 q_w0
  have v38 : FVec F S64 .f32 := select (broadcastInDim S64 ![] bcast_S_S64 q_v12) q_v11 q_w1
  have v39 : FVec F S1x1x64 .f32 := broadcastInDim S1x1x64 ![2] bcast_S64_S1x1x64_2 v37
  have v40 : FVec F S4x16384x64 .f32 := broadcastInDim S4x16384x64 ![0, 1, 2] bcast_S1x1x64_S4x16384x64_0_1_2 v39
  have v41 : FVec F S4x16384x64 .f32 := subf v34 v40
  have cst_7 : FVec F S_ .f32 := constant S_ .f32 0x3727C5AC#32
  have v42 : FVec F S64 .f32 := broadcastInDim S64 ![] bcast_S_S64 cst_7
  have v43 : FVec F S64 .f32 := addf v38 v42
  have v44 : FVec F S64 .f32 := Host.rsqrt v43
  have v45 : FVec F S1x1x64 .f32 := broadcastInDim S1x1x64 ![2] bcast_S64_S1x1x64_2 v44
  have v46 : FVec F S4x16384x64 .f32 := broadcastInDim S4x16384x64 ![0, 1, 2] bcast_S1x1x64_S4x16384x64_0_1_2 v45
  have v47 : FVec F S4x16384x64 .f32 := mulf v41 v46
  have v48 : FVec F S1x1x64 .f32 := broadcastInDim S1x1x64 ![2] bcast_S64_S1x1x64_2 a8
  have v49 : FVec F S4x16384x64 .f32 := broadcastInDim S4x16384x64 ![0, 1, 2] bcast_S1x1x64_S4x16384x64_0_1_2 v48
  have v50 : FVec F S4x16384x64 .f32 := mulf v47 v49
  have v51 : FVec F S1x1x64 .f32 := broadcastInDim S1x1x64 ![2] bcast_S64_S1x1x64_2 a9
  have v52 : FVec F S4x16384x64 .f32 := broadcastInDim S4x16384x64 ![0, 1, 2] bcast_S1x1x64_S4x16384x64_0_1_2 v51
  have v53 : FVec F S4x16384x64 .f32 := addf v50 v52
  have s_cst : FVec F S_ .f32 := constant S_ .f32 0x00000000#32
  have s_v0 : FVec F S4x16384x64 .f32 := broadcastInDim S4x16384x64 ![] bcast_S_S4x16384x64 s_cst
  have v54 : FVec F S4x16384x64 .f32 := maximumf v53 s_v0
  have v55 : FVec F S4x16384x1024 .f32 := Host.dotGeneral dot_S4x16384x64_S1024x64_S4x16384x1024_2_1_01_0_n_n none v54 a10
  have v56 : FVec F S1x1x1024 .f32 := broadcastInDim S1x1x1024 ![2] bcast_S1024_S1x1x1024_2 a11
  have v57 : FVec F S4x16384x1024 .f32 := broadcastInDim S4x16384x1024 ![0, 1, 2] bcast_S1x1x1024_S4x16384x1024_0_1_2 v56
  have v58 : FVec F S4x16384x1024 .f32 := addf v55 v57
  have v59 : FVec F S4x16384x64 .f32 := Host.dotGeneral dot_S4x16384x1024_S4x64x1024_S4x16384x64_2_2_1_1_0_0 none v58 v0
  have cst_8 : FVec F S_ .f32 := constant S_ .f32 0x44800000#32
  have v60 : FVec F S4x16384x64 .f32 := broadcastInDim S4x16384x64 ![] bcast_S_S4x16384x64 cst_8
  have v61 : FVec F S4x16384x64 .f32 := Host.divf v59 v60
  v61

end Cert.ReferenceIdeal.RefTerm

end
-- ==== Proof.Ref.Run.lean ====
import proofs.«121860_j42219528520113_1_alg».proof.Proof.Ref.Ops
import proofs.«121860_j42219528520113_1_alg».proof.Proof.Ref.Term
import Idealize.ShloMosaic.Lib.StableHlo.Run
import Idealize.ShloMosaic.Lib.Pipeline.Frame
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsHead_sub op h, List.forall_iff_forall_mem.mp opsFirst_sub op h,
      List.forall_iff_forall_mem.mp opsSecond_sub op h]

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
theorem arg0_eq (V : Valuation τ sig (Elt F)) : after ops V (main_arg0 : DevRef τ sig) = V (main_arg0 : DevRef τ sig) := by
  simp only [ops, after_append]; after_results_simp

set_option maxRecDepth 8192 in
set_option maxHeartbeats 4000000 in
theorem arg1_eq (V : Valuation τ sig (Elt F)) : after ops V (main_arg1 : DevRef τ sig) = V (main_arg1 : DevRef τ sig) := by
  simp only [ops, after_append]; after_results_simp

set_option maxRecDepth 8192 in
set_option maxHeartbeats 4000000 in
theorem arg2_eq (V : Valuation τ sig (Elt F)) : after ops V (main_arg2 : DevRef τ sig) = V (main_arg2 : DevRef τ sig) := by
  simp only [ops, after_append]; after_results_simp

set_option maxRecDepth 8192 in
set_option maxHeartbeats 4000000 in
theorem arg3_eq (V : Valuation τ sig (Elt F)) : after ops V (main_arg3 : DevRef τ sig) = V (main_arg3 : DevRef τ sig) := by
  simp only [ops, after_append]; after_results_simp

set_option maxRecDepth 8192 in
set_option maxHeartbeats 4000000 in
theorem arg4_eq (V : Valuation τ sig (Elt F)) : after ops V (main_arg4 : DevRef τ sig) = V (main_arg4 : DevRef τ sig) := by
  simp only [ops, after_append]; after_results_simp

set_option maxRecDepth 8192 in
set_option maxHeartbeats 4000000 in
theorem arg5_eq (V : Valuation τ sig (Elt F)) : after ops V (main_arg5 : DevRef τ sig) = V (main_arg5 : DevRef τ sig) := by
  simp only [ops, after_append]; after_results_simp

set_option maxRecDepth 8192 in
set_option maxHeartbeats 4000000 in
theorem arg6_eq (V : Valuation τ sig (Elt F)) : after ops V (main_arg6 : DevRef τ sig) = V (main_arg6 : DevRef τ sig) := by
  simp only [ops, after_append]; after_results_simp

set_option maxRecDepth 8192 in
set_option maxHeartbeats 4000000 in
theorem arg7_eq (V : Valuation τ sig (Elt F)) : after ops V (main_arg7 : DevRef τ sig) = V (main_arg7 : DevRef τ sig) := by
  simp only [ops, after_append]; after_results_simp

set_option maxRecDepth 8192 in
set_option maxHeartbeats 4000000 in
theorem arg8_eq (V : Valuation τ sig (Elt F)) : after ops V (main_arg8 : DevRef τ sig) = V (main_arg8 : DevRef τ sig) := by
  simp only [ops, after_append]; after_results_simp

set_option maxRecDepth 8192 in
set_option maxHeartbeats 4000000 in
theorem arg9_eq (V : Valuation τ sig (Elt F)) : after ops V (main_arg9 : DevRef τ sig) = V (main_arg9 : DevRef τ sig) := by
  simp only [ops, after_append]; after_results_simp

set_option maxRecDepth 8192 in
set_option maxHeartbeats 4000000 in
theorem arg10_eq (V : Valuation τ sig (Elt F)) : after ops V (main_arg10 : DevRef τ sig) = V (main_arg10 : DevRef τ sig) := by
  simp only [ops, after_append]; after_results_simp

set_option maxRecDepth 8192 in
set_option maxHeartbeats 4000000 in
theorem arg11_eq (V : Valuation τ sig (Elt F)) : after ops V (main_arg11 : DevRef τ sig) = V (main_arg11 : DevRef τ sig) := by
  simp only [ops, after_append]; after_results_simp

set_option maxRecDepth 16384 in
set_option maxHeartbeats 40000000 in
theorem result_eq (V : Valuation τ sig (Elt F)) :
    after ops V (main_v61 : DevRef τ sig) = RefTerm.result (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  simp only [ops, after_append]
  generalize hFirst : after opsFirst (after opsHead V) = V₂
  after_results_simp
  subst hFirst
  generalize hHead : after opsHead V = V₁
  after_results_simp
  subst hHead
  after_results
  rfl

theorem run_gen (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v61) = RefTerm.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v61).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run_after m ρ)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v61) = RefTerm.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_gen m ρ

end Cert.ReferenceIdeal.RefRun

end
-- ==== Proof.Ref.Read.lean ====
import proofs.«121860_j42219528520113_1_alg».proof.Proof.Ref.Term
import proofs.«121860_j42219528520113_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«121860_j42219528520113_1_alg».proof.Proof.ImFlat

noncomputable section

namespace Cert.ReferenceIdeal.RefRead

open Idealize.ShloMosaic Idealize.ShloMosaic.ValueIdx
open Cert.ReferenceIdeal
open scoped BigOperators

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

-- Summing over rank-3 indices is summing over the three coordinates in turn.
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

abbrev Pts (N : ℕ) : Shape := ⟨3, ![4, 16384, N]⟩
abbrev Row (N : ℕ) : Shape := ⟨3, ![1, 1, N]⟩
abbrev Vec (N : ℕ) : Shape := ⟨1, ![N]⟩

variable {N : ℕ}

-- Dropping (batch, point) sends an index to its channel, so channel o collects exactly the entries (b, n, o).
theorem sum_pts (h : (Pts N).ReducesTo [0, 1] (Vec N)) (x : (Pts N).Idx → EReal) (init : EReal) (o : Fin N) :
    Ideal.hostReduceAdd h x init (ix1 o) = init + ∑ b : Fin 4, ∑ n : Fin 16384, x (ix3 b n o) := by
  unfold Ideal.hostReduceAdd
  refine congrArg (init + ·) ?_
  rw [Finset.sum_filter, sum_idx3]
  refine Finset.sum_congr rfl fun b _ => Finset.sum_congr rfl fun n _ => ?_
  have key : ∀ c : Fin N, h.drop (ix3 b n c) = ix1 o ↔ c = o := fun c =>
    ⟨fun e => Fin.ext (congrArg (fun j : (Vec N).Idx => (j 0).val) e),
      fun e => funext fun a => match a with | ⟨0, _⟩ => Fin.ext (congrArg Fin.val e)⟩
  rw [Finset.sum_eq_single o (fun c _ hc => if_neg fun e => hc ((key c).mp e)) (fun hn => absurd (Finset.mem_univ o) hn)]
  exact if_pos ((key o).mpr rfl)

theorem hostReduceAdd_pix (h' : (⟨3, ![4, 64, 1024]⟩ : Shape).ReducesTo [2] (⟨2, ![4, 64]⟩ : Shape))
    (x : (⟨3, ![4, 64, 1024]⟩ : Shape).Idx → EReal) (init : EReal) (b : Fin 4) (c : Fin 64) :
    Ideal.hostReduceAdd h' x init (ix2 b c) = init + ∑ k : Fin 1024, x (ix3 b c k) := by
  have h : (⟨3, ![4, 64, 1024]⟩ : Shape).Reduces [2] (⟨2, ![4, 64]⟩ : Shape) := by decide
  refine (Ideal.hostReduceAdd_single h' h x init (ix2 b c)).trans ?_
  refine congrArg (init + ·) (Finset.sum_congr rfl fun k _ => congrArg x ?_)
  funext a
  match a with
  | ⟨0, _⟩ => rfl
  | ⟨1, _⟩ => rfl
  | ⟨2, _⟩ => rfl

theorem chan_val (o : Fin N) : o.val = if N = 1 then 0 else o.val := by
  have := o.isLt
  split <;> omega

-- Broadcasting a channel vector to [1, 1, N] and then to every (batch, point) leaves entry o at (b, n, o).
theorem up_apply {α : Type} (h : (Vec N).BroadcastsInDim (Row N) (![2] : Fin 1 → Fin (Row N).rank)) (x : (Vec N).Idx → α)
    (u v : Fin 1) (o : Fin N) : broadcastInDim (Row N) ![2] h x (ix3 u v o) = x (ix1 o) :=
  broadcastInDim_apply _ h x (ix3 u v o) (ix1 o) (fun a => match a with | ⟨0, _⟩ => chan_val o)

theorem bc_apply {α : Type} (h : (Row N).BroadcastsInDim (Pts N) (![0, 1, 2] : Fin 3 → Fin (Pts N).rank))
    (y : (Row N).Idx → α) (b : Fin 4) (n : Fin 16384) (o : Fin N) :
    broadcastInDim (Pts N) ![0, 1, 2] h y (ix3 b n o) = y (ix3 0 0 o) :=
  broadcastInDim_apply _ h y (ix3 b n o) (ix3 0 0 o) (fun a => match a with | ⟨0, _⟩ => rfl | ⟨1, _⟩ => rfl | ⟨2, _⟩ => chan_val o)

theorem row_apply {α : Type} (h1 : (Vec N).BroadcastsInDim (Row N) (![2] : Fin 1 → Fin (Row N).rank))
    (h2 : (Row N).BroadcastsInDim (Pts N) (![0, 1, 2] : Fin 3 → Fin (Pts N).rank)) (x : (Vec N).Idx → α)
    (b : Fin 4) (n : Fin 16384) (o : Fin N) :
    broadcastInDim (Pts N) ![0, 1, 2] h2 (broadcastInDim (Row N) ![2] h1 x) (ix3 b n o) = x (ix1 o) :=
  (bc_apply h2 _ b n o).trans (up_apply h1 x 0 0 o)

theorem poolUp_apply {α : Type} (h : S4x64.BroadcastsInDim S4x1x64 (![0, 2] : Fin 2 → Fin S4x1x64.rank)) (x : S4x64.Idx → α)
    (b : Fin 4) (u : Fin 1) (c : Fin 64) : broadcastInDim S4x1x64 ![0, 2] h x (ix3 b u c) = x (ix2 b c) :=
  broadcastInDim_apply _ h x (ix3 b u c) (ix2 b c) (fun a => match a with | ⟨0, _⟩ => rfl | ⟨1, _⟩ => rfl)

theorem poolBc_apply {α : Type} (h : S4x1x64.BroadcastsInDim S4x16384x64 (![0, 1, 2] : Fin 3 → Fin S4x16384x64.rank))
    (y : S4x1x64.Idx → α) (b : Fin 4) (n : Fin 16384) (c : Fin 64) :
    broadcastInDim S4x16384x64 ![0, 1, 2] h y (ix3 b n c) = y (ix3 b 0 c) :=
  broadcastInDim_apply _ h y (ix3 b n c) (ix3 b 0 c) (fun a => match a with | ⟨0, _⟩ => rfl | ⟨1, _⟩ => rfl | ⟨2, _⟩ => rfl)

theorem join_apply {α : Type} (h : Shape.Concatenates [S4x16384x64, S4x16384x64] S4x16384x128 2) (x₁ x₂ : S4x16384x64.Idx → α)
    (b : Fin 4) (n : Fin 16384) (j : Fin 128) :
    concatenate S4x16384x128 2 [⟨S4x16384x64, x₁⟩, ⟨S4x16384x64, x₂⟩] h (ix3 b n j)
      = if hj : j.val < 64 then x₁ (ix3 b n ⟨j.val, hj⟩) else x₂ (ix3 b n ⟨j.val - 64, by have := j.isLt; omega⟩) := by
  by_cases hj : j.val < 64
  · rw [dif_pos hj]
    exact concatenate_pair_apply_left 2 x₁ x₂ h (ix3 b n j) rfl (ix3 b n ⟨j.val, hj⟩)
      (fun a => match a with | ⟨0, _⟩ => rfl | ⟨1, _⟩ => rfl | ⟨2, _⟩ => rfl)
  · rw [dif_neg hj]
    exact concatenate_pair_apply_right 2 x₁ x₂ h (ix3 b n j) rfl rfl (ix3 b n ⟨j.val - 64, by have := j.isLt; omega⟩)
      (fun a hne => match a, hne with
        | ⟨0, _⟩, _ => rfl
        | ⟨1, _⟩, _ => rfl
        | ⟨2, _⟩, hne => absurd rfl hne)
      (by show (j.val - 64) + 64 = j.val; omega)

section Contr
variable {sl sr so : Shape} (d : DotDims sl sr so) {cl : Fin sl.rank} (hlc : d.lhsContracting = [cl])
include hlc

-- With a single contracted axis the contraction index has one coordinate, ranging over that axis.
theorem contr_rank : d.contr.rank = 1 := by rw [d.rank_contr, hlc]; rfl

theorem contr_size : d.contr.size ⟨0, by rw [contr_rank d hlc]; exact Nat.one_pos⟩ = sl.size cl := by
  rw [d.size_contr 0 (by rw [hlc]; exact Nat.one_pos)]
  simp [hlc]

end Contr

section Dot32
variable {K O : ℕ} (wf : DotDims.WF (Pts K) (⟨2, ![O, K]⟩ : Shape) (Pts O) [2] [1] [0, 1] [0] [] [])

abbrev d32 : DotDims (Pts K) (⟨2, ![O, K]⟩ : Shape) (Pts O) := ⟨[2], [1], [0, 1], [0], [], [], wf⟩

def e32 : (d32 wf).contr.Idx ≃ Fin K := contrEquiv1 (d32 wf) K (contr_rank (d32 wf) rfl) (contr_size (d32 wf) rfl)

-- [4, 16384, K] against [O, K] on their last axes: entry (b, n, o) is the sum over k of l(b, n, k) r(o, k).
theorem d32_apply {φ₁ φ₂ : FTy} (prec : Option ContractPrecision) (l : FVec Ideal (Pts K) φ₁) (r : FVec Ideal (⟨2, ![O, K]⟩ : Shape) φ₂)
    (b : Fin 4) (n : Fin 16384) (o : Fin O) :
    Host.dotGeneral (d32 wf) prec l r (ix3 b n o) = ∑ k : Fin K, l (ix3 b n k) * r (ix2 o k) := by
  refine (Ideal.dotGeneral_apply (d32 wf) prec .single l r (ix3 b n o)).trans ?_
  rw [← Equiv.sum_comp (e32 wf).symm]
  refine Finset.sum_congr rfl fun k _ => ?_
  have hk : (((e32 wf).symm k) ⟨0, by rw [contr_rank (d32 wf) rfl]; exact Nat.one_pos⟩ : ℕ) = k.val :=
    contrEquiv1_symm_val (d32 wf) K (contr_rank (d32 wf) rfl) (contr_size (d32 wf) rfl) k
  have el : (d32 wf).lhsIdx (ix3 b n o) ((e32 wf).symm k) = ix3 b n k := by
    funext a; apply Fin.ext
    match a with
    | ⟨0, _⟩ => rfl
    | ⟨1, _⟩ => rfl
    | ⟨2, _⟩ => exact ((d32 wf).lhsIdx_val_of_single rfl _ _).trans hk
  have er : (d32 wf).rhsIdx (ix3 b n o) ((e32 wf).symm k) = ix2 o k := by
    funext a; apply Fin.ext
    match a with
    | ⟨0, _⟩ => rfl
    | ⟨1, _⟩ => exact ((d32 wf).rhsIdx_val_of_single rfl _ _).trans hk
  rw [el, er]

end Dot32

section DotB
variable (wf : DotDims.WF (Pts 1024) (⟨3, ![4, 64, 1024]⟩ : Shape) (Pts 64) [2] [2] [1] [1] [0] [0])

abbrev dB : DotDims (Pts 1024) (⟨3, ![4, 64, 1024]⟩ : Shape) (Pts 64) := ⟨[2], [2], [1], [1], [0], [0], wf⟩

def eB : (dB wf).contr.Idx ≃ Fin 1024 := contrEquiv1 (dB wf) 1024 (contr_rank (dB wf) rfl) (contr_size (dB wf) rfl)

-- [4, 16384, 1024] against [4, 64, 1024] with the batch axis shared: entry (b, n, c) is the sum over k of l(b, n, k) r(b, c, k).
theorem db_apply {φ₁ φ₂ : FTy} (prec : Option ContractPrecision) (l : FVec Ideal (Pts 1024) φ₁)
    (r : FVec Ideal (⟨3, ![4, 64, 1024]⟩ : Shape) φ₂) (b : Fin 4) (n : Fin 16384) (c : Fin 64) :
    Host.dotGeneral (dB wf) prec l r (ix3 b n c) = ∑ k : Fin 1024, l (ix3 b n k) * r (ix3 b c k) := by
  refine (Ideal.dotGeneral_apply (dB wf) prec .single l r (ix3 b n c)).trans ?_
  rw [← Equiv.sum_comp (eB wf).symm]
  refine Finset.sum_congr rfl fun k _ => ?_
  have hk : (((eB wf).symm k) ⟨0, by rw [contr_rank (dB wf) rfl]; exact Nat.one_pos⟩ : ℕ) = k.val :=
    contrEquiv1_symm_val (dB wf) 1024 (contr_rank (dB wf) rfl) (contr_size (dB wf) rfl) k
  have el : (dB wf).lhsIdx (ix3 b n c) ((eB wf).symm k) = ix3 b n k := by
    funext a; apply Fin.ext
    match a with
    | ⟨0, _⟩ => rfl
    | ⟨1, _⟩ => rfl
    | ⟨2, _⟩ => exact ((dB wf).lhsIdx_val_of_single rfl _ _).trans hk
  have er : (dB wf).rhsIdx (ix3 b n c) ((eB wf).symm k) = ix3 b c k := by
    funext a; apply Fin.ext
    match a with
    | ⟨0, _⟩ => rfl
    | ⟨1, _⟩ => rfl
    | ⟨2, _⟩ => exact ((dB wf).rhsIdx_val_of_single rfl _ _).trans hk
  rw [el, er]

end DotB

theorem cnt_eq : Ideal.ofBits .f32 0x47800000#32 = ((65536 : ℝ) : EReal) := by
  simp [Ideal.ofBits, Ideal.ieee, -EReal.coe_mul]; norm_num

theorem cnt_pos : (0 : EReal) < Cert.Spec.cnt := by
  show (0 : EReal) < Ideal.ofBits .f32 0x47800000#32
  rw [cnt_eq]; exact EReal.coe_pos.mpr (by norm_num)

theorem cmp_cnt : FloatOps.cmpf (F := Ideal) (φ := .f32) .ogt Cert.Spec.cnt 0 = 1#1 := by
  show BitVec.ofBool (decide ((0 : EReal) < Cert.Spec.cnt)) = 1#1
  rw [decide_eq_true cnt_pos]; rfl

theorem hostRsqrt_apply {s : Shape} {φ : FTy} (x : FVec Ideal s φ) (i : s.Idx) : Host.rsqrt x i = Ideal.rsqrt (x i) := rfl

def cntT : FVec Ideal S_ .f32 := subf (constant (F := Ideal) S_ .f32 0x47800000#32) (sitofp .f32 (constantI S_ 32 0#32))

-- Subtracting the conversion of the integer 0 leaves 65536.
theorem cntT_apply (i : S_.Idx) : cntT i = Cert.Spec.cnt := by
  show Ideal.ofBits .f32 0x47800000#32 - (((0#32 : BitVec 32).toInt : ℝ) : EReal) = Ideal.ofBits .f32 0x47800000#32
  simp

-- Each image channel averaged over its 1024 pixels.
theorem pool_stage {hr : S4x64x1024.ReducesTo [2] S4x64} {hS : 0 < S_.numel} {hb : S_.BroadcastsInDim S4x64 (![] : Fin 0 → Fin S4x64.rank)}
    {v0 : FVec Ideal S4x64x1024 .f32} {Im : Fin 4 → Fin 64 → Fin 1024 → EReal} (hIm : ∀ b c k, v0 (ix3 b c k) = Im b c k) (b : Fin 4) (c : Fin 64) :
    Host.divf (Host.reduceAdd v0 (constant (F := Ideal) S_ .f32 0x00000000#32) hr hS)
      (broadcastInDim S4x64 ![] hb (constant (F := Ideal) S_ .f32 0x44800000#32)) (ix2 b c) = Cert.Spec.pool Im b c := by
  rw [hostDivf_apply, hostReduceAdd_apply, hostReduceAdd_pix, broadcastInDim_scalar_apply, constant_apply, constant_apply,
    Ideal.ofBits_zero_f32]
  simp only [hIm]
  rfl

-- Channels below 64 of the joined array carry the pooled feature, the remaining 64 the point's own features.
theorem join_stage {hu : S4x64.BroadcastsInDim S4x1x64 (![0, 2] : Fin 2 → Fin S4x1x64.rank)}
    {hbc : S4x1x64.BroadcastsInDim S4x16384x64 (![0, 1, 2] : Fin 3 → Fin S4x16384x64.rank)}
    {hc : Shape.Concatenates [S4x16384x64, S4x16384x64] S4x16384x128 2}
    {v3 : FVec Ideal S4x64 .f32} {a0 : FVec Ideal S4x16384x64 .f32}
    {P : Fin 4 → Fin 64 → EReal} (hP : ∀ b c, v3 (ix2 b c) = P b c) (b : Fin 4) (n : Fin 16384) (j : Fin 128) :
    concatenate S4x16384x128 2 [⟨S4x16384x64, broadcastInDim S4x16384x64 ![0, 1, 2] hbc (broadcastInDim S4x1x64 ![0, 2] hu v3)⟩,
      ⟨S4x16384x64, a0⟩] hc (ix3 b n j)
      = if h : j.val < 64 then P b ⟨j.val, h⟩ else a0 (ix3 b n ⟨j.val - 64, by have := j.isLt; omega⟩) := by
  rw [join_apply]
  by_cases hj : j.val < 64
  · rw [dif_pos hj, dif_pos hj, poolBc_apply, poolUp_apply, hP]
  · rw [dif_neg hj, dif_neg hj]

variable {K : ℕ}

-- Weight product plus broadcast bias: an affine map of the channels at every point.
theorem lin_stage {wf : DotDims.WF (Pts K) (⟨2, ![N, K]⟩ : Shape) (Pts N) [2] [1] [0, 1] [0] [] []}
    {hup : (Vec N).BroadcastsInDim (Row N) (![2] : Fin 1 → Fin (Row N).rank)}
    {hbc : (Row N).BroadcastsInDim (Pts N) (![0, 1, 2] : Fin 3 → Fin (Pts N).rank)}
    {x : FVec Ideal (Pts K) .f32} {w : FVec Ideal (⟨2, ![N, K]⟩ : Shape) .f32} {bias : FVec Ideal (Vec N) .f32}
    {J : Fin 4 → Fin 16384 → Fin K → EReal} (hJ : ∀ b n j, x (ix3 b n j) = J b n j) (b : Fin 4) (n : Fin 16384) (o : Fin N) :
    addf (Host.dotGeneral (d32 wf) none x w) (broadcastInDim (Pts N) ![0, 1, 2] hbc (broadcastInDim (Row N) ![2] hup bias)) (ix3 b n o)
      = (∑ j : Fin K, J b n j * w (ix2 o j)) + bias (ix1 o) := by
  rw [addf_apply, d32_apply, row_apply]
  simp only [hJ]

section Layer
variable (hr : (Pts N).ReducesTo [0, 1] (Vec N)) (hS : 0 < S_.numel)
  (hup : (Vec N).BroadcastsInDim (Row N) (![2] : Fin 1 → Fin (Row N).rank))
  (hs11 : S_.BroadcastsInDim (Row N) (![] : Fin 0 → Fin (Row N).rank))
  (hbc : (Row N).BroadcastsInDim (Pts N) (![0, 1, 2] : Fin 3 → Fin (Pts N).rank))
  (hb : S_.BroadcastsInDim (Vec N) (![] : Fin 0 → Fin (Vec N).rank))
  (hbig : S_.BroadcastsInDim (Pts N) (![] : Fin 0 → Fin (Pts N).rank))

def sumT (y : FVec Ideal (Pts N) .f32) : FVec Ideal (Vec N) .f32 :=
  Host.reduceAdd y (constant (F := Ideal) S_ .f32 0x00000000#32) hr hS

def rowT (x : FVec Ideal (Vec N) .f32) : FVec Ideal (Pts N) .f32 :=
  broadcastInDim (Pts N) ![0, 1, 2] hbc (broadcastInDim (Row N) ![2] hup x)

def meanT (y : FVec Ideal (Pts N) .f32) : FVec Ideal (Vec N) .f32 :=
  Host.divf (sumT hr hS y) (broadcastInDim (Vec N) ![] hb (constant (F := Ideal) S_ .f32 0x47800000#32))

def devT (y : FVec Ideal (Pts N) .f32) : FVec Ideal (Pts N) .f32 :=
  subf y (broadcastInDim (Pts N) ![0, 1, 2] hbc (Host.divf (broadcastInDim (Row N) ![2] hup (sumT hr hS y))
    (broadcastInDim (Row N) ![] hs11 (constant (F := Ideal) S_ .f32 0x47800000#32))))

def varT (y : FVec Ideal (Pts N) .f32) (w : FVec Ideal (Vec N) .f32) : FVec Ideal (Vec N) .f32 :=
  select (broadcastInDim (Vec N) ![] hb (cmpf .ogt cntT (constant (F := Ideal) S_ .f32 0x00000000#32)))
    (Host.divf (sumT hr hS (mulf (devT hr hS hup hs11 hbc y) (devT hr hS hup hs11 hbc y))) (broadcastInDim (Vec N) ![] hb cntT)) w

def bnT (y : FVec Ideal (Pts N) .f32) (m v g be : FVec Ideal (Vec N) .f32) : FVec Ideal (Pts N) .f32 :=
  maximumf (addf (mulf (mulf (subf y (rowT hup hbc m)) (rowT hup hbc (Host.rsqrt (addf v (broadcastInDim (Vec N) ![] hb
    (constant (F := Ideal) S_ .f32 0x3727C5AC#32)))))) (rowT hup hbc g)) (rowT hup hbc be))
    (broadcastInDim (Pts N) ![] hbig (constant (F := Ideal) S_ .f32 0x00000000#32))

theorem sumT_apply (y : FVec Ideal (Pts N) .f32) (o : Fin N) :
    sumT hr hS y (ix1 o) = 0 + ∑ b : Fin 4, ∑ n : Fin 16384, y (ix3 b n o) := by
  unfold sumT
  rw [hostReduceAdd_apply, sum_pts, constant_apply, Ideal.ofBits_zero_f32]

theorem rowT_apply (x : FVec Ideal (Vec N) .f32) (b : Fin 4) (n : Fin 16384) (o : Fin N) : rowT hup hbc x (ix3 b n o) = x (ix1 o) :=
  row_apply hup hbc x b n o

variable {y : FVec Ideal (Pts N) .f32} {Y : Fin 4 → Fin 16384 → Fin N → EReal} (hY : ∀ b n o, y (ix3 b n o) = Y b n o)
include hY

theorem meanT_apply (o : Fin N) : meanT hr hS hb y (ix1 o) = Cert.Spec.muR Y o := by
  unfold meanT
  rw [hostDivf_apply, sumT_apply, broadcastInDim_scalar_apply, constant_apply]
  simp only [hY]
  rfl

theorem devT_apply (b : Fin 4) (n : Fin 16384) (o : Fin N) : devT hr hS hup hs11 hbc y (ix3 b n o) = Y b n o - Cert.Spec.muR Y o := by
  unfold devT
  rw [subf_apply, bc_apply, hostDivf_apply, up_apply, sumT_apply, broadcastInDim_scalar_apply, constant_apply]
  simp only [hY]
  rfl

-- Since 65536 > 0 the select returns its first branch, the mean squared deviation.
theorem varT_apply (w : FVec Ideal (Vec N) .f32) (o : Fin N) : varT hr hS hup hs11 hbc hb y w (ix1 o) = Cert.Spec.varR Y o := by
  have hbit : ∀ i, cmpf .ogt cntT (constant (F := Ideal) S_ .f32 0x00000000#32) i = 1#1 := fun i => by
    rw [cmpf_apply, cntT_apply, constant_apply, Ideal.ofBits_zero_f32]
    exact cmp_cnt
  unfold varT
  rw [select_apply, broadcastInDim_scalar_apply, hbit, select_one, hostDivf_apply, sumT_apply, broadcastInDim_scalar_apply, cntT_apply]
  simp only [mulf_apply, devT_apply hr hS hup hs11 hbc hY]
  rfl

variable {hr hS hup hs11 hbc hb hbig}

-- A normalisation layer is bnrelu of the entry with the array's own channel mean and variance.
theorem layer_stage {w g be : FVec Ideal (Vec N) .f32} (b : Fin 4) (n : Fin 16384) (o : Fin N) :
    bnT hup hbc hb hbig y (meanT hr hS hb y) (varT hr hS hup hs11 hbc hb y w) g be (ix3 b n o)
      = Cert.Spec.bnrelu (Y b n o) (Cert.Spec.muR Y o) (Cert.Spec.varR Y o) (g (ix1 o)) (be (ix1 o)) := by
  unfold bnT
  rw [maximumf_apply, addf_apply, mulf_apply, mulf_apply, subf_apply, hY, rowT_apply, meanT_apply hr hS hb hY, rowT_apply,
    hostRsqrt_apply, addf_apply, varT_apply hr hS hup hs11 hbc hb hY, broadcastInDim_scalar_apply, constant_apply, rowT_apply,
    rowT_apply, broadcastInDim_scalar_apply, constant_apply, Ideal.ofBits_zero_f32]
  rfl

end Layer

-- The logits contracted with the image over the pixels, then divided by 1024.
theorem out_stage {wf : DotDims.WF (Pts 1024) (⟨3, ![4, 64, 1024]⟩ : Shape) (Pts 64) [2] [2] [1] [1] [0] [0]}
    {hb : S_.BroadcastsInDim (Pts 64) (![] : Fin 0 → Fin (Pts 64).rank)}
    {x : FVec Ideal (Pts 1024) .f32} {im : FVec Ideal (⟨3, ![4, 64, 1024]⟩ : Shape) .f32}
    {Xf : Fin 4 → Fin 16384 → Fin 1024 → EReal} (hX : ∀ b n k, x (ix3 b n k) = Xf b n k)
    {Imf : Fin 4 → Fin 64 → Fin 1024 → EReal} (hIm : ∀ b c k, im (ix3 b c k) = Imf b c k)
    (b : Fin 4) (n : Fin 16384) (c : Fin 64) :
    Host.divf (Host.dotGeneral (dB wf) none x im) (broadcastInDim (Pts 64) ![] hb (constant (F := Ideal) S_ .f32 0x44800000#32)) (ix3 b n c)
      = Ideal.div (∑ k : Fin 1024, Xf b n k * Imf b c k) (Ideal.ofBits .f32 0x44800000#32) := by
  rw [hostDivf_apply, db_apply, broadcastInDim_scalar_apply, constant_apply]
  simp only [hX, hIm]

variable [Facts]

-- The stages compose: each one's operand is the previous stage's value, from the last operation back to the inputs.
theorem result_apply (a0 : FVec Ideal S4x16384x64 .f32) (a1 : FVec Ideal S4x64x16x64 .f32) (a2 : FVec Ideal S128x128 .f32)
    (a3 a4 a5 : FVec Ideal S128 .f32) (a6 : FVec Ideal S64x128 .f32) (a7 a8 a9 : FVec Ideal S64 .f32)
    (a10 : FVec Ideal S1024x64 .f32) (a11 : FVec Ideal S1024 .f32)
    (b : Fin 4) (n : Fin 16384) (q : Fin 64) :
    RefTerm.result (F := Ideal) a0 a1 a2 a3 a4 a5 a6 a7 a8 a9 a10 a11 (ValueIdx.ix3 b n q)
      = Cert.Spec.outR (fun b n c => a0 (ValueIdx.ix3 b n c)) (Cert.Spec.imOf a1) (fun o j => a2 (ValueIdx.ix2 o j))
          (fun o => a3 (ValueIdx.ix1 o)) (fun o => a4 (ValueIdx.ix1 o)) (fun o => a5 (ValueIdx.ix1 o))
          (fun o j => a6 (ValueIdx.ix2 o j)) (fun o => a7 (ValueIdx.ix1 o)) (fun o => a8 (ValueIdx.ix1 o))
          (fun o => a9 (ValueIdx.ix1 o)) (fun k j => a10 (ValueIdx.ix2 k j)) (fun k => a11 (ValueIdx.ix1 k)) b n q := by
  refine out_stage (fun b n k => ?_) (Cert.ImFlat.shapeCast_apply a1 _) b n q
  refine lin_stage (fun b n o => ?_) b n k
  refine layer_stage (fun b n o => ?_) b n o
  refine lin_stage (fun b n o => ?_) b n o
  refine layer_stage (fun b n o => ?_) b n o
  refine lin_stage (fun b n j => ?_) b n o
  exact join_stage (pool_stage (Cert.ImFlat.shapeCast_apply a1 _)) b n j

end Cert.ReferenceIdeal.RefRead

end
-- ==== Proof.Algebra.Stats.lean ====
import proofs.«121860_j42219528520113_1_alg».proof.Proof.Spec

noncomputable section

namespace Cert.Spec

open Idealize.ShloMosaic

theorem cnt_eq : cnt = ((65536 : ℝ) : EReal) := by
  simp [Ideal.ofBits, Ideal.ieee]
  rw [← EReal.coe_mul]
  norm_num

theorem npix_eq : npix = ((1024 : ℝ) : EReal) := by
  simp [Ideal.ofBits, Ideal.ieee]
  rw [← EReal.coe_mul]
  norm_num

theorem invpix_eq : invpix = ((1 / 1024 : ℝ) : EReal) := by
  have h : invpix = (((8388608 : ℝ) * ((2 : ℝ) ^ 33)⁻¹ : ℝ) : EReal) := by
    simp [Ideal.ofBits, Ideal.ieee]
  rw [h]
  congr 1
  norm_num

theorem eps_pos : ∃ e : ℝ, 0 < e ∧ eps = (e : EReal) := by
  refine ⟨(10995116 : ℝ) * ((2 : ℝ) ^ 40)⁻¹, by positivity, ?_⟩
  simp [Ideal.ofBits, Ideal.ieee]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

def blockEquiv : Fin 32 × Fin 2048 ≃ Fin 4 × Fin 16384 where
  toFun p := (tb p.1, tn p.1 p.2)
  invFun q := (⟨q.1.val * 8 + q.2.val / 2048, by have := q.1.isLt; have := q.2.isLt; omega⟩,
    ⟨q.2.val % 2048, Nat.mod_lt _ (by norm_num)⟩)
  left_inv := by
    rintro ⟨⟨t, ht⟩, ⟨r, hr⟩⟩
    simp only [tb, tn, Prod.mk.injEq, Fin.mk.injEq]
    constructor <;> omega
  right_inv := by
    rintro ⟨⟨b, hb⟩, ⟨n, hn⟩⟩
    simp only [tb, tn, Prod.mk.injEq, Fin.mk.injEq]
    constructor <;> omega

theorem sumK_eq_sumR (y : Fin 4 → Fin 16384 → EReal) : sumK y = sumR y := by
  unfold sumK sumR
  rw [zero_add, ← Fintype.sum_prod_type' (f := fun t r => y (tb t) (tn t r)),
    ← Fintype.sum_prod_type' (f := fun b n => y b n)]
  exact Fintype.sum_equiv blockEquiv _ _ (fun _ => rfl)

theorem muK_eq_muR {N : ℕ} (y : Fin 4 → Fin 16384 → Fin N → EReal) (o : Fin N) : muK y o = muR y o := by
  unfold muK muR
  rw [sumK_eq_sumR]

theorem var_identity {ι : Type*} (s : Finset ι) (f : ι → ℝ) (c : ℝ) (hc : c ≠ 0) (hcard : (s.card : ℝ) = c) :
    (∑ i ∈ s, (f i - (∑ j ∈ s, f j) / c) * (f i - (∑ j ∈ s, f j) / c)) / c
      = (∑ i ∈ s, f i * f i) / c - ((∑ j ∈ s, f j) / c) * ((∑ j ∈ s, f j) / c) := by
  set S := ∑ j ∈ s, f j with hS
  have h1 : ∑ i ∈ s, (f i - S / c) * (f i - S / c)
      = ∑ i ∈ s, f i * f i - 2 * (S / c) * S + c * ((S / c) * (S / c)) := by
    have : ∀ i, (f i - S / c) * (f i - S / c) = f i * f i - 2 * (S / c) * f i + (S / c) * (S / c) := fun i => by ring
    simp only [this, Finset.sum_add_distrib, Finset.sum_sub_distrib, ← Finset.mul_sum, Finset.sum_const, nsmul_eq_mul,
      hcard, ← hS]
    ring
  rw [h1]
  field_simp
  ring

def mean (g : Fin 4 → Fin 16384 → ℝ) : ℝ := (∑ b, ∑ n, g b n) / 65536

theorem var_real (g : Fin 4 → Fin 16384 → ℝ) :
    mean (fun b n => (g b n - mean g) * (g b n - mean g)) = mean (fun b n => g b n * g b n) - mean g * mean g := by
  have h := var_identity (Finset.univ : Finset (Fin 4 × Fin 16384)) (fun p => g p.1 p.2) 65536 (by norm_num)
    (by simp)
  simp only [Fintype.sum_prod_type] at h
  exact h

-- The statistic "sum over all rows, divided by the count" of real entries is the real mean.
theorem mean_coe (g : Fin 4 → Fin 16384 → ℝ) : Ideal.div (sumR fun b n => (g b n : EReal)) cnt = (mean g : EReal) := by
  have h : sumR (fun b n => (g b n : EReal)) = ((∑ b, ∑ n, g b n : ℝ) : EReal) := by
    unfold sumR
    rw [zero_add, coe_sum]
    exact Finset.sum_congr rfl fun b _ => (coe_sum _ _).symm
  rw [h, cnt_eq, Ideal.div_coe (by norm_num), ← EReal.coe_mul, mul_one_div, mean]

theorem muR_coe {N : ℕ} (g : Fin 4 → Fin 16384 → Fin N → ℝ) (o : Fin N) :
    muR (fun b n o => (g b n o : EReal)) o = (mean fun b n => g b n o : EReal) :=
  mean_coe fun b n => g b n o

theorem varR_coe {N : ℕ} (g : Fin 4 → Fin 16384 → Fin N → ℝ) (o : Fin N) :
    varR (fun b n o => (g b n o : EReal)) o
      = (mean fun b n => (g b n o - mean fun b n => g b n o) * (g b n o - mean fun b n => g b n o) : EReal) := by
  unfold varR
  rw [muR_coe g o]
  simp only [← EReal.coe_sub, ← EReal.coe_mul]
  exact mean_coe _

theorem varK_coe {N : ℕ} (g : Fin 4 → Fin 16384 → Fin N → ℝ) (o : Fin N) :
    varK (fun b n o => (g b n o : EReal)) o
      = ((mean (fun b n => g b n o * g b n o) - (mean fun b n => g b n o) * (mean fun b n => g b n o) : ℝ) : EReal) := by
  unfold varK
  rw [muK_eq_muR, muR_coe g o, sumK_eq_sumR]
  simp only [← EReal.coe_mul]
  rw [mean_coe fun b n => g b n o * g b n o, ← EReal.coe_sub]

-- For real-valued y the one-pass mean is real, the one-pass variance is a nonnegative real, and the two variances agree.
theorem stats_real {N : ℕ} (y : Fin 4 → Fin 16384 → Fin N → EReal) (hy : ∀ b n o, ∃ r : ℝ, y b n o = (r : EReal))
    (o : Fin N) : (∃ r : ℝ, muR y o = (r : EReal)) ∧ (∃ r : ℝ, 0 ≤ r ∧ varR y o = (r : EReal)) ∧ varK y o = varR y o := by
  choose g hg using hy
  obtain rfl : y = fun b n o => (g b n o : EReal) := by funext b n o; exact hg b n o
  exact ⟨⟨_, muR_coe g o⟩, ⟨_, div_nonneg (Finset.sum_nonneg fun b _ => Finset.sum_nonneg fun n _ => mul_self_nonneg _)
    (by norm_num), varR_coe g o⟩, by rw [varK_coe, varR_coe, var_real fun b n => g b n o]⟩

end Cert.Spec

end
-- ==== Proof.Algebra.Layers.lean ====
import proofs.«121860_j42219528520113_1_alg».proof.Proof.Algebra.Stats

noncomputable section

namespace Cert.Spec

open Idealize.ShloMosaic

variable (X : Fin 4 → Fin 16384 → Fin 64 → EReal) (Im : Fin 4 → Fin 64 → Fin 1024 → EReal)
  (W1 : Fin 128 → Fin 128 → EReal) (b1 g1 be1 : Fin 128 → EReal)
  (W2 : Fin 64 → Fin 128 → EReal) (b2 g2 be2 : Fin 64 → EReal)
  (W3 : Fin 1024 → Fin 64 → EReal) (b3 : Fin 1024 → EReal)

theorem sum128_split (f : Fin 128 → EReal) :
    ∑ j : Fin 128, f j
      = (∑ c : Fin 64, f ⟨c.val, by have := c.isLt; omega⟩)
        + ∑ c : Fin 64, f ⟨64 + c.val, by have := c.isLt; omega⟩ := by
  have h := Fin.sum_univ_add (a := 64) (b := 64) (fun i : Fin (64 + 64) => f i)
  exact h

theorem joined_lo (b : Fin 4) (n : Fin 16384) (c : Fin 64) :
    joined X Im b n ⟨c.val, by have := c.isLt; omega⟩ = pool Im b c := by
  unfold joined
  rw [dif_pos (show (⟨c.val, _⟩ : Fin 128).val < 64 from c.isLt)]

theorem joined_hi (b : Fin 4) (n : Fin 16384) (c : Fin 64) :
    joined X Im b n ⟨64 + c.val, by have := c.isLt; omega⟩ = X b n c := by
  unfold joined
  rw [dif_neg (show ¬ (⟨64 + c.val, _⟩ : Fin 128).val < 64 from by simp)]
  congr 1
  apply Fin.ext
  simp

theorem y1K_eq_y1R : y1K X Im W1 b1 = y1R X Im W1 b1 := by
  funext b n o
  unfold y1K y1R bias1
  rw [sum128_split (fun j => joined X Im b n j * W1 o j)]
  simp only [joined_lo, joined_hi]
  rw [← add_assoc, add_comm (∑ c : Fin 64, X b n c * W1 o ⟨64 + c.val, _⟩)]

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_dot {ι : Type*} [Fintype ι] (u v : ι → EReal) (c : EReal) (hu : ∀ i, ∃ r : ℝ, u i = r)
    (hv : ∀ i, ∃ r : ℝ, v i = r) (hc : ∃ r : ℝ, c = r) : ∃ r : ℝ, (∑ i, u i * v i) + c = r :=
  real_add (sum_real Finset.univ (fun i => u i * v i) fun i => real_mul (hu i) (hv i)) hc

theorem pool_real (hIm : ∀ b c k, ∃ r : ℝ, Im b c k = r) (b : Fin 4) (c : Fin 64) : ∃ r : ℝ, pool Im b c = r := by
  obtain ⟨s, hs⟩ := sum_real Finset.univ (fun k => Im b c k) (hIm b c)
  refine ⟨s * (1 / 1024), ?_⟩
  unfold pool
  rw [hs, zero_add, npix_eq, Ideal.div_coe (by norm_num), ← EReal.coe_mul]

theorem bnrelu_real {y mu var g be : EReal} (hy : ∃ r : ℝ, y = r) (hmu : ∃ r : ℝ, mu = r)
    (hg : ∃ r : ℝ, g = r) (hbe : ∃ r : ℝ, be = r) (hvar : ∃ r : ℝ, 0 ≤ r ∧ var = r) :
    ∃ r : ℝ, bnrelu y mu var g be = r := by
  obtain ⟨a, rfl⟩ := hy
  obtain ⟨m, rfl⟩ := hmu
  obtain ⟨v, hv, rfl⟩ := hvar
  obtain ⟨c, rfl⟩ := hg
  obtain ⟨d, rfl⟩ := hbe
  obtain ⟨e, he, hE⟩ := eps_pos
  have hpos : 0 < v + e := by linarith
  have hrs : Ideal.rsqrt ((v : EReal) + eps) = (((Real.sqrt (v + e))⁻¹ : ℝ) : EReal) := by
    rw [hE, ← EReal.coe_add, Ideal.rsqrt_coe, if_neg (not_lt.mpr hpos.le), if_neg hpos.ne']
  refine ⟨max ((a - m) * (Real.sqrt (v + e))⁻¹ * c + d) 0, ?_⟩
  unfold bnrelu
  rw [hrs, ← EReal.coe_sub, ← EReal.coe_mul, ← EReal.coe_mul, ← EReal.coe_add, ← EReal.coe_zero]
  exact (EReal.coe_strictMono.monotone.map_max).symm

-- One normalised layer over real-valued y: blockwise and one-pass statistics give the same value, and it is real.
theorem layer {N : ℕ} (g be : Fin N → EReal) (y : Fin 4 → Fin 16384 → Fin N → EReal)
    (hy : ∀ b n o, ∃ r : ℝ, y b n o = r) (hg : ∀ o, ∃ r : ℝ, g o = r) (hbe : ∀ o, ∃ r : ℝ, be o = r)
    (b : Fin 4) (n : Fin 16384) (o : Fin N) :
    bnrelu (y b n o) (muK y o) (varK y o) (g o) (be o) = bnrelu (y b n o) (muR y o) (varR y o) (g o) (be o)
    ∧ ∃ r : ℝ, bnrelu (y b n o) (muR y o) (varR y o) (g o) (be o) = r := by
  obtain ⟨hm, hv, e⟩ := stats_real y hy o
  rw [muK_eq_muR, e]
  exact ⟨rfl, bnrelu_real (hy b n o) hm (hg o) (hbe o) hv⟩

section Real

variable (hX : ∀ b n c, ∃ r : ℝ, X b n c = r) (hIm : ∀ b c k, ∃ r : ℝ, Im b c k = r)
  (hW1 : ∀ o j, ∃ r : ℝ, W1 o j = r) (hb1 : ∀ o, ∃ r : ℝ, b1 o = r) (hg1 : ∀ o, ∃ r : ℝ, g1 o = r)
  (hbe1 : ∀ o, ∃ r : ℝ, be1 o = r)
  (hW2 : ∀ o j, ∃ r : ℝ, W2 o j = r) (hb2 : ∀ o, ∃ r : ℝ, b2 o = r) (hg2 : ∀ o, ∃ r : ℝ, g2 o = r)
  (hbe2 : ∀ o, ∃ r : ℝ, be2 o = r)
  (hW3 : ∀ o j, ∃ r : ℝ, W3 o j = r) (hb3 : ∀ o, ∃ r : ℝ, b3 o = r)

include hX hIm hW1 hb1 hg1 hbe1 hW2 hb2 hg2 hbe2 hW3 hb3 in

theorem outK_eq_outR :
    outK X Im W1 b1 g1 be1 W2 b2 g2 be2 W3 b3 = outR X Im W1 b1 g1 be1 W2 b2 g2 be2 W3 b3 := by
  have hy1 : ∀ b n o, ∃ r : ℝ, y1R X Im W1 b1 b n o = r := fun b n o => by
    unfold y1R
    exact real_dot _ _ _ (fun j => by unfold joined; split; exacts [pool_real Im hIm b _, hX b n _]) (hW1 o) (hb1 o)
  have e1 : h1K X Im W1 b1 g1 be1 = h1R X Im W1 b1 g1 be1 := by
    unfold h1K h1R
    rw [y1K_eq_y1R]
    funext b n o
    exact (layer g1 be1 _ hy1 hg1 hbe1 b n o).1
  have hy2 : ∀ b n o, ∃ r : ℝ, y2R X Im W1 b1 g1 be1 W2 b2 b n o = r := fun b n o => by
    unfold y2R y2
    exact real_dot _ _ _ (fun j => (layer g1 be1 _ hy1 hg1 hbe1 b n j).2) (hW2 o) (hb2 o)
  have e2 : h2K X Im W1 b1 g1 be1 W2 b2 g2 be2 = h2R X Im W1 b1 g1 be1 W2 b2 g2 be2 := by
    unfold h2K h2R y2K
    rw [e1]
    funext b n o
    exact (layer g2 be2 _ hy2 hg2 hbe2 b n o).1
  funext b n c
  unfold outK outR x3K x3R
  rw [e2, npix_eq, invpix_eq, Ideal.div_coe (by norm_num)]

end Real

end Cert.Spec

end
-- ==== Proof.Finite.lean ====
import proofs.«121860_j42219528520113_1_alg».proof.Pre_finite_inputs
import Idealize.ShloMosaic.PureOps.Ideal.Laws
import Idealize.ShloMosaic.Lib.ReduceAll

noncomputable section

namespace Cert.Finite

open Idealize.ShloMosaic Cert.Pre_finite_inputs

theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

instance : Subsingleton S_.Idx := ⟨fun a b => funext fun d => d.elim0⟩

variable [Cert.Pre_finite_inputs.Facts]

theorem all_real {s : Shape} {axes : List (Fin s.rank)} (a : FVec Ideal s .f32) (hb : (⟨0, ![]⟩ : Shape).BroadcastsInDim s ![])
    (h : s.ReducesTo axes S_) (hu : 0 < S_.numel) (j : S_.Idx)
    (e : Host.reduce IntOp.andi (cmpf .olt (Host.absf a) (broadcastInDim s ![] hb (constant S_ .f32 0x7F800000#32))) (constantI S_ 1 1#1) h hu j = 1#1)
    (i : s.Idx) : ∃ r : ℝ, a i = (r : EReal) := by
  have hi := Host.reduce_andi_all _ _ h hu j e i
  exact real_of_abs_lt (a i) hi

theorem vandi_eq_one (x y : IVec S_ 1) (j : S_.Idx) : andi x y j = 1#1 ↔ x j = 1#1 ∧ y j = 1#1 := IntOp.andi_eq_one

theorem pre_real (a0 : FVec Ideal S4x16384x64 .f32) (a1 : FVec Ideal S4x64x16x64 .f32) (a2 : FVec Ideal S128x128 .f32) (a3 a4 a5 : FVec Ideal S128 .f32)
    (a6 : FVec Ideal S64x128 .f32) (a7 a8 a9 : FVec Ideal S64 .f32) (a10 : FVec Ideal S1024x64 .f32) (a11 : FVec Ideal S1024 .f32)
    (h : fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) := by
  have h0 := congrFun h (fun d => d.elim0)
  dsimp only [fn, fn_part1, fn_part2, fn_part3] at h0
  simp only [vandi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨all_real a0 _ _ _ _ e0, all_real a1 _ _ _ _ e1, all_real a2 _ _ _ _ e2, all_real a3 _ _ _ _ e3, all_real a4 _ _ _ _ e4,
    all_real a5 _ _ _ _ e5, all_real a6 _ _ _ _ e6, all_real a7 _ _ _ _ e7, all_real a8 _ _ _ _ e8, all_real a9 _ _ _ _ e9,
    all_real a10 _ _ _ _ e10, all_real a11 _ _ _ _ e11⟩

end Cert.Finite

end
-- ==== Proof.lean ====
import proofs.«121860_j42219528520113_1_alg».proof.Defs
import proofs.«121860_j42219528520113_1_alg».proof.Proof.Gen.Kernel
import proofs.«121860_j42219528520113_1_alg».proof.Proof.Gen.KernelIdeal
import proofs.«121860_j42219528520113_1_alg».proof.Proof.Gen.ReferenceIdeal
import proofs.«121860_j42219528520113_1_alg».proof.Proof.Gen.Pre_finite_inputs
import proofs.«121860_j42219528520113_1_alg».proof.Proof.K.Run
import proofs.«121860_j42219528520113_1_alg».proof.Proof.KI.Run
import proofs.«121860_j42219528520113_1_alg».proof.Proof.KI.Value
import proofs.«121860_j42219528520113_1_alg».proof.Proof.Ref.Run
import proofs.«121860_j42219528520113_1_alg».proof.Proof.Ref.Read
import proofs.«121860_j42219528520113_1_alg».proof.Proof.Algebra.Layers
import proofs.«121860_j42219528520113_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_r : Cert.frame_ReferenceIdeal := fun m ρ _ =>
  (θ_run Cert.ReferenceIdeal.defs _ _).mono (fun _ h c => (h c).2) (Cert.ReferenceIdeal.RefRun.run m ρ)

theorem idx3 (j : Cert.KernelIdeal.S4x16384x64.Idx) : ∃ (b : Fin 4) (n : Fin 16384) (q : Fin 64), j = ix3 b n q :=
  ⟨j 0, j 1, j 2, eq_ix3 j⟩

/-- Both programs end with the same array: the kernel's value and the reference's are two arrangements of one sum, equal when every input entry is a real number. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v23), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v23 (by decide)), Cert.KernelIdeal.Hand.args_kept m ρ r.2 h c⟩
  · refine (θ_run Cert.ReferenceIdeal.defs _ _).mono (fun r h c => ⟨(h c).1.trans ?_, (h c).2⟩) (Cert.ReferenceIdeal.RefRun.run m' ρ')
    obtain ⟨e0, e1, e2, e3, e4, e5, e6, e7, e8, e9, e10, e11⟩ := hagree c
    rw [e0, e1, e2, e3, e4, e5, e6, e7, e8, e9, e10, e11]
    obtain ⟨r0, r1, r2, r3, r4, r5, r6, r7, r8, r9, r10, r11⟩ := Cert.Finite.pre_real _ _ _ _ _ _ _ _ _ _ _ _ (hpre c)
    funext j
    obtain ⟨b, n, q, rfl⟩ := idx3 j
    rw [Cert.ReferenceIdeal.RefRead.result_apply]
    refine Eq.trans ?_ (Cert.KernelIdeal.Hand.kernel_value m ρ c b n q).symm
    exact (congrFun (congrFun (congrFun (Cert.Spec.outK_eq_outR _ _ _ _ _ _ _ _ _ _ _ _
      (fun b n c => r0 _) (fun b c k => r1 _) (fun o j => r2 _) (fun o => r3 _) (fun o => r4 _) (fun o => r5 _)
      (fun o j => r6 _) (fun o => r7 _) (fun o => r8 _) (fun o => r9 _) (fun k j => r10 _) (fun k => r11 _)) b) n) q).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
